-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v260) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S400000x16 : Shape := ⟨2, ![400000, 16]⟩
abbrev S2x400000 : Shape := ⟨2, ![2, 400000]⟩
abbrev S128x128 : Shape := ⟨2, ![128, 128]⟩
abbrev S128 : Shape := ⟨1, ![128]⟩
abbrev S3x272x128 : Shape := ⟨3, ![3, 272, 128]⟩
abbrev S3x128 : Shape := ⟨2, ![3, 128]⟩
abbrev S3x128x128 : Shape := ⟨3, ![3, 128, 128]⟩
abbrev S3x256x128 : Shape := ⟨3, ![3, 256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S400000x16 : S_.BroadcastsInDim S400000x16 (![] : Fin 0 → Fin S400000x16.rank)
  reducesTo_S400000x16_S_d0_1 : S400000x16.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x272x128 : S_.BroadcastsInDim S3x272x128 (![] : Fin 0 → Fin S3x272x128.rank)
  reducesTo_S3x272x128_S_d0_1_2 : S3x272x128.ReducesTo [0, 1, 2] S_
  bcast_S_S3x128 : S_.BroadcastsInDim S3x128 (![] : Fin 0 → Fin S3x128.rank)
  reducesTo_S3x128_S_d0_1 : S3x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x256x128 : S_.BroadcastsInDim S3x256x128 (![] : Fin 0 → Fin S3x256x128.rank)
  reducesTo_S3x256x128_S_d0_1_2 : S3x256x128.ReducesTo [0, 1, 2] S_
  bcast_S_S2x400000 : S_.BroadcastsInDim S2x400000 (![] : Fin 0 → Fin S2x400000.rank)
  reducesTo_S2x400000_S_d0_1 : S2x400000.ReducesTo [0, 1] S_

variable [Facts]

def fn_part4 {F : FTy → Type} [FloatOps F] (main_arg2 : IVec S2x400000 32) (main_v63 : IVec S_ 1) (main_v67 : IVec S_ 1) : IVec S_ 1 :=
  let main_v68 : IVec S_ 1 := andi main_v63 main_v67
  let main_c_26 : IVec S_ 32 := constantI S_ 32 0#32
  let main_v69 : IVec S2x400000 32 := broadcastInDim S2x400000 ![] bcast_S_S2x400000 main_c_26
  let main_v70 : IVec S2x400000 1 := cmpi .sge main_arg2 main_v69
  let main_c_27 : IVec S_ 32 := constantI S_ 32 50000#32
  let main_v71 : IVec S2x400000 32 := broadcastInDim S2x400000 ![] bcast_S_S2x400000 main_c_27
  let main_v72 : IVec S2x400000 1 := cmpi .slt main_arg2 main_v71
  let main_v73 : IVec S2x400000 1 := andi main_v70 main_v72
  let main_c_28 : IVec S_ 1 := constantI S_ 1 1#1
  let main_v74 : IVec S_ 1 := (fun x v => Host.reduce IntOp.andi x v reducesTo_S2x400000_S_d0_1 h_S_) main_v73 main_c_28
  let main_v75 : IVec S_ 1 := andi main_v68 main_v74
  main_v75

def fn_part3 {F : FTy → Type} [FloatOps F] (main_arg2 : IVec S2x400000 32) (main_arg12 : FVec F S3x128 .f32) (main_arg13 : FVec F S128 .f32) (main_arg14 : FVec F S128 .f32) (main_v48 : IVec S_ 1) (main_v49 : FVec F S3x128 .f32) (main_v50 : FVec F S3x128 .f32) : IVec S_ 1 :=
  let main_v51 : IVec S3x128 1 := cmpf .olt main_v49 main_v50
  let main_c_19 : IVec S_ 1 := constantI S_ 1 1#1
  let main_v52 : IVec S_ 1 := (fun x v => Host.reduce IntOp.andi x v reducesTo_S3x128_S_d0_1 h_S_) main_v51 main_c_19
  let main_v53 : IVec S_ 1 := andi main_v48 main_v52
  let main_v54 : FVec F S3x128 .f32 := Host.absf main_arg12
  let main_cst_20 : FVec F S_ .f32 := constant S_ .f32 0x7F800000#32
  let main_v55 : FVec F S3x128 .f32 := broadcastInDim S3x128 ![] bcast_S_S3x128 main_cst_20
  let main_v56 : IVec S3x128 1 := cmpf .olt main_v54 main_v55
  let main_c_21 : IVec S_ 1 := constantI S_ 1 1#1
  let main_v57 : IVec S_ 1 := (fun x v => Host.reduce IntOp.andi x v reducesTo_S3x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_v63 main_v67

def fn_part2 {F : FTy → Type} [FloatOps F] (main_arg2 : IVec S2x400000 32) (main_arg8 : FVec F S3x128 .f32) (main_arg9 : FVec F S3x256x128 .f32) (main_arg10 : FVec F S3x128 .f32) (main_arg11 : FVec F S3x128 .f32) (main_arg12 : FVec F S3x128 .f32) (main_arg13 : FVec F S128 .f32) (main_arg14 : FVec F S128 .f32) (main_v33 : IVec S_ 1) : IVec S_ 1 :=
  let main_v34 : FVec F S3x128 .f32 := Host.absf main_arg8
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x256x128 .f32 := Host.absf main_arg9
  let main_cst_14 : FVec F S_ .f32 := constant S_ .f32 0x7F800000#32
  let main_v40 : FVec F S3x256x128 .f32 := broadcastInDim S3x256x128 ![] bcast_S_S3x256x128 main_cst_14
  let main_v41 : IVec S3x256x128 1 := cmpf .olt main_v39 main_v40
  let main_c_15 : IVec S_ 1 := constantI S_ 1 1#1
  let main_v42 : IVec S_ 1 := (fun x v => Host.reduce IntOp.andi x v reducesTo_S3x256x128_S_d0_1_2 h_S_) main_v41 main_c_15
  let main_v43 : IVec S_ 1 := andi main_v38 main_v42
  let main_v44 : FVec F S3x128 .f32 := Host.absf main_arg10
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S3x128 .f32 := Host.absf main_arg11
  let main_cst_18 : FVec F S_ .f32 := constant S_ .f32 0x7F800000#32
  let main_v50 : FVec F S3x128 .f32 := broadcastInDim S3x128 ![] bcast_S_S3x128 main_cst_18
  fn_part3 (F := F) main_arg2 main_arg12 main_arg13 main_arg14 main_v48 main_v49 main_v50

def fn_part1 {F : FTy → Type} [FloatOps F] (main_arg2 : IVec S2x400000 32) (main_arg5 : FVec F S3x272x128 .f32) (main_arg6 : FVec F S3x128 .f32) (main_arg7 : FVec F S3x128x128 .f32) (main_arg8 : FVec F S3x128 .f32) (main_arg9 : FVec F S3x256x128 .f32) (main_arg10 : FVec F S3x128 .f32) (main_arg11 : FVec F S3x128 .f32) (main_arg12 : FVec F S3x128 .f32) (main_arg13 : FVec F S128 .f32) (main_arg14 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S3x272x128 .f32 := Host.absf main_arg5
  let main_cst_6 : FVec F S_ .f32 := constant S_ .f32 0x7F800000#32
  let main_v20 : FVec F S3x272x128 .f32 := broadcastInDim S3x272x128 ![] bcast_S_S3x272x128 main_cst_6
  let main_v21 : IVec S3x272x128 1 := cmpf .olt main_v19 main_v20
  let main_c_7 : IVec S_ 1 := constantI S_ 1 1#1
  let main_v22 : IVec S_ 1 := (fun x v => Host.reduce IntOp.andi x v reducesTo_S3x272x128_S_d0_1_2 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128x128 .f32 := Host.absf main_arg7
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg2 main_arg8 main_arg9 main_arg10 main_arg11 main_arg12 main_arg13 main_arg14 main_v33

def fn {F : FTy → Type} [FloatOps F] (main_arg0 : FVec F S50000x128 .f32) (main_arg1 : FVec F S400000x16 .f32) (main_arg2 : IVec S2x400000 32) (main_arg3 : FVec F S128x128 .f32) (main_arg4 : FVec F S128 .f32) (main_arg5 : FVec F S3x272x128 .f32) (main_arg6 : FVec F S3x128 .f32) (main_arg7 : FVec F S3x128x128 .f32) (main_arg8 : FVec F S3x128 .f32) (main_arg9 : FVec F S3x256x128 .f32) (main_arg10 : FVec F S3x128 .f32) (main_arg11 : FVec F S3x128 .f32) (main_arg12 : FVec F S3x128 .f32) (main_arg13 : FVec F S128 .f32) (main_arg14 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S400000x16 .f32 := Host.absf main_arg1
  let main_cst_0 : FVec F S_ .f32 := constant S_ .f32 0x7F800000#32
  let main_v5 : FVec F S400000x16 .f32 := broadcastInDim S400000x16 ![] bcast_S_S400000x16 main_cst_0
  let main_v6 : IVec S400000x16 1 := cmpf .olt main_v4 main_v5
  let main_c_1 : IVec S_ 1 := constantI S_ 1 1#1
  let main_v7 : IVec S_ 1 := (fun x v => Host.reduce IntOp.andi x v reducesTo_S400000x16_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_arg9 main_arg10 main_arg11 main_arg12 main_arg13 main_arg14 main_v13 main_v16
-- ==== Kernel.lean ====
abbrev S50000x128 : Shape := ⟨2, ![50000, 128]⟩
abbrev S400000x16 : Shape := ⟨2, ![400000, 16]⟩
abbrev S2x400000 : Shape := ⟨2, ![2, 400000]⟩
abbrev S128x128 : Shape := ⟨2, ![128, 128]⟩
abbrev S128 : Shape := ⟨1, ![128]⟩
abbrev S3x272x128 : Shape := ⟨3, ![3, 272, 128]⟩
abbrev S3x128 : Shape := ⟨2, ![3, 128]⟩
abbrev S3x128x128 : Shape := ⟨3, ![3, 128, 128]⟩
abbrev S3x256x128 : Shape := ⟨3, ![3, 256, 128]⟩
abbrev S1x400000 : Shape := ⟨2, ![1, 400000]⟩
abbrev S400000 : Shape := ⟨1, ![400000]⟩
abbrev S5000x128 : Shape := ⟨2, ![5000, 128]⟩
abbrev S1x128 : Shape := ⟨2, ![1, 128]⟩
abbrev S_ : Shape := ⟨0, ![]⟩
abbrev S400000x1 : Shape := ⟨2, ![400000, 1]⟩
abbrev S1 : Shape := ⟨1, ![1]⟩
abbrev S1x1 : Shape := ⟨2, ![1, 1]⟩
abbrev S400000x128 : Shape := ⟨2, ![400000, 128]⟩
abbrev S1x272x128 : Shape := ⟨3, ![1, 272, 128]⟩
abbrev S272x128 : Shape := ⟨2, ![272, 128]⟩
abbrev S1x128x128 : Shape := ⟨3, ![1, 128, 128]⟩
abbrev S4000x128 : Shape := ⟨2, ![4000, 128]⟩
abbrev S4000x16 : Shape := ⟨2, ![4000, 16]⟩
abbrev S16x128 : Shape := ⟨2, ![16, 128]⟩
abbrev S1x256x128 : Shape := ⟨3, ![1, 256, 128]⟩
abbrev S256x128 : Shape := ⟨2, ![256, 128]⟩
abbrev S5000 : Shape := ⟨1, ![5000]⟩
abbrev S5000x1 : Shape := ⟨2, ![5000, 1]⟩

abbrev nBuf : Space → Nat
  | .hbm => 232
  | .vmem => 77
  | .smem => 0
  | _ => 0

abbrev hbmTy0_0 (i : Nat) : BufTy := match i % 128 with
  | 0 => ⟨S50000x128, .f32⟩
  | 1 => ⟨S400000x16, .f32⟩
  | 2 => ⟨S2x400000, .i32⟩
  | 3 => ⟨S128x128, .f32⟩
  | 4 => ⟨S128, .f32⟩
  | 5 => ⟨S3x272x128, .f32⟩
  | 6 => ⟨S3x128, .f32⟩
  | 7 => ⟨S3x128x128, .f32⟩
  | 8 => ⟨S3x128, .f32⟩
  | 9 => ⟨S3x256x128, .f32⟩
  | 10 => ⟨S3x128, .f32⟩
  | 11 => ⟨S3x128, .f32⟩
  | 12 => ⟨S3x128, .f32⟩
  | 13 => ⟨S128, .f32⟩
  | 14 => ⟨S128, .f32⟩
  | 15 => ⟨S1x400000, .i32⟩
  | 16 => ⟨S400000, .i32⟩
  | 17 => ⟨S1x400000, .i32⟩
  | 18 => ⟨S400000, .i32⟩
  | 19 => ⟨S128x128, .bf16⟩
  | 20 => ⟨S3x272x128, .bf16⟩
  | 21 => ⟨S3x128x128, .bf16⟩
  | 22 => ⟨S3x256x128, .bf16⟩
  | 23 => ⟨S50000x128, .f32⟩
  | 24 => ⟨S_, .i32⟩
  | 25 => ⟨S400000, .i32⟩
  | 26 => ⟨S400000, .i1⟩
  | 27 => ⟨S_, .i32⟩
  | 28 => ⟨S400000, .i32⟩
  | 29 => ⟨S400000, .i32⟩
  | 30 => ⟨S400000, .i32⟩
  | 31 => ⟨S400000x1, .i32⟩
  | 32 => ⟨S1, .i32⟩
  | 33 => ⟨S_, .i32⟩
  | 34 => ⟨S400000x1, .i32⟩
  | 35 => ⟨S400000x1, .i1⟩
  | 36 => ⟨S1x1, .i32⟩
  | 37 => ⟨S400000x1, .i32⟩
  | 38 => ⟨S400000x1, .i1⟩
  | 39 => ⟨S400000x1, .i1⟩
  | 40 => ⟨S_, .i1⟩
  | 41 => ⟨S400000, .i1⟩
  | 42 => ⟨S400000x128, .f32⟩
  | 43 => ⟨S400000x128, .i1⟩
  | 44 => ⟨S_, .f32⟩
  | 45 => ⟨S400000x128, .f32⟩
  | 46 => ⟨S400000x128, .f32⟩
  | 47 => ⟨S_, .i32⟩
  | 48 => ⟨S400000, .i32⟩
  | 49 => ⟨S400000, .i1⟩
  | 50 => ⟨S_, .i32⟩
  | 51 => ⟨S400000, .i32⟩
  | 52 => ⟨S400000, .i32⟩
  | 53 => ⟨S400000, .i32⟩
  | 54 => ⟨S400000x1, .i32⟩
  | 55 => ⟨S1, .i32⟩
  | 56 => ⟨S_, .i32⟩
  | 57 => ⟨S400000x1, .i32⟩
  | 58 => ⟨S400000x1, .i1⟩
  | 59 => ⟨S1x1, .i32⟩
  | 60 => ⟨S400000x1, .i32⟩
  | 61 => ⟨S400000x1, .i1⟩
  | 62 => ⟨S400000x1, .i1⟩
  | 63 => ⟨S_, .i1⟩
  | 64 => ⟨S400000, .i1⟩
  | 65 => ⟨S400000x128, .f32⟩
  | 66 => ⟨S400000x128, .i1⟩
  | 67 => ⟨S_, .f32⟩
  | 68 => ⟨S400000x128, .f32⟩
  | 69 => ⟨S400000x128, .f32⟩
  | 70 => ⟨S1x272x128, .bf16⟩
  | 71 => ⟨S272x128, .bf16⟩
  | 72 => ⟨S1x128, .f32⟩
  | 73 => ⟨S128, .f32⟩
  | 74 => ⟨S1x128x128, .bf16⟩
  | 75 => ⟨S128x128, .bf16⟩
  | 76 => ⟨S1x128, .f32⟩
  | 77 => ⟨S128, .f32⟩
  | 78 => ⟨S400000x128, .f32⟩
  | 79 => ⟨S_, .f32⟩
  | 80 => ⟨S50000x128, .f32⟩
  | 81 => ⟨S400000x1, .i32⟩
  | 82 => ⟨S50000x128, .f32⟩
  | 83 => ⟨S1x256x128, .bf16⟩
  | 84 => ⟨S256x128, .bf16⟩
  | 85 => ⟨S1x128, .f32⟩
  | 86 => ⟨S128, .f32⟩
  | 87 => ⟨S1x128, .f32⟩
  | 88 => ⟨S128, .f32⟩
  | 89 => ⟨S1x128, .f32⟩
  | 90 => ⟨S128, .f32⟩
  | 91 => ⟨S50000x128, .f32⟩
  | 92 => ⟨S_, .i32⟩
  | 93 => ⟨S400000, .i32⟩
  | 94 => ⟨S400000, .i1⟩
  | 95 => ⟨S_, .i32⟩
  | 96 => ⟨S400000, .i32⟩
  | 97 => ⟨S400000, .i32⟩
  | 98 => ⟨S400000, .i32⟩
  | 99 => ⟨S400000x1, .i32⟩
  | 100 => ⟨S1, .i32⟩
  | 101 => ⟨S_, .i32⟩
  | 102 => ⟨S400000x1, .i32⟩
  | 103 => ⟨S400000x1, .i1⟩
  | 104 => ⟨S1x1, .i32⟩
  | 105 => ⟨S400000x1, .i32⟩
  | 106 => ⟨S400000x1, .i1⟩
  | 107 => ⟨S400000x1, .i1⟩
  | 108 => ⟨S_, .i1⟩
  | 109 => ⟨S400000, .i1⟩
  | 110 => ⟨S400000x128, .f32⟩
  | 111 => ⟨S400000x128, .i1⟩
  | 112 => ⟨S_, .f32⟩
  | 113 => ⟨S400000x128, .f32⟩
  | 114 => ⟨S400000x128, .f32⟩
  | 115 => ⟨S_, .i32⟩
  | 116 => ⟨S400000, .i32⟩
  | 117 => ⟨S400000, .i1⟩
  | 118 => ⟨S_, .i32⟩
  | 119 => ⟨S400000, .i32⟩
  | 120 => ⟨S400000, .i32⟩
  | 121 => ⟨S400000, .i32⟩
  | 122 => ⟨S400000x1, .i32⟩
  | 123 => ⟨S1, .i32⟩
  | 124 => ⟨S_, .i32⟩
  | 125 => ⟨S400000x1, .i32⟩
  | 126 => ⟨S400000x1, .i1⟩
  | 127 => ⟨S1x1, .i32⟩
  | _ => ⟨S50000x128, .f32⟩

abbrev hbmTy0_1 (i : Nat) : BufTy := match i % 128 with
  | 0 => ⟨S400000x1, .i32⟩
  | 1 => ⟨S400000x1, .i1⟩
  | 2 => ⟨S400000x1, .i1⟩
  | 3 => ⟨S_, .i1⟩
  | 4 => ⟨S400000, .i1⟩
  | 5 => ⟨S400000x128, .f32⟩
  | 6 => ⟨S400000x128, .i1⟩
  | 7 => ⟨S_, .f32⟩
  | 8 => ⟨S400000x128, .f32⟩
  | 9 => ⟨S400000x128, .f32⟩
  | 10 => ⟨S1x272x128, .bf16⟩
  | 11 => ⟨S272x128, .bf16⟩
  | 12 => ⟨S1x128, .f32⟩
  | 13 => ⟨S128, .f32⟩
  | 14 => ⟨S1x128x128, .bf16⟩
  | 15 => ⟨S128x128, .bf16⟩
  | 16 => ⟨S1x128, .f32⟩
  | 17 => ⟨S128, .f32⟩
  | 18 => ⟨S400000x128, .f32⟩
  | 19 => ⟨S_, .f32⟩
  | 20 => ⟨S50000x128, .f32⟩
  | 21 => ⟨S400000x1, .i32⟩
  | 22 => ⟨S50000x128, .f32⟩
  | 23 => ⟨S1x256x128, .bf16⟩
  | 24 => ⟨S256x128, .bf16⟩
  | 25 => ⟨S1x128, .f32⟩
  | 26 => ⟨S128, .f32⟩
  | 27 => ⟨S1x128, .f32⟩
  | 28 => ⟨S128, .f32⟩
  | 29 => ⟨S1x128, .f32⟩
  | 30 => ⟨S128, .f32⟩
  | 31 => ⟨S50000x128, .f32⟩
  | 32 => ⟨S_, .i32⟩
  | 33 => ⟨S400000, .i32⟩
  | 34 => ⟨S400000, .i1⟩
  | 35 => ⟨S_, .i32⟩
  | 36 => ⟨S400000, .i32⟩
  | 37 => ⟨S400000, .i32⟩
  | 38 => ⟨S400000, .i32⟩
  | 39 => ⟨S400000x1, .i32⟩
  | 40 => ⟨S1, .i32⟩
  | 41 => ⟨S_, .i32⟩
  | 42 => ⟨S400000x1, .i32⟩
  | 43 => ⟨S400000x1, .i1⟩
  | 44 => ⟨S1x1, .i32⟩
  | 45 => ⟨S400000x1, .i32⟩
  | 46 => ⟨S400000x1, .i1⟩
  | 47 => ⟨S400000x1, .i1⟩
  | 48 => ⟨S_, .i1⟩
  | 49 => ⟨S400000, .i1⟩
  | 50 => ⟨S400000x128, .f32⟩
  | 51 => ⟨S400000x128, .i1⟩
  | 52 => ⟨S_, .f32⟩
  | 53 => ⟨S400000x128, .f32⟩
  | 54 => ⟨S400000x128, .f32⟩
  | 55 => ⟨S_, .i32⟩
  | 56 => ⟨S400000, .i32⟩
  | 57 => ⟨S400000, .i1⟩
  | 58 => ⟨S_, .i32⟩
  | 59 => ⟨S400000, .i32⟩
  | 60 => ⟨S400000, .i32⟩
  | 61 => ⟨S400000, .i32⟩
  | 62 => ⟨S400000x1, .i32⟩
  | 63 => ⟨S1, .i32⟩
  | 64 => ⟨S_, .i32⟩
  | 65 => ⟨S400000x1, .i32⟩
  | 66 => ⟨S400000x1, .i1⟩
  | 67 => ⟨S1x1, .i32⟩
  | 68 => ⟨S400000x1, .i32⟩
  | 69 => ⟨S400000x1, .i1⟩
  | 70 => ⟨S400000x1, .i1⟩
  | 71 => ⟨S_, .i1⟩
  | 72 => ⟨S400000, .i1⟩
  | 73 => ⟨S400000x128, .f32⟩
  | 74 => ⟨S400000x128, .i1⟩
  | 75 => ⟨S_, .f32⟩
  | 76 => ⟨S400000x128, .f32⟩
  | 77 => ⟨S400000x128, .f32⟩
  | 78 => ⟨S1x272x128, .bf16⟩
  | 79 => ⟨S272x128, .bf16⟩
  | 80 => ⟨S1x128, .f32⟩
  | 81 => ⟨S128, .f32⟩
  | 82 => ⟨S1x128x128, .bf16⟩
  | 83 => ⟨S128x128, .bf16⟩
  | 84 => ⟨S1x128, .f32⟩
  | 85 => ⟨S128, .f32⟩
  | 86 => ⟨S400000x128, .f32⟩
  | 87 => ⟨S_, .f32⟩
  | 88 => ⟨S50000x128, .f32⟩
  | 89 => ⟨S400000x1, .i32⟩
  | 90 => ⟨S50000x128, .f32⟩
  | 91 => ⟨S1x256x128, .bf16⟩
  | 92 => ⟨S256x128, .bf16⟩
  | 93 => ⟨S1x128, .f32⟩
  | 94 => ⟨S128, .f32⟩
  | 95 => ⟨S1x128, .f32⟩
  | 96 => ⟨S128, .f32⟩
  | 97 => ⟨S1x128, .f32⟩
  | 98 => ⟨S128, .f32⟩
  | 99 => ⟨S50000x128, .f32⟩
  | 100 => ⟨S1x128, .f32⟩
  | 101 => ⟨S_, .f32⟩
  | 102 => ⟨S1x128, .f32⟩
  | 103 => ⟨S1x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x16, .f32⟩
  | .local _ .vmem, ⟨11, _⟩ => ⟨S4000x16, .f32⟩
  | .local _ .vmem, ⟨12, _⟩ => ⟨S272x128, .bf16⟩
  | .local _ .vmem, ⟨13, _⟩ => ⟨S128, .f32⟩
  | .local _ .vmem, ⟨14, _⟩ => ⟨S128x128, .bf16⟩
  | .local _ .vmem, ⟨15, _⟩ => ⟨S128, .f32⟩
  | .local _ .vmem, ⟨16, _⟩ => ⟨S4000x128, .f32⟩
  | .local _ .vmem, ⟨17, _⟩ => ⟨S4000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S256x128, .bf16⟩
  | .local _ .vmem, ⟨23, _⟩ => ⟨S128, .f32⟩
  | .local _ .vmem, ⟨24, _⟩ => ⟨S128, .f32⟩
  | .local _ .vmem, ⟨25, _⟩ => ⟨S128, .f32⟩
  | .local _ .vmem, ⟨26, _⟩ => ⟨S5000x128, .f32⟩
  | .local _ .vmem, ⟨27, _⟩ => ⟨S5000x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S4000x16, .f32⟩
  | .local _ .vmem, ⟨33, _⟩ => ⟨S4000x16, .f32⟩
  | .local _ .vmem, ⟨34, _⟩ => ⟨S272x128, .bf16⟩
  | .local _ .vmem, ⟨35, _⟩ => ⟨S128, .f32⟩
  | .local _ .vmem, ⟨36, _⟩ => ⟨S128x128, .bf16⟩
  | .local _ .vmem, ⟨37, _⟩ => ⟨S128, .f32⟩
  | .local _ .vmem, ⟨38, _⟩ => ⟨S4000x128, .f32⟩
  | .local _ .vmem, ⟨39, _⟩ => ⟨S4000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S256x128, .bf16⟩
  | .local _ .vmem, ⟨45, _⟩ => ⟨S128, .f32⟩
  | .local _ .vmem, ⟨46, _⟩ => ⟨S128, .f32⟩
  | .local _ .vmem, ⟨47, _⟩ => ⟨S128, .f32⟩
  | .local _ .vmem, ⟨48, _⟩ => ⟨S5000x128, .f32⟩
  | .local _ .vmem, ⟨49, _⟩ => ⟨S5000x128, .f32⟩
  | .local _ .vmem, ⟨50, _⟩ => ⟨S4000x128, .f32⟩
  | .local _ .vmem, ⟨51, _⟩ => ⟨S4000x128, .f32⟩
  | .local _ .vmem, ⟨52, _⟩ => ⟨S4000x128, .f32⟩
  | .local _ .vmem, ⟨53, _⟩ => ⟨S4000x128, .f32⟩
  | .local _ .vmem, ⟨54, _⟩ => ⟨S4000x16, .f32⟩
  | .local _ .vmem, ⟨55, _⟩ => ⟨S4000x16, .f32⟩
  | .local _ .vmem, ⟨56, _⟩ => ⟨S272x128, .bf16⟩
  | .local _ .vmem, ⟨57, _⟩ => ⟨S128, .f32⟩
  | .local _ .vmem, ⟨58, _⟩ => ⟨S128x128, .bf16⟩
  | .local _ .vmem, ⟨59, _⟩ => ⟨S128, .f32⟩
  | .local _ .vmem, ⟨60, _⟩ => ⟨S4000x128, .f32⟩
  | .local _ .vmem, ⟨61, _⟩ => ⟨S4000x128, .f32⟩
  | .local _ .vmem, ⟨62, _⟩ => ⟨S5000x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | .local _ .vmem, ⟨66, _⟩ => ⟨S256x128, .bf16⟩
  | .local _ .vmem, ⟨67, _⟩ => ⟨S128, .f32⟩
  | .local _ .vmem, ⟨68, _⟩ => ⟨S128, .f32⟩
  | .local _ .vmem, ⟨69, _⟩ => ⟨S128, .f32⟩
  | .local _ .vmem, ⟨70, _⟩ => ⟨S5000x128, .f32⟩
  | .local _ .vmem, ⟨71, _⟩ => ⟨S5000x128, .f32⟩
  | .local _ .vmem, ⟨72, _⟩ => ⟨S5000x128, .f32⟩
  | .local _ .vmem, ⟨73, _⟩ => ⟨S5000x128, .f32⟩
  | .local _ .vmem, ⟨74, _⟩ => ⟨S128, .f32⟩
  | .local _ .vmem, ⟨75, _⟩ => ⟨S128, .f32⟩
  | .local _ .vmem, ⟨76, _⟩ => ⟨S1x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | _, _ => false

abbrev semScoped : Fin 0 → Bool
  | ⟨_, h⟩ => absurd h (Nat.not_lt_zero _)

abbrev dmaSemScoped : Fin 77 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  ofTc nBuf bufTy 0 77 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v9 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v10 : Ref sig .tc := ⟨.hbm, 69, rfl⟩
abbrev main_v11 : Ref sig .tc := ⟨.hbm, 70, rfl⟩
abbrev main_v12 : Ref sig .tc := ⟨.hbm, 71, rfl⟩
abbrev main_v13 : Ref sig .tc := ⟨.hbm, 72, rfl⟩
abbrev main_v14 : Ref sig .tc := ⟨.hbm, 73, rfl⟩
abbrev main_v15 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev main_cst : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_call2_c : Ref sig .tc := ⟨.hbm, 92, rfl⟩
abbrev main_call2_v0 : Ref sig .tc := ⟨.hbm, 93, rfl⟩
abbrev main_call2_v1 : Ref sig .tc := ⟨.hbm, 94, rfl⟩
abbrev main_call2_c_0 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_c_1 : Ref sig .tc := ⟨.hbm, 100, rfl⟩
abbrev main_call2_c_2 : Ref sig .tc := ⟨.hbm, 101, rfl⟩
abbrev main_call2_v6 : Ref sig .tc := ⟨.hbm, 102, rfl⟩
abbrev main_call2_v7 : Ref sig .tc := ⟨.hbm, 103, rfl⟩
abbrev main_call2_v8 : Ref sig .tc := ⟨.hbm, 104, rfl⟩
abbrev main_call2_v9 : Ref sig .tc := ⟨.hbm, 105, rfl⟩
abbrev main_call2_v10 : Ref sig .tc := ⟨.hbm, 106, rfl⟩
abbrev main_call2_v11 : Ref sig .tc := ⟨.hbm, 107, rfl⟩
abbrev main_call2_c_3 : Ref sig .tc := ⟨.hbm, 108, rfl⟩
abbrev main_call2_v12 : Ref sig .tc := ⟨.hbm, 109, rfl⟩
abbrev main_call2_v13 : Ref sig .tc := ⟨.hbm, 110, rfl⟩
abbrev main_call2_v14 : Ref sig .tc := ⟨.hbm, 111, rfl⟩
abbrev main_call2_cst : Ref sig .tc := ⟨.hbm, 112, rfl⟩
abbrev main_call2_v15 : Ref sig .tc := ⟨.hbm, 113, rfl⟩
abbrev main_v32 : Ref sig .tc := ⟨.hbm, 114, rfl⟩
abbrev main_call3_c : Ref sig .tc := ⟨.hbm, 115, rfl⟩
abbrev main_call3_v0 : Ref sig .tc := ⟨.hbm, 116, rfl⟩
abbrev main_call3_v1 : Ref sig .tc := ⟨.hbm, 117, rfl⟩
abbrev main_call3_c_0 : Ref sig .tc := ⟨.hbm, 118, rfl⟩
abbrev main_call3_v2 : Ref sig .tc := ⟨.hbm, 119, rfl⟩
abbrev main_call3_v3 : Ref sig .tc := ⟨.hbm, 120, rfl⟩
abbrev main_call3_v4 : Ref sig .tc := ⟨.hbm, 121, rfl⟩
abbrev main_call3_v5 : Ref sig .tc := ⟨.hbm, 122, rfl⟩
abbrev main_call3_c_1 : Ref sig .tc := ⟨.hbm, 123, rfl⟩
abbrev main_call3_c_2 : Ref sig .tc := ⟨.hbm, 124, rfl⟩
abbrev main_call3_v6 : Ref sig .tc := ⟨.hbm, 125, rfl⟩
abbrev main_call3_v7 : Ref sig .tc := ⟨.hbm, 126, rfl⟩
abbrev main_call3_v8 : Ref sig .tc := ⟨.hbm, 127, rfl⟩
abbrev main_call3_v9 : Ref sig .tc := ⟨.hbm, 128, rfl⟩
abbrev main_call3_v10 : Ref sig .tc := ⟨.hbm, 129, rfl⟩
abbrev main_call3_v11 : Ref sig .tc := ⟨.hbm, 130, rfl⟩
abbrev main_call3_c_3 : Ref sig .tc := ⟨.hbm, 131, rfl⟩
abbrev main_call3_v12 : Ref sig .tc := ⟨.hbm, 132, rfl⟩
abbrev main_call3_v13 : Ref sig .tc := ⟨.hbm, 133, rfl⟩
abbrev main_call3_v14 : Ref sig .tc := ⟨.hbm, 134, rfl⟩
abbrev main_call3_cst : Ref sig .tc := ⟨.hbm, 135, rfl⟩
abbrev main_call3_v15 : Ref sig .tc := ⟨.hbm, 136, rfl⟩
abbrev main_v33 : Ref sig .tc := ⟨.hbm, 137, rfl⟩
abbrev main_v34 : Ref sig .tc := ⟨.hbm, 138, rfl⟩
abbrev main_v35 : Ref sig .tc := ⟨.hbm, 139, rfl⟩
abbrev main_v36 : Ref sig .tc := ⟨.hbm, 140, rfl⟩
abbrev main_v37 : Ref sig .tc := ⟨.hbm, 141, rfl⟩
abbrev main_v38 : Ref sig .tc := ⟨.hbm, 142, rfl⟩
abbrev main_v39 : Ref sig .tc := ⟨.hbm, 143, rfl⟩
abbrev main_v40 : Ref sig .tc := ⟨.hbm, 144, rfl⟩
abbrev main_v41 : Ref sig .tc := ⟨.hbm, 145, rfl⟩
abbrev main_v42 : Ref sig .tc := ⟨.hbm, 146, rfl⟩
abbrev main_cst_0 : Ref sig .tc := ⟨.hbm, 147, rfl⟩
abbrev main_v43 : Ref sig .tc := ⟨.hbm, 148, rfl⟩
abbrev main_v44 : Ref sig .tc := ⟨.hbm, 149, rfl⟩
abbrev main_v45 : Ref sig .tc := ⟨.hbm, 150, rfl⟩
abbrev main_v46 : Ref sig .tc := ⟨.hbm, 151, rfl⟩
abbrev main_v47 : Ref sig .tc := ⟨.hbm, 152, rfl⟩
abbrev main_v48 : Ref sig .tc := ⟨.hbm, 153, rfl⟩
abbrev main_v49 : Ref sig .tc := ⟨.hbm, 154, rfl⟩
abbrev main_v50 : Ref sig .tc := ⟨.hbm, 155, rfl⟩
abbrev main_v51 : Ref sig .tc := ⟨.hbm, 156, rfl⟩
abbrev main_v52 : Ref sig .tc := ⟨.hbm, 157, rfl⟩
abbrev main_v53 : Ref sig .tc := ⟨.hbm, 158, rfl⟩
abbrev main_v54 : Ref sig .tc := ⟨.hbm, 159, rfl⟩
abbrev main_call4_c : Ref sig .tc := ⟨.hbm, 160, rfl⟩
abbrev main_call4_v0 : Ref sig .tc := ⟨.hbm, 161, rfl⟩
abbrev main_call4_v1 : Ref sig .tc := ⟨.hbm, 162, rfl⟩
abbrev main_call4_c_0 : Ref sig .tc := ⟨.hbm, 163, rfl⟩
abbrev main_call4_v2 : Ref sig .tc := ⟨.hbm, 164, rfl⟩
abbrev main_call4_v3 : Ref sig .tc := ⟨.hbm, 165, rfl⟩
abbrev main_call4_v4 : Ref sig .tc := ⟨.hbm, 166, rfl⟩
abbrev main_call4_v5 : Ref sig .tc := ⟨.hbm, 167, rfl⟩
abbrev main_call4_c_1 : Ref sig .tc := ⟨.hbm, 168, rfl⟩
abbrev main_call4_c_2 : Ref sig .tc := ⟨.hbm, 169, rfl⟩
abbrev main_call4_v6 : Ref sig .tc := ⟨.hbm, 170, rfl⟩
abbrev main_call4_v7 : Ref sig .tc := ⟨.hbm, 171, rfl⟩
abbrev main_call4_v8 : Ref sig .tc := ⟨.hbm, 172, rfl⟩
abbrev main_call4_v9 : Ref sig .tc := ⟨.hbm, 173, rfl⟩
abbrev main_call4_v10 : Ref sig .tc := ⟨.hbm, 174, rfl⟩
abbrev main_call4_v11 : Ref sig .tc := ⟨.hbm, 175, rfl⟩
abbrev main_call4_c_3 : Ref sig .tc := ⟨.hbm, 176, rfl⟩
abbrev main_call4_v12 : Ref sig .tc := ⟨.hbm, 177, rfl⟩
abbrev main_call4_v13 : Ref sig .tc := ⟨.hbm, 178, rfl⟩
abbrev main_call4_v14 : Ref sig .tc := ⟨.hbm, 179, rfl⟩
abbrev main_call4_cst : Ref sig .tc := ⟨.hbm, 180, rfl⟩
abbrev main_call4_v15 : Ref sig .tc := ⟨.hbm, 181, rfl⟩
abbrev main_v55 : Ref sig .tc := ⟨.hbm, 182, rfl⟩
abbrev main_call5_c : Ref sig .tc := ⟨.hbm, 183, rfl⟩
abbrev main_call5_v0 : Ref sig .tc := ⟨.hbm, 184, rfl⟩
abbrev main_call5_v1 : Ref sig .tc := ⟨.hbm, 185, rfl⟩
abbrev main_call5_c_0 : Ref sig .tc := ⟨.hbm, 186, rfl⟩
abbrev main_call5_v2 : Ref sig .tc := ⟨.hbm, 187, rfl⟩
abbrev main_call5_v3 : Ref sig .tc := ⟨.hbm, 188, rfl⟩
abbrev main_call5_v4 : Ref sig .tc := ⟨.hbm, 189, rfl⟩
abbrev main_call5_v5 : Ref sig .tc := ⟨.hbm, 190, rfl⟩
abbrev main_call5_c_1 : Ref sig .tc := ⟨.hbm, 191, rfl⟩
abbrev main_call5_c_2 : Ref sig .tc := ⟨.hbm, 192, rfl⟩
abbrev main_call5_v6 : Ref sig .tc := ⟨.hbm, 193, rfl⟩
abbrev main_call5_v7 : Ref sig .tc := ⟨.hbm, 194, rfl⟩
abbrev main_call5_v8 : Ref sig .tc := ⟨.hbm, 195, rfl⟩
abbrev main_call5_v9 : Ref sig .tc := ⟨.hbm, 196, rfl⟩
abbrev main_call5_v10 : Ref sig .tc := ⟨.hbm, 197, rfl⟩
abbrev main_call5_v11 : Ref sig .tc := ⟨.hbm, 198, rfl⟩
abbrev main_call5_c_3 : Ref sig .tc := ⟨.hbm, 199, rfl⟩
abbrev main_call5_v12 : Ref sig .tc := ⟨.hbm, 200, rfl⟩
abbrev main_call5_v13 : Ref sig .tc := ⟨.hbm, 201, rfl⟩
abbrev main_call5_v14 : Ref sig .tc := ⟨.hbm, 202, rfl⟩
abbrev main_call5_cst : Ref sig .tc := ⟨.hbm, 203, rfl⟩
abbrev main_call5_v15 : Ref sig .tc := ⟨.hbm, 204, rfl⟩
abbrev main_v56 : Ref sig .tc := ⟨.hbm, 205, rfl⟩
abbrev main_v57 : Ref sig .tc := ⟨.hbm, 206, rfl⟩
abbrev main_v58 : Ref sig .tc := ⟨.hbm, 207, rfl⟩
abbrev main_v59 : Ref sig .tc := ⟨.hbm, 208, rfl⟩
abbrev main_v60 : Ref sig .tc := ⟨.hbm, 209, rfl⟩
abbrev main_v61 : Ref sig .tc := ⟨.hbm, 210, rfl⟩
abbrev main_v62 : Ref sig .tc := ⟨.hbm, 211, rfl⟩
abbrev main_v63 : Ref sig .tc := ⟨.hbm, 212, rfl⟩
abbrev main_v64 : Ref sig .tc := ⟨.hbm, 213, rfl⟩
abbrev main_v65 : Ref sig .tc := ⟨.hbm, 214, rfl⟩
abbrev main_cst_1 : Ref sig .tc := ⟨.hbm, 215, rfl⟩
abbrev main_v66 : Ref sig .tc := ⟨.hbm, 216, rfl⟩
abbrev main_v67 : Ref sig .tc := ⟨.hbm, 217, rfl⟩
abbrev main_v68 : Ref sig .tc := ⟨.hbm, 218, rfl⟩
abbrev main_v69 : Ref sig .tc := ⟨.hbm, 219, rfl⟩
abbrev main_v70 : Ref sig .tc := ⟨.hbm, 220, rfl⟩
abbrev main_v71 : Ref sig .tc := ⟨.hbm, 221, rfl⟩
abbrev main_v72 : Ref sig .tc := ⟨.hbm, 222, rfl⟩
abbrev main_v73 : Ref sig .tc := ⟨.hbm, 223, rfl⟩
abbrev main_v74 : Ref sig .tc := ⟨.hbm, 224, rfl⟩
abbrev main_v75 : Ref sig .tc := ⟨.hbm, 225, rfl⟩
abbrev main_v76 : Ref sig .tc := ⟨.hbm, 226, rfl⟩
abbrev main_v77 : Ref sig .tc := ⟨.hbm, 227, rfl⟩
abbrev main_v78 : Ref sig .tc := ⟨.hbm, 228, rfl⟩
abbrev main_cst_2 : Ref sig .tc := ⟨.hbm, 229, rfl⟩
abbrev main_v79 : Ref sig .tc := ⟨.hbm, 230, rfl⟩
abbrev main_v80 : Ref sig .tc := ⟨.hbm, 231, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg7_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg2_1 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg6_0 : Ref sig .tc := ⟨.vmem, 59, rfl⟩
abbrev cc5_stg7_0 : Ref sig .tc := ⟨.vmem, 60, rfl⟩
abbrev cc5_stg7_1 : Ref sig .tc := ⟨.vmem, 61, rfl⟩
abbrev cc6_stg0_0 : Ref sig .tc := ⟨.vmem, 62, rfl⟩
abbrev cc6_stg0_1 : Ref sig .tc := ⟨.vmem, 63, rfl⟩
abbrev cc6_stg1_0 : Ref sig .tc := ⟨.vmem, 64, rfl⟩
abbrev cc6_stg1_1 : Ref sig .tc := ⟨.vmem, 65, rfl⟩
abbrev cc6_stg2_0 : Ref sig .tc := ⟨.vmem, 66, rfl⟩
abbrev cc6_stg3_0 : Ref sig .tc := ⟨.vmem, 67, rfl⟩
abbrev cc6_stg4_0 : Ref sig .tc := ⟨.vmem, 68, rfl⟩
abbrev cc6_stg5_0 : Ref sig .tc := ⟨.vmem, 69, rfl⟩
abbrev cc6_stg6_0 : Ref sig .tc := ⟨.vmem, 70, rfl⟩
abbrev cc6_stg6_1 : Ref sig .tc := ⟨.vmem, 71, rfl⟩
abbrev cc7_stg0_0 : Ref sig .tc := ⟨.vmem, 72, rfl⟩
abbrev cc7_stg0_1 : Ref sig .tc := ⟨.vmem, 73, rfl⟩
abbrev cc7_stg1_0 : Ref sig .tc := ⟨.vmem, 74, rfl⟩
abbrev cc7_stg2_0 : Ref sig .tc := ⟨.vmem, 75, rfl⟩
abbrev cc7_stg3_0 : Ref sig .tc := ⟨.vmem, 76, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem7_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem2_1 : DmaSem sig := 55
abbrev cc5_sem3_0 : DmaSem sig := 56
abbrev cc5_sem4_0 : DmaSem sig := 57
abbrev cc5_sem5_0 : DmaSem sig := 58
abbrev cc5_sem6_0 : DmaSem sig := 59
abbrev cc5_sem7_0 : DmaSem sig := 60
abbrev cc5_sem7_1 : DmaSem sig := 61
abbrev cc6_sem0_0 : DmaSem sig := 62
abbrev cc6_sem0_1 : DmaSem sig := 63
abbrev cc6_sem1_0 : DmaSem sig := 64
abbrev cc6_sem1_1 : DmaSem sig := 65
abbrev cc6_sem2_0 : DmaSem sig := 66
abbrev cc6_sem3_0 : DmaSem sig := 67
abbrev cc6_sem4_0 : DmaSem sig := 68
abbrev cc6_sem5_0 : DmaSem sig := 69
abbrev cc6_sem6_0 : DmaSem sig := 70
abbrev cc6_sem6_1 : DmaSem sig := 71
abbrev cc7_sem0_0 : DmaSem sig := 72
abbrev cc7_sem0_1 : DmaSem sig := 73
abbrev cc7_sem1_0 : DmaSem sig := 74
abbrev cc7_sem2_0 : DmaSem sig := 75
abbrev cc7_sem3_0 : DmaSem sig := 76

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S272x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S272x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S4000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x128 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4000x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S272x128 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .bf16 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S4000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S256x128 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x128_0 : S400000.BroadcastsInDim S400000x128 (![0] : Fin 1 → Fin S400000x128.rank)
  bcast_S_S400000x128 : S_.BroadcastsInDim S400000x128 (![] : Fin 0 → Fin S400000x128.rank)
  slices_S3x272x128_S1x272x128_0_0_0 : S3x272x128.Slices ![0, 0, 0] S1x272x128
  shapeCasts_S1x272x128_S272x128 : S1x272x128.ShapeCasts S272x128
  slices_S3x128_S1x128_0_0 : S3x128.Slices ![0, 0] S1x128
  shapeCasts_S1x128_S128 : S1x128.ShapeCasts S128
  slices_S3x128x128_S1x128x128_0_0_0 : S3x128x128.Slices ![0, 0, 0] S1x128x128
  shapeCasts_S1x128x128_S128x128 : S1x128x128.ShapeCasts S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x16_S4000x16_0_0 : ∀ a, (![0, 0] : Fin 2 → Nat) a + S4000x16.size a ≤ S4000x16.size a
  h_S4000x16 : 0 < S4000x16.numel
  inb_S272x128_S272x128_0_0 : ∀ a, (![0, 0] : Fin 2 → Nat) a + S272x128.size a ≤ S272x128.size a
  h_S272x128 : 0 < S272x128.numel
  shapeCasts_S272x128_S272x128 : S272x128.ShapeCasts S272x128
  slices_S272x128_o0_0_S128x128 : S272x128.Slices ![0, 0] S128x128
  slices_S272x128_o128_0_S128x128 : S272x128.Slices ![128, 0] S128x128
  slices_S272x128_o256_0_S16x128 : S272x128.Slices ![256, 0] S16x128
  shapeCasts_S128_S128 : S128.ShapeCasts S128
  broadcasts_S1x128_S4000x128 : S1x128.Broadcasts S4000x128
  bcast_S_S50000x128 : S_.BroadcastsInDim S50000x128 (![] : Fin 0 → Fin S50000x128.rank)
  slices_S3x256x128_S1x256x128_0_0_0 : S3x256x128.Slices ![0, 0, 0] S1x256x128
  shapeCasts_S1x256x128_S256x128 : S1x256x128.ShapeCasts S256x128
  shapeCasts_S5000x128_S5000x128 : S5000x128.ShapeCasts S5000x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  slices_S256x128_o0_0_S128x128 : S256x128.Slices ![0, 0] S128x128
  slices_S256x128_o128_0_S128x128 : S256x128.Slices ![128, 0] S128x128
  reduces_S5000x128_S5000 : S5000x128.Reduces [1] S5000
  shapeCasts_S5000_S5000x1 : S5000.ShapeCasts S5000x1
  broadcasts_S5000x1_S5000x128 : S5000x1.Broadcasts S5000x128
  slices_S3x272x128_S1x272x128_1_0_0 : S3x272x128.Slices ![1, 0, 0] S1x272x128
  slices_S3x128_S1x128_1_0 : S3x128.Slices ![1, 0] S1x128
  slices_S3x128x128_S1x128x128_1_0_0 : S3x128x128.Slices ![1, 0, 0] S1x128x128
  slices_S3x256x128_S1x256x128_1_0_0 : S3x256x128.Slices ![1, 0, 0] S1x256x128
  slices_S3x272x128_S1x272x128_2_0_0 : S3x272x128.Slices ![2, 0, 0] S1x272x128
  slices_S3x128_S1x128_2_0 : S3x128.Slices ![2, 0] S1x128
  slices_S3x128x128_S1x128x128_2_0_0 : S3x128x128.Slices ![2, 0, 0] S1x128x128
  slices_S3x256x128_S1x256x128_2_0_0 : S3x256x128.Slices ![2, 0, 0] S1x256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  reduces_S5000x128_S128 : S5000x128.Reduces [0] S128
  bcast_S_S1x128 : S_.BroadcastsInDim S1x128 (![] : Fin 0 → Fin S1x128.rank)
  dot_S5000x128_S128x128_S5000x128_1_0_0_1_n_n_wf : DotDims.WF S5000x128 S128x128 S5000x128 [1] [0] [0] [1] [] []
  gather_S50000x128_S400000x1_S400000x128_1_0_n_n_0_1_1128_wf : GatherDims.WF S50000x128 S400000x1 S400000x128 [1] [0] [] [0] [] 1 ![1, 128]
  dot_S4000x128_S128x128_S4000x128_1_0_0_1_n_n_wf : DotDims.WF S4000x128 S128x128 S4000x128 [1] [0] [0] [1] [] []
  dot_S4000x16_S16x128_S4000x128_1_0_0_1_n_n_wf : DotDims.WF S4000x16 S16x128 S4000x128 [1] [0] [0] [1] [] []
  scatter_S50000x128_S400000x1_S400000x128_1_0_0_1_wf : ScatterDims.WF S50000x128 S400000x1 S400000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S400000x128.size a
  hwx1_0 : ∀ i : grid1.Coords, EltTy.bits .f32 = 32 ∨ (Rect.block (s := S400000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S400000x128.size a
  hwx1_1 : ∀ i : grid1.Coords, EltTy.bits .f32 = 32 ∨ (Rect.block (s := S400000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x16.size a ≤ S400000x16.size a
  hwx1_2 : ∀ i : grid1.Coords, EltTy.bits .f32 = 32 ∨ (Rect.block (s := S400000x16) S4000x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S272x128.size a ≤ S272x128.size a
  hwx1_3 : ∀ i : grid1.Coords, EltTy.bits .bf16 = 32 ∨ (Rect.block (s := S272x128) S272x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S400000x128.size a
  hwx1_7 : ∀ i : grid1.Coords, EltTy.bits .f32 = 32 ∨ (Rect.block (s := S400000x128) S4000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .bf16 = 32 ∨ (Rect.block (s := S256x128) S256x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S400000x128.size a
  hwx3_0 : ∀ i : grid3.Coords, EltTy.bits .f32 = 32 ∨ (Rect.block (s := S400000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S400000x128.size a
  hwx3_1 : ∀ i : grid3.Coords, EltTy.bits .f32 = 32 ∨ (Rect.block (s := S400000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x16.size a ≤ S400000x16.size a
  hwx3_2 : ∀ i : grid3.Coords, EltTy.bits .f32 = 32 ∨ (Rect.block (s := S400000x16) S4000x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S272x128.size a ≤ S272x128.size a
  hwx3_3 : ∀ i : grid3.Coords, EltTy.bits .bf16 = 32 ∨ (Rect.block (s := S272x128) S272x128.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .bf16 = 32 ∨ (Rect.block (s := S128x128) S128x128.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128.size a ≤ S128.size a
  hwx3_6 : ∀ i : grid3.Coords, EltTy.bits .f32 = 32 ∨ (Rect.block (s := S128) S128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S4000x128.size a ≤ S400000x128.size a
  hwx3_7 : ∀ i : grid3.Coords, EltTy.bits .f32 = 32 ∨ (Rect.block (s := S400000x128) S4000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x128.size a ≤ S256x128.size a
  hwx4_2 : ∀ i : grid4.Coords, EltTy.bits .bf16 = 32 ∨ (Rect.block (s := S256x128) S256x128.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128.size a ≤ S128.size a
  hwx4_5 : ∀ i : grid4.Coords, EltTy.bits .f32 = 32 ∨ (Rect.block (s := S128) S128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .f32 = 32 ∨ (Rect.block (s := S50000x128) S5000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S400000x128.size a
  hwx5_0 : ∀ i : grid5.Coords, EltTy.bits .f32 = 32 ∨ (Rect.block (s := S400000x128) S4000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x128.size a ≤ S400000x128.size a
  hwx5_1 : ∀ i : grid5.Coords, EltTy.bits .f32 = 32 ∨ (Rect.block (s := S400000x128) S4000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x16.size a ≤ S400000x16.size a
  hwx5_2 : ∀ i : grid5.Coords, EltTy.bits .f32 = 32 ∨ (Rect.block (s := S400000x16) S4000x16.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S272x128.size a ≤ S272x128.size a
  hwx5_3 : ∀ i : grid5.Coords, EltTy.bits .bf16 = 32 ∨ (Rect.block (s := S272x128) S272x128.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .bf16 = 32 ∨ (Rect.block (s := S128x128) S128x128.size (cc5_transform_5 i) (hinb5_5 i)).WholeWords (EltTy.packing .bf16)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S128.size a ≤ S128.size a
  hwx5_6 : ∀ i : grid5.Coords, EltTy.bits .f32 = 32 ∨ (Rect.block (s := S128) S128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S4000x128.size a ≤ S400000x128.size a
  hwx5_7 : ∀ i : grid5.Coords, EltTy.bits .f32 = 32 ∨ (Rect.block (s := S400000x128) S4000x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x128.size a ≤ S256x128.size a
  hwx6_2 : ∀ i : grid6.Coords, EltTy.bits .bf16 = 32 ∨ (Rect.block (s := S256x128) S256x128.size (cc6_transform_2 i) (hinb6_2 i)).WholeWords (EltTy.packing .bf16)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128.size a ≤ S128.size a
  hwx6_3 : ∀ i : grid6.Coords, EltTy.bits .f32 = 32 ∨ (Rect.block (s := S128) S128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128.size a ≤ S128.size a
  hwx6_4 : ∀ i : grid6.Coords, EltTy.bits .f32 = 32 ∨ (Rect.block (s := S128) S128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128.size a ≤ S128.size a
  hwx6_5 : ∀ i : grid6.Coords, EltTy.bits .f32 = 32 ∨ (Rect.block (s := S128) S128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x128.size a ≤ S50000x128.size a
  hwx6_6 : ∀ i : grid6.Coords, EltTy.bits .f32 = 32 ∨ (Rect.block (s := S50000x128) S5000x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128.size a ≤ S128.size a
  hwx7_1 : ∀ i : grid7.Coords, EltTy.bits .f32 = 32 ∨ (Rect.block (s := S128) S128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128.size a ≤ S128.size a
  hwx7_2 : ∀ i : grid7.Coords, EltTy.bits .f32 = 32 ∨ (Rect.block (s := S128) S128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x16_S16x128_S4000x128_1_0_0_1_n_n : DotDims S4000x16 S16x128 S4000x128 where
  lhsContracting := [1]
  rhsContracting := [0]
  lhsNonContracting := [0]
  rhsNonContracting := [1]
  lhsBatch := []
  rhsBatch := []
  wf := dot_S4000x16_S16x128_S4000x128_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S4000x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S272x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v19) S4000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v8) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v24) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v28) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v30) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v31) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v32) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg1) S4000x16.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v35) S272x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v37) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v39) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v41) S128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v42) S4000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v31) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v45) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v47) S256x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v49) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v51) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v53) S128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v54) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v55) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v56) S4000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg1) S4000x16.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v58) S272x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v60) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v62) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v64) S128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v65) S4000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v54) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v68) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v70) S256x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v72) S128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v74) S128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v76) S128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v77) S5000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v77) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg13) S128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg14) S128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v78) S1x128.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x128 : Shape := ⟨2, ![50000, 128]⟩
abbrev S400000x16 : Shape := ⟨2, ![400000, 16]⟩
abbrev S2x400000 : Shape := ⟨2, ![2, 400000]⟩
abbrev S128x128 : Shape := ⟨2, ![128, 128]⟩
abbrev S128 : Shape := ⟨1, ![128]⟩
abbrev S3x272x128 : Shape := ⟨3, ![3, 272, 128]⟩
abbrev S3x128 : Shape := ⟨2, ![3, 128]⟩
abbrev S3x128x128 : Shape := ⟨3, ![3, 128, 128]⟩
abbrev S3x256x128 : Shape := ⟨3, ![3, 256, 128]⟩
abbrev S1x400000 : Shape := ⟨2, ![1, 400000]⟩
abbrev S400000 : Shape := ⟨1, ![400000]⟩
abbrev S1x128 : Shape := ⟨2, ![1, 128]⟩
abbrev S_ : Shape := ⟨0, ![]⟩
abbrev S400000x1 : Shape := ⟨2, ![400000, 1]⟩
abbrev S400000x128 : Shape := ⟨2, ![400000, 128]⟩
abbrev S400000x272 : Shape := ⟨2, ![400000, 272]⟩
abbrev S1x272x128 : Shape := ⟨3, ![1, 272, 128]⟩
abbrev S272x128 : Shape := ⟨2, ![272, 128]⟩
abbrev S1x128x128 : Shape := ⟨3, ![1, 128, 128]⟩
abbrev S50000x256 : Shape := ⟨2, ![50000, 256]⟩
abbrev S1x256x128 : Shape := ⟨3, ![1, 256, 128]⟩
abbrev S256x128 : Shape := ⟨2, ![256, 128]⟩
abbrev S50000 : Shape := ⟨1, ![50000]⟩
abbrev S50000x1 : Shape := ⟨2, ![50000, 1]⟩

abbrev nBuf : Space → Nat
  | .hbm => 331
  | .vmem => 0
  | .smem => 0
  | _ => 0

abbrev hbmTy0_0 (i : Nat) : BufTy := match i % 128 with
  | 0 => ⟨S50000x128, .f32⟩
  | 1 => ⟨S400000x16, .f32⟩
  | 2 => ⟨S2x400000, .i32⟩
  | 3 => ⟨S128x128, .f32⟩
  | 4 => ⟨S128, .f32⟩
  | 5 => ⟨S3x272x128, .f32⟩
  | 6 => ⟨S3x128, .f32⟩
  | 7 => ⟨S3x128x128, .f32⟩
  | 8 => ⟨S3x128, .f32⟩
  | 9 => ⟨S3x256x128, .f32⟩
  | 10 => ⟨S3x128, .f32⟩
  | 11 => ⟨S3x128, .f32⟩
  | 12 => ⟨S3x128, .f32⟩
  | 13 => ⟨S128, .f32⟩
  | 14 => ⟨S128, .f32⟩
  | 15 => ⟨S1x400000, .i32⟩
  | 16 => ⟨S400000, .i32⟩
  | 17 => ⟨S1x400000, .i32⟩
  | 18 => ⟨S400000, .i32⟩
  | 19 => ⟨S50000x128, .f32⟩
  | 20 => ⟨S1x128, .f32⟩
  | 21 => ⟨S50000x128, .f32⟩
  | 22 => ⟨S50000x128, .f32⟩
  | 23 => ⟨S_, .i32⟩
  | 24 => ⟨S400000, .i32⟩
  | 25 => ⟨S400000, .i1⟩
  | 26 => ⟨S_, .i32⟩
  | 27 => ⟨S400000, .i32⟩
  | 28 => ⟨S400000, .i32⟩
  | 29 => ⟨S400000, .i32⟩
  | 30 => ⟨S400000x1, .i32⟩
  | 31 => ⟨S400000x128, .f32⟩
  | 32 => ⟨S_, .i32⟩
  | 33 => ⟨S400000, .i32⟩
  | 34 => ⟨S400000, .i1⟩
  | 35 => ⟨S_, .i32⟩
  | 36 => ⟨S400000, .i32⟩
  | 37 => ⟨S400000, .i32⟩
  | 38 => ⟨S400000, .i32⟩
  | 39 => ⟨S400000x1, .i32⟩
  | 40 => ⟨S400000x128, .f32⟩
  | 41 => ⟨S400000x272, .f32⟩
  | 42 => ⟨S1x272x128, .f32⟩
  | 43 => ⟨S272x128, .f32⟩
  | 44 => ⟨S400000x128, .f32⟩
  | 45 => ⟨S1x128, .f32⟩
  | 46 => ⟨S128, .f32⟩
  | 47 => ⟨S1x128, .f32⟩
  | 48 => ⟨S400000x128, .f32⟩
  | 49 => ⟨S400000x128, .f32⟩
  | 50 => ⟨S_, .f32⟩
  | 51 => ⟨S400000x128, .f32⟩
  | 52 => ⟨S400000x128, .f32⟩
  | 53 => ⟨S1x128x128, .f32⟩
  | 54 => ⟨S128x128, .f32⟩
  | 55 => ⟨S400000x128, .f32⟩
  | 56 => ⟨S1x128, .f32⟩
  | 57 => ⟨S128, .f32⟩
  | 58 => ⟨S1x128, .f32⟩
  | 59 => ⟨S400000x128, .f32⟩
  | 60 => ⟨S400000x128, .f32⟩
  | 61 => ⟨S_, .f32⟩
  | 62 => ⟨S400000x128, .f32⟩
  | 63 => ⟨S400000x128, .f32⟩
  | 64 => ⟨S_, .f32⟩
  | 65 => ⟨S50000x128, .f32⟩
  | 66 => ⟨S400000x1, .i32⟩
  | 67 => ⟨S50000x128, .f32⟩
  | 68 => ⟨S50000x256, .f32⟩
  | 69 => ⟨S1x256x128, .f32⟩
  | 70 => ⟨S256x128, .f32⟩
  | 71 => ⟨S50000x128, .f32⟩
  | 72 => ⟨S1x128, .f32⟩
  | 73 => ⟨S128, .f32⟩
  | 74 => ⟨S1x128, .f32⟩
  | 75 => ⟨S50000x128, .f32⟩
  | 76 => ⟨S50000x128, .f32⟩
  | 77 => ⟨S_, .f32⟩
  | 78 => ⟨S50000x128, .f32⟩
  | 79 => ⟨S50000x128, .f32⟩
  | 80 => ⟨S50000x128, .f32⟩
  | 81 => ⟨S1x128, .f32⟩
  | 82 => ⟨S128, .f32⟩
  | 83 => ⟨S1x128, .f32⟩
  | 84 => ⟨S128, .f32⟩
  | 85 => ⟨S_, .f32⟩
  | 86 => ⟨S50000, .f32⟩
  | 87 => ⟨S50000x1, .f32⟩
  | 88 => ⟨S_, .f32⟩
  | 89 => ⟨S50000x1, .f32⟩
  | 90 => ⟨S50000x1, .f32⟩
  | 91 => ⟨S50000x128, .f32⟩
  | 92 => ⟨S50000x128, .f32⟩
  | 93 => ⟨S50000x128, .f32⟩
  | 94 => ⟨S_, .f32⟩
  | 95 => ⟨S50000, .f32⟩
  | 96 => ⟨S50000x1, .f32⟩
  | 97 => ⟨S_, .f32⟩
  | 98 => ⟨S50000x1, .f32⟩
  | 99 => ⟨S50000x1, .f32⟩
  | 100 => ⟨S50000x128, .f32⟩
  | 101 => ⟨S50000x128, .f32⟩
  | 102 => ⟨S_, .f32⟩
  | 103 => ⟨S50000x1, .f32⟩
  | 104 => ⟨S50000x1, .f32⟩
  | 105 => ⟨S50000x1, .f32⟩
  | 106 => ⟨S50000x128, .f32⟩
  | 107 => ⟨S50000x128, .f32⟩
  | 108 => ⟨S1x128, .f32⟩
  | 109 => ⟨S50000x128, .f32⟩
  | 110 => ⟨S50000x128, .f32⟩
  | 111 => ⟨S1x128, .f32⟩
  | 112 => ⟨S50000x128, .f32⟩
  | 113 => ⟨S50000x128, .f32⟩
  | 114 => ⟨S_, .i32⟩
  | 115 => ⟨S400000, .i32⟩
  | 116 => ⟨S400000, .i1⟩
  | 117 => ⟨S_, .i32⟩
  | 118 => ⟨S400000, .i32⟩
  | 119 => ⟨S400000, .i32⟩
  | 120 => ⟨S400000, .i32⟩
  | 121 => ⟨S400000x1, .i32⟩
  | 122 => ⟨S400000x128, .f32⟩
  | 123 => ⟨S_, .i32⟩
  | 124 => ⟨S400000, .i32⟩
  | 125 => ⟨S400000, .i1⟩
  | 126 => ⟨S_, .i32⟩
  | 127 => ⟨S400000, .i32⟩
  | _ => ⟨S50000x128, .f32⟩

abbrev hbmTy0_1 (i : Nat) : BufTy := match i % 128 with
  | 0 => ⟨S400000, .i32⟩
  | 1 => ⟨S400000, .i32⟩
  | 2 => ⟨S400000x1, .i32⟩
  | 3 => ⟨S400000x128, .f32⟩
  | 4 => ⟨S400000x272, .f32⟩
  | 5 => ⟨S1x272x128, .f32⟩
  | 6 => ⟨S272x128, .f32⟩
  | 7 => ⟨S400000x128, .f32⟩
  | 8 => ⟨S1x128, .f32⟩
  | 9 => ⟨S128, .f32⟩
  | 10 => ⟨S1x128, .f32⟩
  | 11 => ⟨S400000x128, .f32⟩
  | 12 => ⟨S400000x128, .f32⟩
  | 13 => ⟨S_, .f32⟩
  | 14 => ⟨S400000x128, .f32⟩
  | 15 => ⟨S400000x128, .f32⟩
  | 16 => ⟨S1x128x128, .f32⟩
  | 17 => ⟨S128x128, .f32⟩
  | 18 => ⟨S400000x128, .f32⟩
  | 19 => ⟨S1x128, .f32⟩
  | 20 => ⟨S128, .f32⟩
  | 21 => ⟨S1x128, .f32⟩
  | 22 => ⟨S400000x128, .f32⟩
  | 23 => ⟨S400000x128, .f32⟩
  | 24 => ⟨S_, .f32⟩
  | 25 => ⟨S400000x128, .f32⟩
  | 26 => ⟨S400000x128, .f32⟩
  | 27 => ⟨S_, .f32⟩
  | 28 => ⟨S50000x128, .f32⟩
  | 29 => ⟨S400000x1, .i32⟩
  | 30 => ⟨S50000x128, .f32⟩
  | 31 => ⟨S50000x256, .f32⟩
  | 32 => ⟨S1x256x128, .f32⟩
  | 33 => ⟨S256x128, .f32⟩
  | 34 => ⟨S50000x128, .f32⟩
  | 35 => ⟨S1x128, .f32⟩
  | 36 => ⟨S128, .f32⟩
  | 37 => ⟨S1x128, .f32⟩
  | 38 => ⟨S50000x128, .f32⟩
  | 39 => ⟨S50000x128, .f32⟩
  | 40 => ⟨S_, .f32⟩
  | 41 => ⟨S50000x128, .f32⟩
  | 42 => ⟨S50000x128, .f32⟩
  | 43 => ⟨S50000x128, .f32⟩
  | 44 => ⟨S1x128, .f32⟩
  | 45 => ⟨S128, .f32⟩
  | 46 => ⟨S1x128, .f32⟩
  | 47 => ⟨S128, .f32⟩
  | 48 => ⟨S_, .f32⟩
  | 49 => ⟨S50000, .f32⟩
  | 50 => ⟨S50000x1, .f32⟩
  | 51 => ⟨S_, .f32⟩
  | 52 => ⟨S50000x1, .f32⟩
  | 53 => ⟨S50000x1, .f32⟩
  | 54 => ⟨S50000x128, .f32⟩
  | 55 => ⟨S50000x128, .f32⟩
  | 56 => ⟨S50000x128, .f32⟩
  | 57 => ⟨S_, .f32⟩
  | 58 => ⟨S50000, .f32⟩
  | 59 => ⟨S50000x1, .f32⟩
  | 60 => ⟨S_, .f32⟩
  | 61 => ⟨S50000x1, .f32⟩
  | 62 => ⟨S50000x1, .f32⟩
  | 63 => ⟨S50000x128, .f32⟩
  | 64 => ⟨S50000x128, .f32⟩
  | 65 => ⟨S_, .f32⟩
  | 66 => ⟨S50000x1, .f32⟩
  | 67 => ⟨S50000x1, .f32⟩
  | 68 => ⟨S50000x1, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S_, .i32⟩
  | 78 => ⟨S400000, .i32⟩
  | 79 => ⟨S400000, .i1⟩
  | 80 => ⟨S_, .i32⟩
  | 81 => ⟨S400000, .i32⟩
  | 82 => ⟨S400000, .i32⟩
  | 83 => ⟨S400000, .i32⟩
  | 84 => ⟨S400000x1, .i32⟩
  | 85 => ⟨S400000x128, .f32⟩
  | 86 => ⟨S_, .i32⟩
  | 87 => ⟨S400000, .i32⟩
  | 88 => ⟨S400000, .i1⟩
  | 89 => ⟨S_, .i32⟩
  | 90 => ⟨S400000, .i32⟩
  | 91 => ⟨S400000, .i32⟩
  | 92 => ⟨S400000, .i32⟩
  | 93 => ⟨S400000x1, .i32⟩
  | 94 => ⟨S400000x128, .f32⟩
  | 95 => ⟨S400000x272, .f32⟩
  | 96 => ⟨S1x272x128, .f32⟩
  | 97 => ⟨S272x128, .f32⟩
  | 98 => ⟨S400000x128, .f32⟩
  | 99 => ⟨S1x128, .f32⟩
  | 100 => ⟨S128, .f32⟩
  | 101 => ⟨S1x128, .f32⟩
  | 102 => ⟨S400000x128, .f32⟩
  | 103 => ⟨S400000x128, .f32⟩
  | 104 => ⟨S_, .f32⟩
  | 105 => ⟨S400000x128, .f32⟩
  | 106 => ⟨S400000x128, .f32⟩
  | 107 => ⟨S1x128x128, .f32⟩
  | 108 => ⟨S128x128, .f32⟩
  | 109 => ⟨S400000x128, .f32⟩
  | 110 => ⟨S1x128, .f32⟩
  | 111 => ⟨S128, .f32⟩
  | 112 => ⟨S1x128, .f32⟩
  | 113 => ⟨S400000x128, .f32⟩
  | 114 => ⟨S400000x128, .f32⟩
  | 115 => ⟨S_, .f32⟩
  | 116 => ⟨S400000x128, .f32⟩
  | 117 => ⟨S400000x128, .f32⟩
  | 118 => ⟨S_, .f32⟩
  | 119 => ⟨S50000x128, .f32⟩
  | 120 => ⟨S400000x1, .i32⟩
  | 121 => ⟨S50000x128, .f32⟩
  | 122 => ⟨S50000x256, .f32⟩
  | 123 => ⟨S1x256x128, .f32⟩
  | 124 => ⟨S256x128, .f32⟩
  | 125 => ⟨S50000x128, .f32⟩
  | 126 => ⟨S1x128, .f32⟩
  | 127 => ⟨S128, .f32⟩
  | _ => ⟨S50000x128, .f32⟩

abbrev hbmTy0_2 (i : Nat) : BufTy := match i % 128 with
  | 0 => ⟨S1x128, .f32⟩
  | 1 => ⟨S50000x128, .f32⟩
  | 2 => ⟨S50000x128, .f32⟩
  | 3 => ⟨S_, .f32⟩
  | 4 => ⟨S50000x128, .f32⟩
  | 5 => ⟨S50000x128, .f32⟩
  | 6 => ⟨S50000x128, .f32⟩
  | 7 => ⟨S1x128, .f32⟩
  | 8 => ⟨S128, .f32⟩
  | 9 => ⟨S1x128, .f32⟩
  | 10 => ⟨S128, .f32⟩
  | 11 => ⟨S_, .f32⟩
  | 12 => ⟨S50000, .f32⟩
  | 13 => ⟨S50000x1, .f32⟩
  | 14 => ⟨S_, .f32⟩
  | 15 => ⟨S50000x1, .f32⟩
  | 16 => ⟨S50000x1, .f32⟩
  | 17 => ⟨S50000x128, .f32⟩
  | 18 => ⟨S50000x128, .f32⟩
  | 19 => ⟨S50000x128, .f32⟩
  | 20 => ⟨S_, .f32⟩
  | 21 => ⟨S50000, .f32⟩
  | 22 => ⟨S50000x1, .f32⟩
  | 23 => ⟨S_, .f32⟩
  | 24 => ⟨S50000x1, .f32⟩
  | 25 => ⟨S50000x1, .f32⟩
  | 26 => ⟨S50000x128, .f32⟩
  | 27 => ⟨S50000x128, .f32⟩
  | 28 => ⟨S_, .f32⟩
  | 29 => ⟨S50000x1, .f32⟩
  | 30 => ⟨S50000x1, .f32⟩
  | 31 => ⟨S50000x1, .f32⟩
  | 32 => ⟨S50000x128, .f32⟩
  | 33 => ⟨S50000x128, .f32⟩
  | 34 => ⟨S1x128, .f32⟩
  | 35 => ⟨S50000x128, .f32⟩
  | 36 => ⟨S50000x128, .f32⟩
  | 37 => ⟨S1x128, .f32⟩
  | 38 => ⟨S50000x128, .f32⟩
  | 39 => ⟨S50000x128, .f32⟩
  | 40 => ⟨S_, .f32⟩
  | 41 => ⟨S50000, .f32⟩
  | 42 => ⟨S50000x1, .f32⟩
  | 43 => ⟨S_, .f32⟩
  | 44 => ⟨S50000x1, .f32⟩
  | 45 => ⟨S50000x1, .f32⟩
  | 46 => ⟨S50000x128, .f32⟩
  | 47 => ⟨S50000x128, .f32⟩
  | 48 => ⟨S50000x128, .f32⟩
  | 49 => ⟨S_, .f32⟩
  | 50 => ⟨S50000, .f32⟩
  | 51 => ⟨S50000x1, .f32⟩
  | 52 => ⟨S_, .f32⟩
  | 53 => ⟨S50000x1, .f32⟩
  | 54 => ⟨S50000x1, .f32⟩
  | 55 => ⟨S50000x128, .f32⟩
  | 56 => ⟨S50000x128, .f32⟩
  | 57 => ⟨S_, .f32⟩
  | 58 => ⟨S50000x1, .f32⟩
  | 59 => ⟨S50000x1, .f32⟩
  | 60 => ⟨S50000x1, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S128, .f32⟩
  | 71 => ⟨S_, .f32⟩
  | 72 => ⟨S128, .f32⟩
  | 73 => ⟨S128, .f32⟩
  | 74 => ⟨S1x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_1 : Ref sig .tc := ⟨.hbm, 32, rfl⟩
abbrev main_v15 : Ref sig .tc := ⟨.hbm, 33, rfl⟩
abbrev main_v16 : Ref sig .tc := ⟨.hbm, 34, rfl⟩
abbrev main_c_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call0_cst : Ref sig .tc := ⟨.hbm, 50, rfl⟩
abbrev main_call0_v0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_call1_cst : Ref sig .tc := ⟨.hbm, 61, rfl⟩
abbrev main_call1_v0 : Ref sig .tc := ⟨.hbm, 62, rfl⟩
abbrev main_v40 : Ref sig .tc := ⟨.hbm, 63, rfl⟩
abbrev main_cst : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_call2_cst : Ref sig .tc := ⟨.hbm, 77, rfl⟩
abbrev main_call2_v0 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_3 : Ref sig .tc := ⟨.hbm, 85, rfl⟩
abbrev main_v59 : Ref sig .tc := ⟨.hbm, 86, rfl⟩
abbrev main_v60 : Ref sig .tc := ⟨.hbm, 87, rfl⟩
abbrev main_cst_4 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_5 : Ref sig .tc := ⟨.hbm, 94, rfl⟩
abbrev main_v66 : Ref sig .tc := ⟨.hbm, 95, rfl⟩
abbrev main_v67 : Ref sig .tc := ⟨.hbm, 96, rfl⟩
abbrev main_cst_6 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_7 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_c_8 : Ref sig .tc := ⟨.hbm, 114, rfl⟩
abbrev main_v83 : Ref sig .tc := ⟨.hbm, 115, rfl⟩
abbrev main_v84 : Ref sig .tc := ⟨.hbm, 116, rfl⟩
abbrev main_c_9 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_c_10 : Ref sig .tc := ⟨.hbm, 123, rfl⟩
abbrev main_v90 : Ref sig .tc := ⟨.hbm, 124, rfl⟩
abbrev main_v91 : Ref sig .tc := ⟨.hbm, 125, rfl⟩
abbrev main_c_11 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_call3_cst : Ref sig .tc := ⟨.hbm, 141, rfl⟩
abbrev main_call3_v0 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_call4_cst : Ref sig .tc := ⟨.hbm, 152, rfl⟩
abbrev main_call4_v0 : Ref sig .tc := ⟨.hbm, 153, rfl⟩
abbrev main_v115 : Ref sig .tc := ⟨.hbm, 154, rfl⟩
abbrev main_cst_12 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_call5_cst : Ref sig .tc := ⟨.hbm, 168, rfl⟩
abbrev main_call5_v0 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_cst_13 : Ref sig .tc := ⟨.hbm, 176, rfl⟩
abbrev main_v134 : Ref sig .tc := ⟨.hbm, 177, rfl⟩
abbrev main_v135 : Ref sig .tc := ⟨.hbm, 178, rfl⟩
abbrev main_cst_14 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_cst_15 : Ref sig .tc := ⟨.hbm, 185, rfl⟩
abbrev main_v141 : Ref sig .tc := ⟨.hbm, 186, rfl⟩
abbrev main_v142 : Ref sig .tc := ⟨.hbm, 187, rfl⟩
abbrev main_cst_16 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_cst_17 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_c_18 : Ref sig .tc := ⟨.hbm, 205, rfl⟩
abbrev main_v158 : Ref sig .tc := ⟨.hbm, 206, rfl⟩
abbrev main_v159 : Ref sig .tc := ⟨.hbm, 207, rfl⟩
abbrev main_c_19 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_c_20 : Ref sig .tc := ⟨.hbm, 214, rfl⟩
abbrev main_v165 : Ref sig .tc := ⟨.hbm, 215, rfl⟩
abbrev main_v166 : Ref sig .tc := ⟨.hbm, 216, rfl⟩
abbrev main_c_21 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_call6_cst : Ref sig .tc := ⟨.hbm, 232, rfl⟩
abbrev main_call6_v0 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_call7_cst : Ref sig .tc := ⟨.hbm, 243, rfl⟩
abbrev main_call7_v0 : Ref sig .tc := ⟨.hbm, 244, rfl⟩
abbrev main_v190 : Ref sig .tc := ⟨.hbm, 245, rfl⟩
abbrev main_cst_22 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_call8_cst : Ref sig .tc := ⟨.hbm, 259, rfl⟩
abbrev main_call8_v0 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_cst_23 : Ref sig .tc := ⟨.hbm, 267, rfl⟩
abbrev main_v209 : Ref sig .tc := ⟨.hbm, 268, rfl⟩
abbrev main_v210 : Ref sig .tc := ⟨.hbm, 269, rfl⟩
abbrev main_cst_24 : Ref sig .tc := ⟨.hbm, 270, rfl⟩
abbrev main_v211 : Ref sig .tc := ⟨.hbm, 271, rfl⟩
abbrev main_v212 : Ref sig .tc := ⟨.hbm, 272, rfl⟩
abbrev main_v213 : Ref sig .tc := ⟨.hbm, 273, rfl⟩
abbrev main_v214 : Ref sig .tc := ⟨.hbm, 274, rfl⟩
abbrev main_v215 : Ref sig .tc := ⟨.hbm, 275, rfl⟩
abbrev main_cst_25 : Ref sig .tc := ⟨.hbm, 276, rfl⟩
abbrev main_v216 : Ref sig .tc := ⟨.hbm, 277, rfl⟩
abbrev main_v217 : Ref sig .tc := ⟨.hbm, 278, rfl⟩
abbrev main_cst_26 : Ref sig .tc := ⟨.hbm, 279, rfl⟩
abbrev main_v218 : Ref sig .tc := ⟨.hbm, 280, rfl⟩
abbrev main_v219 : Ref sig .tc := ⟨.hbm, 281, rfl⟩
abbrev main_v220 : Ref sig .tc := ⟨.hbm, 282, rfl⟩
abbrev main_v221 : Ref sig .tc := ⟨.hbm, 283, rfl⟩
abbrev main_cst_27 : Ref sig .tc := ⟨.hbm, 284, rfl⟩
abbrev main_v222 : Ref sig .tc := ⟨.hbm, 285, rfl⟩
abbrev main_v223 : Ref sig .tc := ⟨.hbm, 286, rfl⟩
abbrev main_v224 : Ref sig .tc := ⟨.hbm, 287, rfl⟩
abbrev main_v225 : Ref sig .tc := ⟨.hbm, 288, rfl⟩
abbrev main_v226 : Ref sig .tc := ⟨.hbm, 289, rfl⟩
abbrev main_v227 : Ref sig .tc := ⟨.hbm, 290, rfl⟩
abbrev main_v228 : Ref sig .tc := ⟨.hbm, 291, rfl⟩
abbrev main_v229 : Ref sig .tc := ⟨.hbm, 292, rfl⟩
abbrev main_v230 : Ref sig .tc := ⟨.hbm, 293, rfl⟩
abbrev main_v231 : Ref sig .tc := ⟨.hbm, 294, rfl⟩
abbrev main_v232 : Ref sig .tc := ⟨.hbm, 295, rfl⟩
abbrev main_cst_28 : Ref sig .tc := ⟨.hbm, 296, rfl⟩
abbrev main_v233 : Ref sig .tc := ⟨.hbm, 297, rfl⟩
abbrev main_v234 : Ref sig .tc := ⟨.hbm, 298, rfl⟩
abbrev main_cst_29 : Ref sig .tc := ⟨.hbm, 299, rfl⟩
abbrev main_v235 : Ref sig .tc := ⟨.hbm, 300, rfl⟩
abbrev main_v236 : Ref sig .tc := ⟨.hbm, 301, rfl⟩
abbrev main_v237 : Ref sig .tc := ⟨.hbm, 302, rfl⟩
abbrev main_v238 : Ref sig .tc := ⟨.hbm, 303, rfl⟩
abbrev main_v239 : Ref sig .tc := ⟨.hbm, 304, rfl⟩
abbrev main_cst_30 : Ref sig .tc := ⟨.hbm, 305, rfl⟩
abbrev main_v240 : Ref sig .tc := ⟨.hbm, 306, rfl⟩
abbrev main_v241 : Ref sig .tc := ⟨.hbm, 307, rfl⟩
abbrev main_cst_31 : Ref sig .tc := ⟨.hbm, 308, rfl⟩
abbrev main_v242 : Ref sig .tc := ⟨.hbm, 309, rfl⟩
abbrev main_v243 : Ref sig .tc := ⟨.hbm, 310, rfl⟩
abbrev main_v244 : Ref sig .tc := ⟨.hbm, 311, rfl⟩
abbrev main_v245 : Ref sig .tc := ⟨.hbm, 312, rfl⟩
abbrev main_cst_32 : Ref sig .tc := ⟨.hbm, 313, rfl⟩
abbrev main_v246 : Ref sig .tc := ⟨.hbm, 314, rfl⟩
abbrev main_v247 : Ref sig .tc := ⟨.hbm, 315, rfl⟩
abbrev main_v248 : Ref sig .tc := ⟨.hbm, 316, rfl⟩
abbrev main_v249 : Ref sig .tc := ⟨.hbm, 317, rfl⟩
abbrev main_v250 : Ref sig .tc := ⟨.hbm, 318, rfl⟩
abbrev main_v251 : Ref sig .tc := ⟨.hbm, 319, rfl⟩
abbrev main_v252 : Ref sig .tc := ⟨.hbm, 320, rfl⟩
abbrev main_v253 : Ref sig .tc := ⟨.hbm, 321, rfl⟩
abbrev main_v254 : Ref sig .tc := ⟨.hbm, 322, rfl⟩
abbrev main_v255 : Ref sig .tc := ⟨.hbm, 323, rfl⟩
abbrev main_v256 : Ref sig .tc := ⟨.hbm, 324, rfl⟩
abbrev main_cst_33 : Ref sig .tc := ⟨.hbm, 325, rfl⟩
abbrev main_v257 : Ref sig .tc := ⟨.hbm, 326, rfl⟩
abbrev main_cst_34 : Ref sig .tc := ⟨.hbm, 327, rfl⟩
abbrev main_v258 : Ref sig .tc := ⟨.hbm, 328, rfl⟩
abbrev main_v259 : Ref sig .tc := ⟨.hbm, 329, rfl⟩
abbrev main_v260 : Ref sig .tc := ⟨.hbm, 330, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x16_S400000x272_d1 : Shape.Concatenates [S400000x128, S400000x128, S400000x16] S400000x272 1
  slices_S3x272x128_S1x272x128_0_0_0 : S3x272x128.Slices ![0, 0, 0] S1x272x128
  shapeCasts_S1x272x128_S272x128 : S1x272x128.ShapeCasts S272x128
  slices_S3x128_S1x128_0_0 : S3x128.Slices ![0, 0] S1x128
  shapeCasts_S1x128_S128 : S1x128.ShapeCasts S128
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  slices_S3x128x128_S1x128x128_0_0_0 : S3x128x128.Slices ![0, 0, 0] S1x128x128
  shapeCasts_S1x128x128_S128x128 : S1x128x128.ShapeCasts S128x128
  bcast_S_S50000x128 : S_.BroadcastsInDim S50000x128 (![] : Fin 0 → Fin S50000x128.rank)
  concatenates_S50000x128_S50000x128_S50000x256_d1 : Shape.Concatenates [S50000x128, S50000x128] S50000x256 1
  slices_S3x256x128_S1x256x128_0_0_0 : S3x256x128.Slices ![0, 0, 0] S1x256x128
  shapeCasts_S1x256x128_S256x128 : S1x256x128.ShapeCasts S256x128
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  slices_S3x272x128_S1x272x128_1_0_0 : S3x272x128.Slices ![1, 0, 0] S1x272x128
  slices_S3x128_S1x128_1_0 : S3x128.Slices ![1, 0] S1x128
  slices_S3x128x128_S1x128x128_1_0_0 : S3x128x128.Slices ![1, 0, 0] S1x128x128
  slices_S3x256x128_S1x256x128_1_0_0 : S3x256x128.Slices ![1, 0, 0] S1x256x128
  slices_S3x272x128_S1x272x128_2_0_0 : S3x272x128.Slices ![2, 0, 0] S1x272x128
  slices_S3x128_S1x128_2_0 : S3x128.Slices ![2, 0] S1x128
  slices_S3x128x128_S1x128x128_2_0_0 : S3x128x128.Slices ![2, 0, 0] S1x128x128
  slices_S3x256x128_S1x256x128_2_0_0 : S3x256x128.Slices ![2, 0, 0] S1x256x128
  reducesTo_S50000x128_S128_d0 : S50000x128.ReducesTo [0] S128
  bcast_S_S128 : S_.BroadcastsInDim S128 (![] : Fin 0 → Fin S128.rank)
  dot_S50000x128_S128x128_S50000x128_1_0_0_1_n_n_wf : DotDims.WF S50000x128 S128x128 S50000x128 [1] [0] [0] [1] [] []
  gather_S50000x128_S400000x1_S400000x128_1_0_n_n_0_1_1128_wf : GatherDims.WF S50000x128 S400000x1 S400000x128 [1] [0] [] [0] [] 1 ![1, 128]
  dot_S400000x272_S272x128_S400000x128_1_0_0_1_n_n_wf : DotDims.WF S400000x272 S272x128 S400000x128 [1] [0] [0] [1] [] []
  dot_S400000x128_S128x128_S400000x128_1_0_0_1_n_n_wf : DotDims.WF S400000x128 S128x128 S400000x128 [1] [0] [0] [1] [] []
  scatter_S50000x128_S400000x1_S400000x128_1_0_0_1_wf : ScatterDims.WF S50000x128 S400000x1 S400000x128 [1] [0] [0] 1
  dot_S50000x256_S256x128_S50000x128_1_0_0_1_n_n_wf : DotDims.WF S50000x256 S256x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S400000x272_S272x128_S400000x128_1_0_0_1_n_n : DotDims S400000x272 S272x128 S400000x128 where
  lhsContracting := [1]
  rhsContracting := [0]
  lhsNonContracting := [0]
  rhsNonContracting := [1]
  lhsBatch := []
  rhsBatch := []
  wf := dot_S400000x272_S272x128_S400000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Spec.lean ====
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

abbrev M (a b : Nat) : Type := (⟨2, ![a, b]⟩ : Shape).Idx → EReal

abbrev Vc (a : Nat) : Type := (⟨1, ![a]⟩ : Shape).Idx → EReal

def mk2 {a b : Nat} (f : Fin a → Fin b → EReal) : M a b := fun i => f (i 0) (i 1)
theorem mk2_ix2 {a b : Nat} (f : Fin a → Fin b → EReal) (r : Fin a) (j : Fin b) : mk2 f (ix2 r j) = f r j := rfl

theorem ext2 {a b : Nat} {x y : M a b} (h : ∀ (r : Fin a) (j : Fin b), x (ix2 r j) = y (ix2 r j)) : x = y := by
  funext i; rw [eq_ix2 i]; exact h _ _

def c0 : EReal := Ideal.ofBits .f32 0x00000000#32
def c128 : EReal := Ideal.ofBits .f32 0x43000000#32
def ceps : EReal := Ideal.ofBits .f32 0x3727C5AC#32
def cN : EReal := Ideal.ofBits .f32 0x47435000#32

def mean128 (v : Fin 128 → EReal) : EReal := Ideal.div (∑ k : Fin 128, v k) c128

def lnRow (v : Fin 128 → EReal) (g b : Vc 128) (j : Fin 128) : EReal :=
  (v j - mean128 v) * Ideal.rsqrt (mean128 (fun k => (v k - mean128 v) * (v k - mean128 v)) + ceps) * g (ix1 j) + b (ix1 j)

def projS (x : M 50000 128) (W : M 128 128) (b : Vc 128) (r : Fin 50000) (j : Fin 128) : EReal :=
  (∑ k : Fin 128, x (ix2 r k) * W (ix2 k j)) + b (ix1 j)

def msgPre (hi hj : M 400000 128) (ea : M 400000 16) (W1 : M 272 128) (b1 : Vc 128) (e : Fin 400000) (k : Fin 128) : EReal :=
  (((∑ a : Fin 128, hi (ix2 e a) * W1 (ix2 (⟨a.val, by omega⟩ : Fin 272) k))
    + (∑ a : Fin 128, hj (ix2 e a) * W1 (ix2 (⟨128 + a.val, by omega⟩ : Fin 272) k)))
    + (∑ a : Fin 16, ea (ix2 e a) * W1 (ix2 (⟨256 + a.val, by omega⟩ : Fin 272) k))) + b1 (ix1 k)

def msgS (hi hj : M 400000 128) (ea : M 400000 16) (W1 : M 272 128) (b1 : Vc 128) (W2 : M 128 128) (b2 : Vc 128)
    (e : Fin 400000) (j : Fin 128) : EReal :=
  max ((∑ k : Fin 128, max (msgPre hi hj ea W1 b1 e k) c0 * W2 (ix2 k j)) + b2 (ix1 j)) c0

def updPre (h agg : M 50000 128) (W : M 256 128) (b : Vc 128) (r : Fin 50000) (j : Fin 128) : EReal :=
  max ((((∑ a : Fin 128, h (ix2 r a) * W (ix2 (⟨a.val, by omega⟩ : Fin 256) j))
    + (∑ a : Fin 128, agg (ix2 r a) * W (ix2 (⟨128 + a.val, by omega⟩ : Fin 256) j)))) + b (ix1 j)) c0 + h (ix2 r j)

def updS (h agg : M 50000 128) (W : M 256 128) (b g beta : Vc 128) (r : Fin 50000) (j : Fin 128) : EReal :=
  lnRow (fun k => updPre h agg W b r k) g beta j

def finS (h : M 50000 128) (g b : Vc 128) (j : Fin 128) : EReal :=
  Ideal.div (∑ r : Fin 50000, lnRow (fun k => h (ix2 r k)) g b j) cN

end Cert.Spec

end
-- ==== Proof.Net.lean ====
import proofs.«404470_j89532888252999_1_alg».proof.Proof.Spec

noncomputable section

namespace Cert.Spec

open Idealize.ShloMosaic Idealize.ShloMosaic.ValueIdx

abbrev IdxV : Type := (⟨1, ![400000]⟩ : Shape).Idx → BitVec 32

structure LayerW where
  W1 : M 272 128
  b1 : Vc 128
  W2 : M 128 128
  b2 : Vc 128
  U : M 256 128
  ub : Vc 128
  g : Vc 128
  beta : Vc 128

def layer (gath : M 50000 128 → IdxV → M 400000 128) (scat : IdxV → M 400000 128 → M 50000 128)
    (ii jj : IdxV) (ea : M 400000 16) (w : LayerW) (h : M 50000 128) : M 50000 128 :=
  mk2 (updS h (scat ii (mk2 (msgS (gath h ii) (gath h jj) ea w.W1 w.b1 w.W2 w.b2))) w.U w.ub w.g w.beta)

def finA (h : M 50000 128) (g b : Vc 128) : M 1 128 := mk2 (fun _ j => finS h g b j)

def net (gath : M 50000 128 → IdxV → M 400000 128) (scat : IdxV → M 400000 128 → M 50000 128)
    (ii jj : IdxV) (x : M 50000 128) (ea : M 400000 16) (pW : M 128 128) (pb : Vc 128) (w0 w1 w2 : LayerW)
    (og ob : Vc 128) : M 1 128 :=
  finA (layer gath scat ii jj ea w2 (layer gath scat ii jj ea w1 (layer gath scat ii jj ea w0 (mk2 (projS x pW pb))))) og ob

end Cert.Spec

end
-- ==== Proof.TakeK.lean ====
import proofs.«404470_j89532888252999_1_alg».proof.KernelIdeal
import proofs.«404470_j89532888252999_1_alg».proof.Pre_finite_inputs
import proofs.«404470_j89532888252999_1_alg».proof.Proof.Net
import Idealize.ShloMosaic.Lib.StableHlo.Predicate
import Idealize.ShloMosaic.Lib.ReduceAll
import Idealize.ShloMosaic.Lib.ValueIdx

noncomputable section

namespace Cert.KernelIdeal.TakeK

open Cert.KernelIdeal Idealize.ShloMosaic Idealize.ShloMosaic.ValueIdx

variable {F : FTy → Type} [FloatOps F]
variable [Facts]
open Facts₀ Facts

def InRange (idx : IVec S400000 32) : Prop :=
  ∀ e : S400000.Idx, IntOp.cmpi .sge (idx e) 0#32 = 1#1 ∧ IntOp.cmpi .slt (idx e) 50000#32 = 1#1

def normIdx (idx : IVec S400000 32) : IVec S400000 32 :=
  select (cmpi .slt idx (broadcastInDim S400000 ![] bcast_S_S400000 (constantI S_ 32 0#32)))
    (addi idx (broadcastInDim S400000 ![] bcast_S_S400000 (constantI S_ 32 50000#32))) idx

def gathK (h : FVec F S50000x128 .f32) (idx : IVec S400000 32) : FVec F S400000x128 .f32 :=
  Host.gather gather_S50000x128_S400000x1_S400000x128_1_0_n_n_0_1_1128 h
    (broadcastInDim S400000x1 ![0] bcast_S400000_S400000x1_0 (normIdx idx))

def takeK (h : FVec F S50000x128 .f32) (idx : IVec S400000 32) : FVec F S400000x128 .f32 :=
  let c : IVec S_ 32 := constantI S_ 32 0#32
  let v0 : IVec S400000 32 := broadcastInDim S400000 ![] bcast_S_S400000 c
  let v1 : IVec S400000 1 := cmpi .slt idx v0
  let c_0 : IVec S_ 32 := constantI S_ 32 50000#32
  let v2 : IVec S400000 32 := broadcastInDim S400000 ![] bcast_S_S400000 c_0
  let v3 : IVec S400000 32 := addi idx v2
  let v4 : IVec S400000 32 := select v1 v3 idx
  let v5 : IVec S400000x1 32 := broadcastInDim S400000x1 ![0] bcast_S400000_S400000x1_0 v4
  let c_1 : IVec S1 32 := constantI S1 32 49999#32
  let c_2 : IVec S_ 32 := constantI S_ 32 0#32
  let v6 : IVec S400000x1 32 := broadcastInDim S400000x1 ![] bcast_S_S400000x1 c_2
  let v7 : IVec S400000x1 1 := cmpi .sge v5 v6
  let v8 : IVec S1x1 32 := broadcastInDim S1x1 ![1] bcast_S1_S1x1_1 c_1
  let v9 : IVec S400000x1 32 := broadcastInDim S400000x1 ![0, 1] bcast_S1x1_S400000x1_0_1 v8
  let v10 : IVec S400000x1 1 := cmpi .sle v5 v9
  let v11 : IVec S400000x1 1 := andi v7 v10
  let c_3 : IVec S_ 1 := constantI S_ 1 1#1
  let v12 : IVec S400000 1 := Host.reduce IntOp.andi v11 c_3 reducesTo_S400000x1_S400000_d1 h_S_
  let v13 : FVec F S400000x128 .f32 := Host.gather gather_S50000x128_S400000x1_S400000x128_1_0_n_n_0_1_1128 h v5
  let v14 : IVec S400000x128 1 := broadcastInDim S400000x128 ![0] bcast_S400000_S400000x128_0 v12
  let cst : FVec F S_ .f32 := constant S_ .f32 0x7FC00000#32
  let v15 : FVec F S400000x128 .f32 := broadcastInDim S400000x128 ![] bcast_S_S400000x128 cst
  select v14 v13 v15

def rowI (ei : IVec S2x400000 32) : IVec S400000 32 :=
  shapeCast S400000 (extractStridedSlice S1x400000 ![0, 0] ei slices_S2x400000_S1x400000_0_0) shapeCasts_S1x400000_S400000

def rowJ (ei : IVec S2x400000 32) : IVec S400000 32 :=
  shapeCast S400000 (extractStridedSlice S1x400000 ![1, 0] ei slices_S2x400000_S1x400000_1_0) shapeCasts_S1x400000_S400000

theorem lane_of_inRange {w : BitVec 32} (h0 : IntOp.cmpi .sge w 0#32 = 1#1) (h1 : IntOp.cmpi .slt w 50000#32 = 1#1) :
    IntOp.cmpi .slt w 0#32 = 0#1 ∧ IntOp.cmpi .sle w 49999#32 = 1#1 := by
  have e0 : (0#32 : BitVec 32).toInt = 0 := by decide
  have e1 : (50000#32 : BitVec 32).toInt = 50000 := by decide
  have e2 : (49999#32 : BitVec 32).toInt = 49999 := by decide
  rw [IntOp.cmpi_sge, e0] at h0
  rw [IntOp.cmpi_slt, e1] at h1
  refine ⟨eq_zero_of_ne_one fun hc => ?_, ?_⟩
  · rw [IntOp.cmpi_slt, e0] at hc; omega
  · rw [IntOp.cmpi_sle, e2]; omega

theorem foldl_andi_one {ι : Type} (f : ι → BitVec 1) (l : List ι) (hl : ∀ n ∈ l, f n = 1#1) :
    l.foldl (fun r n => IntOp.andi r (f n)) 1#1 = 1#1 := by
  induction l with
  | nil => rfl
  | cons a l ih =>
    rw [List.foldl_cons, hl a List.mem_cons_self, show IntOp.andi 1#1 1#1 = 1#1 from by decide]
    exact ih fun n hn => hl n (List.mem_cons_of_mem _ hn)

theorem normIdx_apply (idx : IVec S400000 32) (hin : InRange idx) (e : S400000.Idx) : normIdx idx e = idx e := by
  show Scalar.select (IntOp.cmpi .slt (idx e) 0#32) (IntOp.addi (idx e) 50000#32) (idx e) = idx e
  rw [(lane_of_inRange (hin e).1 (hin e).2).1, select_zero]

theorem inRange_normIdx (idx : IVec S400000 32) (hin : InRange idx) : InRange (normIdx idx) := fun e => by
  rw [normIdx_apply idx hin e]; exact hin e

def testK (idx : IVec S400000 32) : IVec S400000x1 1 :=
  andi
    (cmpi .sge (broadcastInDim S400000x1 ![0] bcast_S400000_S400000x1_0 (normIdx idx))
      (broadcastInDim S400000x1 ![] bcast_S_S400000x1 (constantI S_ 32 0#32)))
    (cmpi .sle (broadcastInDim S400000x1 ![0] bcast_S400000_S400000x1_0 (normIdx idx))
      (broadcastInDim S400000x1 ![0, 1] bcast_S1x1_S400000x1_0_1 (broadcastInDim S1x1 ![1] bcast_S1_S1x1_1 (constantI S1 32 49999#32))))

def maskK (idx : IVec S400000 32) : IVec S400000 1 :=
  Host.reduce IntOp.andi (testK idx) (constantI S_ 1 1#1) reducesTo_S400000x1_S400000_d1 h_S_

theorem takeK_eq_select (h : FVec F S50000x128 .f32) (idx : IVec S400000 32) :
    takeK h idx = select (broadcastInDim S400000x128 ![0] bcast_S400000_S400000x128_0 (maskK idx)) (gathK h idx)
      (broadcastInDim S400000x128 ![] bcast_S_S400000x128 (constant S_ .f32 0x7FC00000#32)) := rfl

theorem testK_apply (idx : IVec S400000 32) (hin : InRange idx) (i : S400000x1.Idx) : testK idx i = 1#1 := by
  have hn := inRange_normIdx idx hin
  refine IntOp.andi_eq_one.2 ⟨(hn _).1, (lane_of_inRange (hn _).1 (hn _).2).2⟩

theorem maskK_apply (idx : IVec S400000 32) (hin : InRange idx) (k : S400000.Idx) : maskK idx k = 1#1 := by
  unfold maskK
  rw [Host.reduce_eq_foldl]
  exact foldl_andi_one _ _ fun i _ => testK_apply idx hin i

theorem takeK_eq_gathK (h : FVec F S50000x128 .f32) (idx : IVec S400000 32) (hin : InRange idx) :
    takeK h idx = gathK h idx := by
  rw [takeK_eq_select]
  funext j
  rw [select_apply]
  have hm : broadcastInDim S400000x128 ![0] bcast_S400000_S400000x128_0 (maskK idx) j = 1#1 := maskK_apply idx hin _
  rw [hm, select_one]

section Decode
variable [Cert.Pre_finite_inputs.Facts]

theorem pre_entries (a0 : FVec F S50000x128 .f32) (a1 : FVec F S400000x16 .f32) (a2 : IVec S2x400000 32)
    (a3 : FVec F S128x128 .f32) (a4 : FVec F S128 .f32) (a5 : FVec F S3x272x128 .f32) (a6 : FVec F S3x128 .f32)
    (a7 : FVec F S3x128x128 .f32) (a8 : FVec F S3x128 .f32) (a9 : FVec F S3x256x128 .f32) (a10 : FVec F S3x128 .f32)
    (a11 : FVec F S3x128 .f32) (a12 : FVec F S3x128 .f32) (a13 : FVec F S128 .f32) (a14 : FVec F S128 .f32)
    (hpre : Cert.Pre_finite_inputs.fn (F := F) a0 a1 a2 a3 a4 a5 a6 a7 a8 a9 a10 a11 a12 a13 a14 = fun _ => 1#1)
    (i : S2x400000.Idx) :
    IntOp.cmpi .sge (a2 i) 0#32 = 1#1 ∧ IntOp.cmpi .slt (a2 i) 50000#32 = 1#1 := by
  haveI : Subsingleton Cert.Pre_finite_inputs.S_.Idx := ⟨fun a b => funext fun d => d.elim0⟩
  have h := congrFun hpre ix0
  dsimp only [Cert.Pre_finite_inputs.fn, Cert.Pre_finite_inputs.fn_part1, Cert.Pre_finite_inputs.fn_part2,
    Cert.Pre_finite_inputs.fn_part3, Cert.Pre_finite_inputs.fn_part4] at h
  have hr := (IntOp.andi_eq_one.1 h).2
  exact IntOp.andi_eq_one.1 (Host.reduce_andi_all _ _ _ _ _ hr i)

theorem rows_in_range (a0 : FVec F S50000x128 .f32) (a1 : FVec F S400000x16 .f32) (a2 : IVec S2x400000 32)
    (a3 : FVec F S128x128 .f32) (a4 : FVec F S128 .f32) (a5 : FVec F S3x272x128 .f32) (a6 : FVec F S3x128 .f32)
    (a7 : FVec F S3x128x128 .f32) (a8 : FVec F S3x128 .f32) (a9 : FVec F S3x256x128 .f32) (a10 : FVec F S3x128 .f32)
    (a11 : FVec F S3x128 .f32) (a12 : FVec F S3x128 .f32) (a13 : FVec F S128 .f32) (a14 : FVec F S128 .f32)
    (hpre : Cert.Pre_finite_inputs.fn (F := F) a0 a1 a2 a3 a4 a5 a6 a7 a8 a9 a10 a11 a12 a13 a14 = fun _ => 1#1) :
    InRange (rowI a2) ∧ InRange (rowJ a2) :=
  ⟨fun e => pre_entries a0 a1 a2 a3 a4 a5 a6 a7 a8 a9 a10 a11 a12 a13 a14 hpre _,
   fun e => pre_entries a0 a1 a2 a3 a4 a5 a6 a7 a8 a9 a10 a11 a12 a13 a14 hpre _⟩

end Decode

/-- Layer `o`'s parameters as the kernel program slices them out of the stacked arrays, the matrices through their bf16 casts. -/
def layerAt (o : ℕ) (s1 : S3x272x128.Slices ![o, 0, 0] S1x272x128) (s2 : S3x128.Slices ![o, 0] S1x128)
    (s3 : S3x128x128.Slices ![o, 0, 0] S1x128x128) (s4 : S3x256x128.Slices ![o, 0, 0] S1x256x128)
    (a5 : FVec Ideal S3x272x128 .f32) (a6 : FVec Ideal S3x128 .f32) (a7 : FVec Ideal S3x128x128 .f32) (a8 : FVec Ideal S3x128 .f32)
    (a9 : FVec Ideal S3x256x128 .f32) (a10 a11 a12 : FVec Ideal S3x128 .f32) : Cert.Spec.LayerW where
  W1 := shapeCast S272x128 (extractStridedSlice S1x272x128 ![o, 0, 0] (truncf .bf16 a5 bitsLt_bf16_f32) s1) shapeCasts_S1x272x128_S272x128
  b1 := shapeCast S128 (extractStridedSlice S1x128 ![o, 0] a6 s2) shapeCasts_S1x128_S128
  W2 := shapeCast S128x128 (extractStridedSlice S1x128x128 ![o, 0, 0] (truncf .bf16 a7 bitsLt_bf16_f32) s3) shapeCasts_S1x128x128_S128x128
  b2 := shapeCast S128 (extractStridedSlice S1x128 ![o, 0] a8 s2) shapeCasts_S1x128_S128
  U := shapeCast S256x128 (extractStridedSlice S1x256x128 ![o, 0, 0] (truncf .bf16 a9 bitsLt_bf16_f32) s4) shapeCasts_S1x256x128_S256x128
  ub := shapeCast S128 (extractStridedSlice S1x128 ![o, 0] a10 s2) shapeCasts_S1x128_S128
  g := shapeCast S128 (extractStridedSlice S1x128 ![o, 0] a11 s2) shapeCasts_S1x128_S128
  beta := shapeCast S128 (extractStridedSlice S1x128 ![o, 0] a12 s2) shapeCasts_S1x128_S128

end Cert.KernelIdeal.TakeK

end
-- ==== Proof.ChainK0.lean ====
import proofs.«404470_j89532888252999_1_alg».proof.Proof.Gen.KernelIdeal.Launch
import proofs.«404470_j89532888252999_1_alg».proof.Proof.TakeK
import Idealize.ShloMosaic.Lib.StableHlo.Run

set_option maxRecDepth 16384

noncomputable section

namespace Cert.KernelIdeal.ChainK

open Cert.KernelIdeal Cert.KernelIdeal.Gen Cert.KernelIdeal.TakeK
open Idealize.ShloMosaic Idealize.ShloMosaic.TcCoe Idealize.ShloMosaic.StableHlo

variable {F : FTy → Type} [FloatOps F]

theorem sub_of_mem {Val : EltTy → Type} {op : HloOp τ sig Val} {y : Ref sig .tc} {W : List (Ref sig .tc)}
    (hw : op.writes = {Proc.devRef .tc y}) (hy : y ∈ W) : op.writes ⊆ (W.map (Proc.devRef (τ := τ) .tc)).toFinset := by
  rw [hw, Finset.singleton_subset_iff, List.mem_toFinset]
  exact List.mem_map_of_mem hy

theorem ofBuf_toBuf {Val : EltTy → Type} {T : BufTy} (x : TRef sig T) (v : T.Contents Val) : x.ofBuf (x.toBuf v) = v := by
  obtain ⟨r, e, h1, h2⟩ := x
  subst e
  rfl

/-- Each operation of a literal stretch writes one buffer, a member of the stretch's list. -/
macro "writes_listed" : tactic => `(tactic| (repeat' apply And.intro) <;> exact sub_of_mem rfl (by decide))

noncomputable def wl0 : List (Ref sig .tc) :=
  [main_v0, main_v1, main_v2, main_v3, main_v4, main_v5, main_v6, main_v7]

theorem writes0 : (hostOps0 (F := F)).Forall fun op => op.writes ⊆ (wl0.map (Proc.devRef (τ := τ) .tc)).toFinset := by writes_listed

theorem keep0 (X : Valuation τ sig (Elt F)) (r : Ref sig .tc) (hr : r ∉ wl0) :
    after hostOps0 X (Proc.devRef .tc r) = X (Proc.devRef .tc r) :=
  after_of_writes_sub hostOps0 X writes0 hr

theorem read0_ii (X : Valuation τ sig (Elt F)) :
    (after hostOps0 X (Proc.devRef .tc main_v1) : IVec S400000 32)
      = rowI (X (Proc.devRef .tc main_arg2) : IVec S2x400000 32) := by
  after_results
  all_goals rfl

theorem read0_jj (X : Valuation τ sig (Elt F)) :
    (after hostOps0 X (Proc.devRef .tc main_v3) : IVec S400000 32)
      = rowJ (X (Proc.devRef .tc main_arg2) : IVec S2x400000 32) := by
  after_results
  all_goals rfl

theorem read0_pW (X : Valuation τ sig (Elt F)) :
    (after hostOps0 X (Proc.devRef .tc main_v4) : FVec F S128x128 .bf16)
      = truncf .bf16 (X (Proc.devRef .tc main_arg3) : FVec F S128x128 .f32) bitsLt_bf16_f32 := by
  after_results
  all_goals rfl

theorem read0_c5 (X : Valuation τ sig (Elt F)) :
    (after hostOps0 X (Proc.devRef .tc main_v5) : FVec F S3x272x128 .bf16)
      = truncf .bf16 (X (Proc.devRef .tc main_arg5) : FVec F S3x272x128 .f32) bitsLt_bf16_f32 := by
  after_results
  all_goals rfl

theorem read0_c6 (X : Valuation τ sig (Elt F)) :
    (after hostOps0 X (Proc.devRef .tc main_v6) : FVec F S3x128x128 .bf16)
      = truncf .bf16 (X (Proc.devRef .tc main_arg7) : FVec F S3x128x128 .f32) bitsLt_bf16_f32 := by
  after_results
  all_goals rfl

theorem read0_c7 (X : Valuation τ sig (Elt F)) :
    (after hostOps0 X (Proc.devRef .tc main_v7) : FVec F S3x256x128 .bf16)
      = truncf .bf16 (X (Proc.devRef .tc main_arg9) : FVec F S3x256x128 .f32) bitsLt_bf16_f32 := by
  after_results
  all_goals rfl

noncomputable def wl1 : List (Ref sig .tc) :=
  [main_call0_c, main_call0_v0, main_call0_v1, main_call0_c_0, main_call0_v2, main_call0_v3, main_call0_v4, main_call0_v5,
   main_call0_c_1, main_call0_c_2, main_call0_v6, main_call0_v7, main_call0_v8, main_call0_v9, main_call0_v10, main_call0_v11,
   main_call0_c_3, main_call0_v12, main_call0_v13, main_call0_v14, main_call0_cst, main_call0_v15, main_v9]

theorem writes1 : (hostOps1 (F := F)).Forall fun op => op.writes ⊆ (wl1.map (Proc.devRef (τ := τ) .tc)).toFinset := by writes_listed

theorem keep1 (X : Valuation τ sig (Elt F)) (r : Ref sig .tc) (hr : r ∉ wl1) :
    after hostOps1 X (Proc.devRef .tc r) = X (Proc.devRef .tc r) :=
  after_of_writes_sub hostOps1 X writes1 hr

theorem toBuf_main_v9 (v : FVec F S400000x128 .f32) :
    ((TRef.of main_v9 : TRef sig ⟨S400000x128, .f32⟩).toBuf (Val := Elt F) v : FVec F S400000x128 .f32) = v := rfl

set_option maxHeartbeats 1000000 in
theorem read1_aux (X : Valuation τ sig (Elt F)) :
    after hostOps1 X (Proc.devRef .tc main_v9)
      = (TRef.of main_v9 : TRef sig ⟨S400000x128, .f32⟩).toBuf (Val := Elt F)
          (takeK (F := F) (X (Proc.devRef .tc main_v8)) (X (Proc.devRef .tc main_v1))) := by
  after_results_simp
  simp only [ofBuf_toBuf]
  refine congrArg (TRef.toBuf (Val := Elt F) (TRef.of main_v9 : TRef sig ⟨S400000x128, .f32⟩)) ?_
  rfl

theorem read1 (X : Valuation τ sig (Elt F)) :
    after hostOps1 X (Proc.devRef .tc main_v9) = takeK (F := F) (X (Proc.devRef .tc main_v8)) (X (Proc.devRef .tc main_v1)) :=
  (read1_aux X).trans (toBuf_main_v9 _)

noncomputable def wl1_1 : List (Ref sig .tc) :=
  [main_call1_c, main_call1_v0, main_call1_v1, main_call1_c_0, main_call1_v2, main_call1_v3, main_call1_v4, main_call1_v5,
   main_call1_c_1, main_call1_c_2, main_call1_v6, main_call1_v7, main_call1_v8, main_call1_v9, main_call1_v10, main_call1_v11,
   main_call1_c_3, main_call1_v12, main_call1_v13, main_call1_v14, main_call1_cst, main_call1_v15, main_v10]

theorem writes1_1 : (hostOps1_1 (F := F)).Forall fun op => op.writes ⊆ (wl1_1.map (Proc.devRef (τ := τ) .tc)).toFinset := by writes_listed

theorem keep1_1 (X : Valuation τ sig (Elt F)) (r : Ref sig .tc) (hr : r ∉ wl1_1) :
    after hostOps1_1 X (Proc.devRef .tc r) = X (Proc.devRef .tc r) :=
  after_of_writes_sub hostOps1_1 X writes1_1 hr

theorem toBuf_main_v10 (v : FVec F S400000x128 .f32) :
    ((TRef.of main_v10 : TRef sig ⟨S400000x128, .f32⟩).toBuf (Val := Elt F) v : FVec F S400000x128 .f32) = v := rfl

set_option maxHeartbeats 1000000 in
theorem read1_1_aux (X : Valuation τ sig (Elt F)) :
    after hostOps1_1 X (Proc.devRef .tc main_v10)
      = (TRef.of main_v10 : TRef sig ⟨S400000x128, .f32⟩).toBuf (Val := Elt F)
          (takeK (F := F) (X (Proc.devRef .tc main_v8)) (X (Proc.devRef .tc main_v3))) := by
  after_results_simp
  simp only [ofBuf_toBuf]
  refine congrArg (TRef.toBuf (Val := Elt F) (TRef.of main_v10 : TRef sig ⟨S400000x128, .f32⟩)) ?_
  rfl

theorem read1_1 (X : Valuation τ sig (Elt F)) :
    after hostOps1_1 X (Proc.devRef .tc main_v10) = takeK (F := F) (X (Proc.devRef .tc main_v8)) (X (Proc.devRef .tc main_v3)) :=
  (read1_1_aux X).trans (toBuf_main_v10 _)

noncomputable def wl1_2 : List (Ref sig .tc) :=
  [main_v11, main_v12, main_v13, main_v14, main_v15, main_v16, main_v17, main_v18]

theorem writes1_2 : (hostOps1_2 (F := F)).Forall fun op => op.writes ⊆ (wl1_2.map (Proc.devRef (τ := τ) .tc)).toFinset := by writes_listed

theorem keep1_2 (X : Valuation τ sig (Elt F)) (r : Ref sig .tc) (hr : r ∉ wl1_2) :
    after hostOps1_2 X (Proc.devRef .tc r) = X (Proc.devRef .tc r) :=
  after_of_writes_sub hostOps1_2 X writes1_2 hr

theorem read1_2_W1 (X : Valuation τ sig (Elt F)) :
    (after hostOps1_2 X (Proc.devRef .tc main_v12) : FVec F S272x128 .bf16)
      = shapeCast S272x128 (extractStridedSlice S1x272x128 ![0, 0, 0] (X (Proc.devRef .tc main_v5) : FVec F S3x272x128 .bf16) slices_S3x272x128_S1x272x128_0_0_0) shapeCasts_S1x272x128_S272x128 := by
  after_results
  all_goals rfl

theorem read1_2_b1 (X : Valuation τ sig (Elt F)) :
    (after hostOps1_2 X (Proc.devRef .tc main_v14) : FVec F S128 .f32)
      = shapeCast S128 (extractStridedSlice S1x128 ![0, 0] (X (Proc.devRef .tc main_arg6) : FVec F S3x128 .f32) slices_S3x128_S1x128_0_0) shapeCasts_S1x128_S128 := by
  after_results
  all_goals rfl

theorem read1_2_W2 (X : Valuation τ sig (Elt F)) :
    (after hostOps1_2 X (Proc.devRef .tc main_v16) : FVec F S128x128 .bf16)
      = shapeCast S128x128 (extractStridedSlice S1x128x128 ![0, 0, 0] (X (Proc.devRef .tc main_v6) : FVec F S3x128x128 .bf16) slices_S3x128x128_S1x128x128_0_0_0) shapeCasts_S1x128x128_S128x128 := by
  after_results
  all_goals rfl

theorem read1_2_b2 (X : Valuation τ sig (Elt F)) :
    (after hostOps1_2 X (Proc.devRef .tc main_v18) : FVec F S128 .f32)
      = shapeCast S128 (extractStridedSlice S1x128 ![0, 0] (X (Proc.devRef .tc main_arg8) : FVec F S3x128 .f32) slices_S3x128_S1x128_0_0) shapeCasts_S1x128_S128 := by
  after_results
  all_goals rfl

noncomputable def wl2 : List (Ref sig .tc) :=
  [main_cst, main_v20, main_v21, main_v22, main_v23, main_v24, main_v25, main_v26,
   main_v27, main_v28, main_v29, main_v30]

theorem writes2 : (hostOps2 (F := F)).Forall fun op => op.writes ⊆ (wl2.map (Proc.devRef (τ := τ) .tc)).toFinset := by writes_listed

theorem keep2 (X : Valuation τ sig (Elt F)) (r : Ref sig .tc) (hr : r ∉ wl2) :
    after hostOps2 X (Proc.devRef .tc r) = X (Proc.devRef .tc r) :=
  after_of_writes_sub hostOps2 X writes2 hr

theorem read2_agg (X : Valuation τ sig (Elt F)) :
    (after hostOps2 X (Proc.devRef .tc main_v22) : FVec F S50000x128 .f32)
      = Host.scatterAdd scatter_S50000x128_S400000x1_S400000x128_1_0_0_1
          (broadcastInDim S50000x128 ![] bcast_S_S50000x128 (constant (F := F) S_ .f32 0x00000000#32))
          (broadcastInDim S400000x1 ![0] bcast_S400000_S400000x1_0 (X (Proc.devRef .tc main_v1) : IVec S400000 32))
          (X (Proc.devRef .tc main_v19) : FVec F S400000x128 .f32) := by
  after_results
  all_goals rfl

theorem read2_U (X : Valuation τ sig (Elt F)) :
    (after hostOps2 X (Proc.devRef .tc main_v24) : FVec F S256x128 .bf16)
      = shapeCast S256x128 (extractStridedSlice S1x256x128 ![0, 0, 0] (X (Proc.devRef .tc main_v7) : FVec F S3x256x128 .bf16) slices_S3x256x128_S1x256x128_0_0_0) shapeCasts_S1x256x128_S256x128 := by
  after_results
  all_goals rfl

theorem read2_ub (X : Valuation τ sig (Elt F)) :
    (after hostOps2 X (Proc.devRef .tc main_v26) : FVec F S128 .f32)
      = shapeCast S128 (extractStridedSlice S1x128 ![0, 0] (X (Proc.devRef .tc main_arg10) : FVec F S3x128 .f32) slices_S3x128_S1x128_0_0) shapeCasts_S1x128_S128 := by
  after_results
  all_goals rfl

theorem read2_g (X : Valuation τ sig (Elt F)) :
    (after hostOps2 X (Proc.devRef .tc main_v28) : FVec F S128 .f32)
      = shapeCast S128 (extractStridedSlice S1x128 ![0, 0] (X (Proc.devRef .tc main_arg11) : FVec F S3x128 .f32) slices_S3x128_S1x128_0_0) shapeCasts_S1x128_S128 := by
  after_results
  all_goals rfl

theorem read2_beta (X : Valuation τ sig (Elt F)) :
    (after hostOps2 X (Proc.devRef .tc main_v30) : FVec F S128 .f32)
      = shapeCast S128 (extractStridedSlice S1x128 ![0, 0] (X (Proc.devRef .tc main_arg12) : FVec F S3x128 .f32) slices_S3x128_S1x128_0_0) shapeCasts_S1x128_S128 := by
  after_results
  all_goals rfl

noncomputable def wl8 : List (Ref sig .tc) :=
  [main_cst_2, main_v79, main_v80]

theorem writes8 : (hostOps8 (F := F)).Forall fun op => op.writes ⊆ (wl8.map (Proc.devRef (τ := τ) .tc)).toFinset := by writes_listed

theorem keep8 (X : Valuation τ sig (Elt F)) (r : Ref sig .tc) (hr : r ∉ wl8) :
    after hostOps8 X (Proc.devRef .tc r) = X (Proc.devRef .tc r) :=
  after_of_writes_sub hostOps8 X writes8 hr

theorem read8 (X : Valuation τ sig (Elt F)) :
    (after hostOps8 X (Proc.devRef .tc main_v80) : FVec F S1x128 .f32)
      = Host.divf (X (Proc.devRef .tc main_v78) : FVec F S1x128 .f32)
          (broadcastInDim S1x128 ![] bcast_S_S1x128 (constant (F := F) S_ .f32 0x47435000#32)) := by
  after_results
  all_goals rfl

end Cert.KernelIdeal.ChainK

end
-- ==== Proof.ChainK1.lean ====
import proofs.«404470_j89532888252999_1_alg».proof.Proof.ChainK0

set_option maxRecDepth 16384

noncomputable section

namespace Cert.KernelIdeal.ChainK

open Cert.KernelIdeal Cert.KernelIdeal.Gen Cert.KernelIdeal.TakeK
open Idealize.ShloMosaic Idealize.ShloMosaic.TcCoe Idealize.ShloMosaic.StableHlo

variable {F : FTy → Type} [FloatOps F]

noncomputable def wl3 : List (Ref sig .tc) :=
  [main_call2_c, main_call2_v0, main_call2_v1, main_call2_c_0, main_call2_v2, main_call2_v3, main_call2_v4, main_call2_v5,
   main_call2_c_1, main_call2_c_2, main_call2_v6, main_call2_v7, main_call2_v8, main_call2_v9, main_call2_v10, main_call2_v11,
   main_call2_c_3, main_call2_v12, main_call2_v13, main_call2_v14, main_call2_cst, main_call2_v15, main_v32]

theorem writes3 : (hostOps3 (F := F)).Forall fun op => op.writes ⊆ (wl3.map (Proc.devRef (τ := τ) .tc)).toFinset := by writes_listed

theorem keep3 (X : Valuation τ sig (Elt F)) (r : Ref sig .tc) (hr : r ∉ wl3) :
    after hostOps3 X (Proc.devRef .tc r) = X (Proc.devRef .tc r) :=
  after_of_writes_sub hostOps3 X writes3 hr

theorem toBuf_main_v32 (v : FVec F S400000x128 .f32) :
    ((TRef.of main_v32 : TRef sig ⟨S400000x128, .f32⟩).toBuf (Val := Elt F) v : FVec F S400000x128 .f32) = v := rfl

set_option maxHeartbeats 1000000 in
theorem read3_aux (X : Valuation τ sig (Elt F)) :
    after hostOps3 X (Proc.devRef .tc main_v32)
      = (TRef.of main_v32 : TRef sig ⟨S400000x128, .f32⟩).toBuf (Val := Elt F)
          (takeK (F := F) (X (Proc.devRef .tc main_v31)) (X (Proc.devRef .tc main_v1))) := by
  after_results_simp
  simp only [ofBuf_toBuf]
  refine congrArg (TRef.toBuf (Val := Elt F) (TRef.of main_v32 : TRef sig ⟨S400000x128, .f32⟩)) ?_
  rfl

theorem read3 (X : Valuation τ sig (Elt F)) :
    after hostOps3 X (Proc.devRef .tc main_v32) = takeK (F := F) (X (Proc.devRef .tc main_v31)) (X (Proc.devRef .tc main_v1)) :=
  (read3_aux X).trans (toBuf_main_v32 _)

noncomputable def wl3_1 : List (Ref sig .tc) :=
  [main_call3_c, main_call3_v0, main_call3_v1, main_call3_c_0, main_call3_v2, main_call3_v3, main_call3_v4, main_call3_v5,
   main_call3_c_1, main_call3_c_2, main_call3_v6, main_call3_v7, main_call3_v8, main_call3_v9, main_call3_v10, main_call3_v11,
   main_call3_c_3, main_call3_v12, main_call3_v13, main_call3_v14, main_call3_cst, main_call3_v15, main_v33]

theorem writes3_1 : (hostOps3_1 (F := F)).Forall fun op => op.writes ⊆ (wl3_1.map (Proc.devRef (τ := τ) .tc)).toFinset := by writes_listed

theorem keep3_1 (X : Valuation τ sig (Elt F)) (r : Ref sig .tc) (hr : r ∉ wl3_1) :
    after hostOps3_1 X (Proc.devRef .tc r) = X (Proc.devRef .tc r) :=
  after_of_writes_sub hostOps3_1 X writes3_1 hr

theorem toBuf_main_v33 (v : FVec F S400000x128 .f32) :
    ((TRef.of main_v33 : TRef sig ⟨S400000x128, .f32⟩).toBuf (Val := Elt F) v : FVec F S400000x128 .f32) = v := rfl

set_option maxHeartbeats 1000000 in
theorem read3_1_aux (X : Valuation τ sig (Elt F)) :
    after hostOps3_1 X (Proc.devRef .tc main_v33)
      = (TRef.of main_v33 : TRef sig ⟨S400000x128, .f32⟩).toBuf (Val := Elt F)
          (takeK (F := F) (X (Proc.devRef .tc main_v31)) (X (Proc.devRef .tc main_v3))) := by
  after_results_simp
  simp only [ofBuf_toBuf]
  refine congrArg (TRef.toBuf (Val := Elt F) (TRef.of main_v33 : TRef sig ⟨S400000x128, .f32⟩)) ?_
  rfl

theorem read3_1 (X : Valuation τ sig (Elt F)) :
    after hostOps3_1 X (Proc.devRef .tc main_v33) = takeK (F := F) (X (Proc.devRef .tc main_v31)) (X (Proc.devRef .tc main_v3)) :=
  (read3_1_aux X).trans (toBuf_main_v33 _)

noncomputable def wl3_2 : List (Ref sig .tc) :=
  [main_v34, main_v35, main_v36, main_v37, main_v38, main_v39, main_v40, main_v41]

theorem writes3_2 : (hostOps3_2 (F := F)).Forall fun op => op.writes ⊆ (wl3_2.map (Proc.devRef (τ := τ) .tc)).toFinset := by writes_listed

theorem keep3_2 (X : Valuation τ sig (Elt F)) (r : Ref sig .tc) (hr : r ∉ wl3_2) :
    after hostOps3_2 X (Proc.devRef .tc r) = X (Proc.devRef .tc r) :=
  after_of_writes_sub hostOps3_2 X writes3_2 hr

theorem read3_2_W1 (X : Valuation τ sig (Elt F)) :
    (after hostOps3_2 X (Proc.devRef .tc main_v35) : FVec F S272x128 .bf16)
      = shapeCast S272x128 (extractStridedSlice S1x272x128 ![1, 0, 0] (X (Proc.devRef .tc main_v5) : FVec F S3x272x128 .bf16) slices_S3x272x128_S1x272x128_1_0_0) shapeCasts_S1x272x128_S272x128 := by
  after_results
  all_goals rfl

theorem read3_2_b1 (X : Valuation τ sig (Elt F)) :
    (after hostOps3_2 X (Proc.devRef .tc main_v37) : FVec F S128 .f32)
      = shapeCast S128 (extractStridedSlice S1x128 ![1, 0] (X (Proc.devRef .tc main_arg6) : FVec F S3x128 .f32) slices_S3x128_S1x128_1_0) shapeCasts_S1x128_S128 := by
  after_results
  all_goals rfl

theorem read3_2_W2 (X : Valuation τ sig (Elt F)) :
    (after hostOps3_2 X (Proc.devRef .tc main_v39) : FVec F S128x128 .bf16)
      = shapeCast S128x128 (extractStridedSlice S1x128x128 ![1, 0, 0] (X (Proc.devRef .tc main_v6) : FVec F S3x128x128 .bf16) slices_S3x128x128_S1x128x128_1_0_0) shapeCasts_S1x128x128_S128x128 := by
  after_results
  all_goals rfl

theorem read3_2_b2 (X : Valuation τ sig (Elt F)) :
    (after hostOps3_2 X (Proc.devRef .tc main_v41) : FVec F S128 .f32)
      = shapeCast S128 (extractStridedSlice S1x128 ![1, 0] (X (Proc.devRef .tc main_arg8) : FVec F S3x128 .f32) slices_S3x128_S1x128_1_0) shapeCasts_S1x128_S128 := by
  after_results
  all_goals rfl

noncomputable def wl4 : List (Ref sig .tc) :=
  [main_cst_0, main_v43, main_v44, main_v45, main_v46, main_v47, main_v48, main_v49,
   main_v50, main_v51, main_v52, main_v53]

theorem writes4 : (hostOps4 (F := F)).Forall fun op => op.writes ⊆ (wl4.map (Proc.devRef (τ := τ) .tc)).toFinset := by writes_listed

theorem keep4 (X : Valuation τ sig (Elt F)) (r : Ref sig .tc) (hr : r ∉ wl4) :
    after hostOps4 X (Proc.devRef .tc r) = X (Proc.devRef .tc r) :=
  after_of_writes_sub hostOps4 X writes4 hr

theorem read4_agg (X : Valuation τ sig (Elt F)) :
    (after hostOps4 X (Proc.devRef .tc main_v45) : FVec F S50000x128 .f32)
      = Host.scatterAdd scatter_S50000x128_S400000x1_S400000x128_1_0_0_1
          (broadcastInDim S50000x128 ![] bcast_S_S50000x128 (constant (F := F) S_ .f32 0x00000000#32))
          (broadcastInDim S400000x1 ![0] bcast_S400000_S400000x1_0 (X (Proc.devRef .tc main_v1) : IVec S400000 32))
          (X (Proc.devRef .tc main_v42) : FVec F S400000x128 .f32) := by
  after_results
  all_goals rfl

theorem read4_U (X : Valuation τ sig (Elt F)) :
    (after hostOps4 X (Proc.devRef .tc main_v47) : FVec F S256x128 .bf16)
      = shapeCast S256x128 (extractStridedSlice S1x256x128 ![1, 0, 0] (X (Proc.devRef .tc main_v7) : FVec F S3x256x128 .bf16) slices_S3x256x128_S1x256x128_1_0_0) shapeCasts_S1x256x128_S256x128 := by
  after_results
  all_goals rfl

theorem read4_ub (X : Valuation τ sig (Elt F)) :
    (after hostOps4 X (Proc.devRef .tc main_v49) : FVec F S128 .f32)
      = shapeCast S128 (extractStridedSlice S1x128 ![1, 0] (X (Proc.devRef .tc main_arg10) : FVec F S3x128 .f32) slices_S3x128_S1x128_1_0) shapeCasts_S1x128_S128 := by
  after_results
  all_goals rfl

theorem read4_g (X : Valuation τ sig (Elt F)) :
    (after hostOps4 X (Proc.devRef .tc main_v51) : FVec F S128 .f32)
      = shapeCast S128 (extractStridedSlice S1x128 ![1, 0] (X (Proc.devRef .tc main_arg11) : FVec F S3x128 .f32) slices_S3x128_S1x128_1_0) shapeCasts_S1x128_S128 := by
  after_results
  all_goals rfl

theorem read4_beta (X : Valuation τ sig (Elt F)) :
    (after hostOps4 X (Proc.devRef .tc main_v53) : FVec F S128 .f32)
      = shapeCast S128 (extractStridedSlice S1x128 ![1, 0] (X (Proc.devRef .tc main_arg12) : FVec F S3x128 .f32) slices_S3x128_S1x128_1_0) shapeCasts_S1x128_S128 := by
  after_results
  all_goals rfl

end Cert.KernelIdeal.ChainK

end
-- ==== Proof.ChainK2.lean ====
import proofs.«404470_j89532888252999_1_alg».proof.Proof.ChainK0

set_option maxRecDepth 16384

noncomputable section

namespace Cert.KernelIdeal.ChainK

open Cert.KernelIdeal Cert.KernelIdeal.Gen Cert.KernelIdeal.TakeK
open Idealize.ShloMosaic Idealize.ShloMosaic.TcCoe Idealize.ShloMosaic.StableHlo

variable {F : FTy → Type} [FloatOps F]

noncomputable def wl5 : List (Ref sig .tc) :=
  [main_call4_c, main_call4_v0, main_call4_v1, main_call4_c_0, main_call4_v2, main_call4_v3, main_call4_v4, main_call4_v5,
   main_call4_c_1, main_call4_c_2, main_call4_v6, main_call4_v7, main_call4_v8, main_call4_v9, main_call4_v10, main_call4_v11,
   main_call4_c_3, main_call4_v12, main_call4_v13, main_call4_v14, main_call4_cst, main_call4_v15, main_v55]

theorem writes5 : (hostOps5 (F := F)).Forall fun op => op.writes ⊆ (wl5.map (Proc.devRef (τ := τ) .tc)).toFinset := by writes_listed

theorem keep5 (X : Valuation τ sig (Elt F)) (r : Ref sig .tc) (hr : r ∉ wl5) :
    after hostOps5 X (Proc.devRef .tc r) = X (Proc.devRef .tc r) :=
  after_of_writes_sub hostOps5 X writes5 hr

theorem toBuf_main_v55 (v : FVec F S400000x128 .f32) :
    ((TRef.of main_v55 : TRef sig ⟨S400000x128, .f32⟩).toBuf (Val := Elt F) v : FVec F S400000x128 .f32) = v := rfl

set_option maxHeartbeats 1000000 in
theorem read5_aux (X : Valuation τ sig (Elt F)) :
    after hostOps5 X (Proc.devRef .tc main_v55)
      = (TRef.of main_v55 : TRef sig ⟨S400000x128, .f32⟩).toBuf (Val := Elt F)
          (takeK (F := F) (X (Proc.devRef .tc main_v54)) (X (Proc.devRef .tc main_v1))) := by
  after_results_simp
  simp only [ofBuf_toBuf]
  refine congrArg (TRef.toBuf (Val := Elt F) (TRef.of main_v55 : TRef sig ⟨S400000x128, .f32⟩)) ?_
  rfl

theorem read5 (X : Valuation τ sig (Elt F)) :
    after hostOps5 X (Proc.devRef .tc main_v55) = takeK (F := F) (X (Proc.devRef .tc main_v54)) (X (Proc.devRef .tc main_v1)) :=
  (read5_aux X).trans (toBuf_main_v55 _)

noncomputable def wl5_1 : List (Ref sig .tc) :=
  [main_call5_c, main_call5_v0, main_call5_v1, main_call5_c_0, main_call5_v2, main_call5_v3, main_call5_v4, main_call5_v5,
   main_call5_c_1, main_call5_c_2, main_call5_v6, main_call5_v7, main_call5_v8, main_call5_v9, main_call5_v10, main_call5_v11,
   main_call5_c_3, main_call5_v12, main_call5_v13, main_call5_v14, main_call5_cst, main_call5_v15, main_v56]

theorem writes5_1 : (hostOps5_1 (F := F)).Forall fun op => op.writes ⊆ (wl5_1.map (Proc.devRef (τ := τ) .tc)).toFinset := by writes_listed

theorem keep5_1 (X : Valuation τ sig (Elt F)) (r : Ref sig .tc) (hr : r ∉ wl5_1) :
    after hostOps5_1 X (Proc.devRef .tc r) = X (Proc.devRef .tc r) :=
  after_of_writes_sub hostOps5_1 X writes5_1 hr

theorem toBuf_main_v56 (v : FVec F S400000x128 .f32) :
    ((TRef.of main_v56 : TRef sig ⟨S400000x128, .f32⟩).toBuf (Val := Elt F) v : FVec F S400000x128 .f32) = v := rfl

set_option maxHeartbeats 1000000 in
theorem read5_1_aux (X : Valuation τ sig (Elt F)) :
    after hostOps5_1 X (Proc.devRef .tc main_v56)
      = (TRef.of main_v56 : TRef sig ⟨S400000x128, .f32⟩).toBuf (Val := Elt F)
          (takeK (F := F) (X (Proc.devRef .tc main_v54)) (X (Proc.devRef .tc main_v3))) := by
  after_results_simp
  simp only [ofBuf_toBuf]
  refine congrArg (TRef.toBuf (Val := Elt F) (TRef.of main_v56 : TRef sig ⟨S400000x128, .f32⟩)) ?_
  rfl

theorem read5_1 (X : Valuation τ sig (Elt F)) :
    after hostOps5_1 X (Proc.devRef .tc main_v56) = takeK (F := F) (X (Proc.devRef .tc main_v54)) (X (Proc.devRef .tc main_v3)) :=
  (read5_1_aux X).trans (toBuf_main_v56 _)

noncomputable def wl5_2 : List (Ref sig .tc) :=
  [main_v57, main_v58, main_v59, main_v60, main_v61, main_v62, main_v63, main_v64]

theorem writes5_2 : (hostOps5_2 (F := F)).Forall fun op => op.writes ⊆ (wl5_2.map (Proc.devRef (τ := τ) .tc)).toFinset := by writes_listed

theorem keep5_2 (X : Valuation τ sig (Elt F)) (r : Ref sig .tc) (hr : r ∉ wl5_2) :
    after hostOps5_2 X (Proc.devRef .tc r) = X (Proc.devRef .tc r) :=
  after_of_writes_sub hostOps5_2 X writes5_2 hr

theorem read5_2_W1 (X : Valuation τ sig (Elt F)) :
    (after hostOps5_2 X (Proc.devRef .tc main_v58) : FVec F S272x128 .bf16)
      = shapeCast S272x128 (extractStridedSlice S1x272x128 ![2, 0, 0] (X (Proc.devRef .tc main_v5) : FVec F S3x272x128 .bf16) slices_S3x272x128_S1x272x128_2_0_0) shapeCasts_S1x272x128_S272x128 := by
  after_results
  all_goals rfl

theorem read5_2_b1 (X : Valuation τ sig (Elt F)) :
    (after hostOps5_2 X (Proc.devRef .tc main_v60) : FVec F S128 .f32)
      = shapeCast S128 (extractStridedSlice S1x128 ![2, 0] (X (Proc.devRef .tc main_arg6) : FVec F S3x128 .f32) slices_S3x128_S1x128_2_0) shapeCasts_S1x128_S128 := by
  after_results
  all_goals rfl

theorem read5_2_W2 (X : Valuation τ sig (Elt F)) :
    (after hostOps5_2 X (Proc.devRef .tc main_v62) : FVec F S128x128 .bf16)
      = shapeCast S128x128 (extractStridedSlice S1x128x128 ![2, 0, 0] (X (Proc.devRef .tc main_v6) : FVec F S3x128x128 .bf16) slices_S3x128x128_S1x128x128_2_0_0) shapeCasts_S1x128x128_S128x128 := by
  after_results
  all_goals rfl

theorem read5_2_b2 (X : Valuation τ sig (Elt F)) :
    (after hostOps5_2 X (Proc.devRef .tc main_v64) : FVec F S128 .f32)
      = shapeCast S128 (extractStridedSlice S1x128 ![2, 0] (X (Proc.devRef .tc main_arg8) : FVec F S3x128 .f32) slices_S3x128_S1x128_2_0) shapeCasts_S1x128_S128 := by
  after_results
  all_goals rfl

noncomputable def wl6 : List (Ref sig .tc) :=
  [main_cst_1, main_v66, main_v67, main_v68, main_v69, main_v70, main_v71, main_v72,
   main_v73, main_v74, main_v75, main_v76]

theorem writes6 : (hostOps6 (F := F)).Forall fun op => op.writes ⊆ (wl6.map (Proc.devRef (τ := τ) .tc)).toFinset := by writes_listed

theorem keep6 (X : Valuation τ sig (Elt F)) (r : Ref sig .tc) (hr : r ∉ wl6) :
    after hostOps6 X (Proc.devRef .tc r) = X (Proc.devRef .tc r) :=
  after_of_writes_sub hostOps6 X writes6 hr

theorem read6_agg (X : Valuation τ sig (Elt F)) :
    (after hostOps6 X (Proc.devRef .tc main_v68) : FVec F S50000x128 .f32)
      = Host.scatterAdd scatter_S50000x128_S400000x1_S400000x128_1_0_0_1
          (broadcastInDim S50000x128 ![] bcast_S_S50000x128 (constant (F := F) S_ .f32 0x00000000#32))
          (broadcastInDim S400000x1 ![0] bcast_S400000_S400000x1_0 (X (Proc.devRef .tc main_v1) : IVec S400000 32))
          (X (Proc.devRef .tc main_v65) : FVec F S400000x128 .f32) := by
  after_results
  all_goals rfl

theorem read6_U (X : Valuation τ sig (Elt F)) :
    (after hostOps6 X (Proc.devRef .tc main_v70) : FVec F S256x128 .bf16)
      = shapeCast S256x128 (extractStridedSlice S1x256x128 ![2, 0, 0] (X (Proc.devRef .tc main_v7) : FVec F S3x256x128 .bf16) slices_S3x256x128_S1x256x128_2_0_0) shapeCasts_S1x256x128_S256x128 := by
  after_results
  all_goals rfl

theorem read6_ub (X : Valuation τ sig (Elt F)) :
    (after hostOps6 X (Proc.devRef .tc main_v72) : FVec F S128 .f32)
      = shapeCast S128 (extractStridedSlice S1x128 ![2, 0] (X (Proc.devRef .tc main_arg10) : FVec F S3x128 .f32) slices_S3x128_S1x128_2_0) shapeCasts_S1x128_S128 := by
  after_results
  all_goals rfl

theorem read6_g (X : Valuation τ sig (Elt F)) :
    (after hostOps6 X (Proc.devRef .tc main_v74) : FVec F S128 .f32)
      = shapeCast S128 (extractStridedSlice S1x128 ![2, 0] (X (Proc.devRef .tc main_arg11) : FVec F S3x128 .f32) slices_S3x128_S1x128_2_0) shapeCasts_S1x128_S128 := by
  after_results
  all_goals rfl

theorem read6_beta (X : Valuation τ sig (Elt F)) :
    (after hostOps6 X (Proc.devRef .tc main_v76) : FVec F S128 .f32)
      = shapeCast S128 (extractStridedSlice S1x128 ![2, 0] (X (Proc.devRef .tc main_arg12) : FVec F S3x128 .f32) slices_S3x128_S1x128_2_0) shapeCasts_S1x128_S128 := by
  after_results
  all_goals rfl

end Cert.KernelIdeal.ChainK

end
-- ==== Proof.LibPlain.lean ====
import Idealize.ShloMosaic.Lib.StackMember
import Idealize.ShloMosaic.Lib.Pipeline.Value
import Idealize.ShloMosaic.Lib.ValueLayout
import Idealize.ShloMosaic.PureOps.Ideal.Laws

noncomputable section

namespace Cert.Lib

open Idealize.ShloMosaic Idealize.ShloMosaic.ValueIdx
open scoped BigOperators

/-- The plain `[m,k]·[k,n]` product at `(a, b)`: the sum over the shared axis. -/
theorem dot_apply {m k n : Nat} {φ₁ φ₂ : FTy} (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    Host.dotGeneral (F := Ideal) (⟨[1], [0], [0], [1], [], [], w⟩ : DotDims _ _ _) none A B (ix2 a b)
      = ∑ c : Fin k, A (ix2 a c) * B (ix2 c b) :=
  StackMember.dotGeneral_plain_apply none A B a b

/-- A block product into the zero accumulator is the same contraction sum, so it reads alike. -/
theorem matmul_apply {m k n : Nat} {φ₁ φ₂ : FTy} (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    matmul (⟨[1], [0], [0], [1], [], [], w⟩ : DotDims _ _ _) none A B (constant (F := Ideal) ⟨2, ![m, n]⟩ .f32 0x00000000#32) (ix2 a b)
      = ∑ c : Fin k, A (ix2 a c) * B (ix2 c b) :=
  (Ideal.matmul_constant_zero_apply _ none A B (ix2 a b)).trans
    ((Ideal.dotGeneral_apply _ none _ A B (ix2 a b)).symm.trans (dot_apply w A B a b))

section Layout
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

section Sums
variable {φ : FTy}

theorem laneSum_apply {a b : ℕ} (x : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ x acc h hφ hacc (ix1 p) = ∑ k : Fin b, x (ix2 p k) := by
  refine (Ideal.multiReduction_add_single x acc h hφ hacc (ix1 p)).trans ?_
  refine Finset.sum_congr rfl fun k _ => congrArg x ?_
  funext c
  match c with
  | ⟨0, _⟩ => exact Fin.ext rfl
  | ⟨1, _⟩ => exact Fin.ext rfl

theorem rowSum_apply {a b : ℕ} (x : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ x acc h hφ hacc (ix1 q) = ∑ p : Fin a, x (ix2 p q) := by
  refine (Ideal.multiReduction_add_single x acc h hφ hacc (ix1 q)).trans ?_
  refine Finset.sum_congr rfl fun k _ => congrArg x ?_
  funext c
  match c with
  | ⟨0, _⟩ => exact Fin.ext rfl
  | ⟨1, _⟩ => exact Fin.ext rfl

end Sums

end Cert.Lib

end
-- ==== Proof.Reg0.lean ====
import proofs.«404470_j89532888252999_1_alg».proof.Proof.Gen.KernelIdeal.Frame
import proofs.«404470_j89532888252999_1_alg».proof.Proof.Spec
import proofs.«404470_j89532888252999_1_alg».proof.Proof.LibPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

theorem pay_apply (x0 : Vec Ideal S5000x128 .f32) (x1 : Vec Ideal S128x128 .bf16) (x2 : Vec Ideal S128 .f32)
    (p : Fin 5000) (q : Fin 128) :
    k0_pay1 x0 x1 x2 (ix2 p q) = (∑ k : Fin 128, x0 (ix2 p k) * x1 (ix2 k q)) + x2 (ix1 q) := by
  unfold k0_pay1
  refine congrArg₂ (· + ·) ((Cert.Lib.matmul_apply _ _ _ p q).trans ?_) ?_
  · refine Finset.sum_congr rfl fun k _ => congrArg₂ (· * ·) rfl ?_
    rw [shapeCast_self]
  · refine (broadcastTo_1b_ab_apply _ _ p q).trans ?_
    exact shapeCast_a_1a_apply x2 _ 0 q

variable (V : (c : Dev nD) → (b : Ref sig .tc) → Buf (Elt Ideal) ((c : Thread nD τ).loc b))

abbrev xA (c : Dev nD) : Cert.Spec.M 50000 128 := V c (Pipeline.arrRef spec0 0)

abbrev wA (c : Dev nD) : Cert.Spec.M 128 128 := V c (Pipeline.arrRef spec0 1)

abbrev bA (c : Dev nD) : Cert.Spec.Vc 128 := V c (Pipeline.arrRef spec0 2)

abbrev projA (c : Dev nD) : Cert.Spec.M 50000 128 := Cert.Spec.mk2 (Cert.Spec.projS (xA V c) (wA V c) (bA V c))

theorem hz : (![0, 0] : Fin 2 → Nat) = fun _ => 0 := funext fun a => by fin_cases a <;> rfl
theorem hz1 : (![0] : Fin 1 → Nat) = fun _ => 0 := funext fun a => by fin_cases a <;> rfl

theorem idx_facts : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = 0 ∧ win0_1.index t (1 : Fin 2) = 0
    ∧ win0_2.index t (0 : Fin 1) = 0
    ∧ win0_3.index t (0 : Fin 2) ≤ 9 :=
  (by decide +kernel : ∀ t : Fin grid0.N, _)

theorem idx_onto : ∀ q0 : Fin 10, ∃ t : Fin cfg0.N, win0_3.index t = ![q0.val, 0] :=
  (by decide +kernel : ∀ q0 : Fin 10, ∃ t : Fin grid0.N, win0_3.index t = ![q0.val, 0])

abbrev row0 (t : Fin cfg0.N) : Nat := win0_3.index t (0 : Fin 2) * 5000

theorem row0_lt (t : Fin cfg0.N) (p : Fin 5000) : row0 t + p.val < 50000 := by
  obtain ⟨-, -, -, -, -, -, h⟩ := idx_facts t
  have := p.isLt
  show win0_3.index t (0 : Fin 2) * 5000 + p.val < 50000
  omega

theorem xblk_apply (c : Dev nD) (t : Fin cfg0.N) (p : Fin 5000) (k : Fin 128) :
    (iblk0 V c 0 t : Vec Ideal S5000x128 .f32) (ix2 p k) = xA V c (ix2 ⟨row0 t + p.val, row0_lt t p⟩ k) := by
  obtain ⟨e0, e1, -, -, -, -, -⟩ := idx_facts t
  show xA V c (((cfg0.win 0).blk t).view.emb (ix2 p k)) = _
  refine congrArg (xA V c) (Shape.idx_ext₂ ?_ ?_)
  · show win0_0.index t (0 : Fin 2) * 5000 + 1 * p.val = win0_3.index t (0 : Fin 2) * 5000 + p.val
    omega
  · show win0_0.index t (1 : Fin 2) * 128 + 1 * k.val = k.val
    omega

theorem wblk_apply (c : Dev nD) (t : Fin cfg0.N) (k q : Fin 128) :
    (iblk0 V c 1 t : Vec Ideal S128x128 .bf16) (ix2 k q) = wA V c (ix2 k q) := by
  obtain ⟨-, -, -, e3, e4, -, -⟩ := idx_facts t
  show wA V c (((cfg0.win 1).blk t).view.emb (ix2 k q)) = _
  refine congrArg (wA V c) (Shape.idx_ext₂ ?_ ?_)
  · show win0_1.index t (0 : Fin 2) * 128 + 1 * k.val = k.val
    omega
  · show win0_1.index t (1 : Fin 2) * 128 + 1 * q.val = q.val
    omega

theorem bblk_apply (c : Dev nD) (t : Fin cfg0.N) (q : Fin 128) :
    (iblk0 V c 2 t : Vec Ideal S128 .f32) (ix1 q) = bA V c (ix1 q) := by
  obtain ⟨-, -, -, -, -, e5, -⟩ := idx_facts t
  show bA V c (((cfg0.win 2).blk t).view.emb (ix1 q)) = _
  refine congrArg (bA V c) (funext fun a => Fin.ext ?_)
  match a with
  | ⟨0, _⟩ =>
    show win0_2.index t (0 : Fin 1) * 128 + 1 * q.val = q.val
    omega

theorem out_emb (t : Fin cfg0.N) (p : Fin 5000) (q : Fin 128) :
    (((cfg0.win 3).blk t).view.emb (ix2 p q) : S50000x128.Idx) = ix2 ⟨row0 t + p.val, row0_lt t p⟩ q := by
  obtain ⟨-, -, e2, -, -, -, -⟩ := idx_facts t
  refine Shape.idx_ext₂ ?_ ?_
  · show win0_3.index t (0 : Fin 2) * 5000 + 1 * p.val = win0_3.index t (0 : Fin 2) * 5000 + p.val
    omega
  · show win0_3.index t (1 : Fin 2) * 128 + 1 * q.val = q.val
    omega

theorem flushed_eq (c : Dev nD) (t : Fin cfg0.N) :
    (dat0 (F := Ideal) V c).flushed 3 t = ((cfg0.win 3).blk t).view.read (Elt Ideal) (projA V c) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S128) hz1]
  refine Cert.Spec.ext2 (a := 5000) (b := 128) fun p q => ?_
  show k0_pay1 (iblk0 V c 0 t) (iblk0 V c 1 t) (iblk0 V c 2 t) (ix2 p q) = projA V c (((cfg0.win 3).blk t).view.emb (ix2 p q))
  refine (pay_apply _ _ _ p q).trans ?_
  refine Eq.trans ?_ (congrArg (projA V c) (out_emb t p q)).symm
  show _ = Cert.Spec.projS (xA V c) (wA V c) (bA V c) ⟨row0 t + p.val, row0_lt t p⟩ q
  exact congrArg₂ (· + ·)
    (Finset.sum_congr rfl fun k _ => congrArg₂ (· * ·) (xblk_apply V c t p k) (wblk_apply V c t k q))
    (bblk_apply V c t q)

theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v8).slice (win0_3.rect t)).set ↔ _
  rw [View.set_slice_whole, Rect.mem_set_unit]
  exact Iff.rfl

theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

theorem value (c : Dev nD) :
    ((dat0 (F := Ideal) V c).arrAt 3 cfg0.N : Cert.Spec.M 50000 128) = Cert.Spec.mk2 (Cert.Spec.projS (xA V c) (wA V c) (bA V c)) :=
  (dat0 V c).arrAt_eq_of_cover 3 (projA V c) (fun t _ => flushed_eq V c t) cover

end Cert.KernelIdeal.Reg0

end
-- ==== Proof.MsgPay.lean ====
import proofs.«404470_j89532888252999_1_alg».proof.Proof.Gen.KernelIdeal.Skeleton
import proofs.«404470_j89532888252999_1_alg».proof.Proof.LibPlain
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Msg

open Cert.KernelIdeal Cert.KernelIdeal.Gen
open Idealize.ShloMosaic Idealize.ShloMosaic.ValueIdx
open scoped BigOperators

def preBlk (x0 x1 : FVec Ideal S4000x128 .f32) (x2 : FVec Ideal S4000x16 .f32) (x3 : FVec Ideal S272x128 .bf16)
    (x4 : FVec Ideal S128 .f32) (p : Fin 4000) (k : Fin 128) : EReal :=
  (((∑ a : Fin 128, x0 (ix2 p a) * x3 (ix2 (⟨a.val, by omega⟩ : Fin 272) k))
    + (∑ a : Fin 128, x1 (ix2 p a) * x3 (ix2 (⟨128 + a.val, by omega⟩ : Fin 272) k)))
    + (∑ a : Fin 16, x2 (ix2 p a) * x3 (ix2 (⟨256 + a.val, by omega⟩ : Fin 272) k))) + x4 (ix1 k)

def msgBlk (x0 x1 : FVec Ideal S4000x128 .f32) (x2 : FVec Ideal S4000x16 .f32) (x3 : FVec Ideal S272x128 .bf16)
    (x4 : FVec Ideal S128 .f32) (x5 : FVec Ideal S128x128 .bf16) (x6 : FVec Ideal S128 .f32) (p : Fin 4000) (q : Fin 128) : EReal :=
  max ((∑ k : Fin 128, max (preBlk x0 x1 x2 x3 x4 p k) (Ideal.ofBits .f32 0x00000000#32) * x5 (ix2 k q)) + x6 (ix1 q))
    (Ideal.ofBits .f32 0x00000000#32)

theorem biasRow_apply (b : FVec Ideal S128 .f32) (h0 : S128.ShapeCasts S128) (h1 : S128.ShapeCasts S1x128)
    (h2 : S1x128.Broadcasts S4000x128) (p : Fin 4000) (q : Fin 128) :
    broadcastTo S4000x128 (shapeCast S1x128 (shapeCast S128 b h0) h1) h2 (ix2 p q) = b (ix1 q) := by
  refine (broadcastTo_1b_ab_apply _ h2 p q).trans ?_
  refine (shapeCast_a_1a_apply _ h1 0 q).trans ?_
  exact congrFun (shapeCast_self b h0) (ix1 q)

theorem pay_apply (x0 x1 : FVec Ideal S4000x128 .f32) (x2 : FVec Ideal S4000x16 .f32) (x3 : FVec Ideal S272x128 .bf16)
    (x4 : FVec Ideal S128 .f32) (x5 : FVec Ideal S128x128 .bf16) (x6 : FVec Ideal S128 .f32) (p : Fin 4000) (q : Fin 128) :
    k1_pay1 (F := Ideal) x0 x1 x2 x3 x4 x5 x6 (ix2 p q) = msgBlk x0 x1 x2 x3 x4 x5 x6 p q := by
  unfold k1_pay1 msgBlk
  refine congrArg₂ max ?_ rfl
  refine congrArg₂ (· + ·) ?_ (biasRow_apply x6 _ _ _ p q)
  refine (Cert.Lib.matmul_apply _ _ _ p q).trans ?_
  refine Finset.sum_congr rfl fun k _ => ?_
  refine congrArg₂ (· * ·) ?_ (congrFun (shapeCast_self x5 _) (ix2 k q))
  refine congrArg₂ max ?_ rfl
  unfold preBlk
  refine congrArg₂ (· + ·) ?_ (biasRow_apply x4 _ _ _ p k)
  refine congrArg₂ (· + ·) (congrArg₂ (· + ·) ?_ ?_) ?_
  · refine (Cert.Lib.matmul_apply _ _ _ p k).trans ?_
    refine Finset.sum_congr rfl fun a _ => ?_
    refine congrArg₂ (· * ·) (congrFun (shapeCast_self x0 _) (ix2 p a)) ?_
    refine (slice2_axis0_eq 0 _ _ a k).trans ?_
    refine (congrFun (shapeCast_self x3 _) _).trans ?_
    exact congrArg x3 (Shape.idx_ext₂ (Nat.zero_add _) rfl)
  · refine (Cert.Lib.matmul_apply _ _ _ p k).trans ?_
    refine Finset.sum_congr rfl fun a _ => ?_
    refine congrArg₂ (· * ·) (congrFun (shapeCast_self x1 _) (ix2 p a)) ?_
    refine (slice2_axis0_eq 128 _ _ a k).trans ?_
    exact congrFun (shapeCast_self x3 _) _
  · refine (Cert.Lib.matmul_apply _ _ _ p k).trans ?_
    refine Finset.sum_congr rfl fun a _ => ?_
    refine congrArg₂ (· * ·) rfl ?_
    refine (slice2_axis0_eq 256 _ _ a k).trans ?_
    exact congrFun (shapeCast_self x3 _) _

end Cert.KernelIdeal.Msg

end
-- ==== Proof.Reg1.lean ====
import proofs.«404470_j89532888252999_1_alg».proof.Proof.Gen.KernelIdeal.Frame
import proofs.«404470_j89532888252999_1_alg».proof.Proof.Spec
import proofs.«404470_j89532888252999_1_alg».proof.Proof.MsgPay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Cert.KernelIdeal Cert.KernelIdeal.Gen Cert.KernelIdeal.Msg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

abbrev hiA (c : Dev nD) : Cert.Spec.M 400000 128 := V c (Pipeline.arrRef spec1 0)

abbrev hjA (c : Dev nD) : Cert.Spec.M 400000 128 := V c (Pipeline.arrRef spec1 1)

abbrev eaA (c : Dev nD) : Cert.Spec.M 400000 16 := V c (Pipeline.arrRef spec1 2)

abbrev w1A (c : Dev nD) : Cert.Spec.M 272 128 := V c (Pipeline.arrRef spec1 3)

abbrev b1A (c : Dev nD) : Cert.Spec.Vc 128 := V c (Pipeline.arrRef spec1 4)

abbrev w2A (c : Dev nD) : Cert.Spec.M 128 128 := V c (Pipeline.arrRef spec1 5)

abbrev b2A (c : Dev nD) : Cert.Spec.Vc 128 := V c (Pipeline.arrRef spec1 6)

theorem hz : (![0, 0] : Fin 2 → Nat) = fun _ => 0 := funext fun a => by fin_cases a <;> rfl
theorem hzVec : (![0] : Fin 1 → Nat) = fun _ => 0 := funext fun a => by fin_cases a; rfl

theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

theorem hi_blk (c : Dev nD) (t : Fin cfg1.N) (p : Fin 4000) (a : Fin 128) (e : Fin 400000) (he : e.val = t.val * 4000 + p.val) :
    (iblk1 V c 0 t : FVec Ideal S4000x128 .f32) (ix2 p a) = hiA V c (ix2 e a) := by
  obtain ⟨e0, e1, -⟩ := idx_facts t
  unfold iblk1
  exact congrArg (V c (Pipeline.arrRef spec1 0)) (Shape.idx_ext₂ (show win1_0.index t (0 : Fin 2) * 4000 + 1 * p.val = e.val by omega) (show win1_0.index t (1 : Fin 2) * 128 + 1 * a.val = a.val by omega))

theorem hj_blk (c : Dev nD) (t : Fin cfg1.N) (p : Fin 4000) (a : Fin 128) (e : Fin 400000) (he : e.val = t.val * 4000 + p.val) :
    (iblk1 V c 1 t : FVec Ideal S4000x128 .f32) (ix2 p a) = hjA V c (ix2 e a) := by
  obtain ⟨-, -, e0, e1, -⟩ := idx_facts t
  unfold iblk1
  exact congrArg (V c (Pipeline.arrRef spec1 1)) (Shape.idx_ext₂ (show win1_1.index t (0 : Fin 2) * 4000 + 1 * p.val = e.val by omega) (show win1_1.index t (1 : Fin 2) * 128 + 1 * a.val = a.val by omega))

theorem ea_blk (c : Dev nD) (t : Fin cfg1.N) (p : Fin 4000) (a : Fin 16) (e : Fin 400000) (he : e.val = t.val * 4000 + p.val) :
    (iblk1 V c 2 t : FVec Ideal S4000x16 .f32) (ix2 p a) = eaA V c (ix2 e a) := by
  obtain ⟨-, -, -, -, e0, e1, -⟩ := idx_facts t
  unfold iblk1
  exact congrArg (V c (Pipeline.arrRef spec1 2)) (Shape.idx_ext₂ (show win1_2.index t (0 : Fin 2) * 4000 + 1 * p.val = e.val by omega) (show win1_2.index t (1 : Fin 2) * 16 + 1 * a.val = a.val by omega))

theorem w1_blk (c : Dev nD) (t : Fin cfg1.N) (r : Fin 272) (k : Fin 128) :
    (iblk1 V c 3 t : FVec Ideal S272x128 .bf16) (ix2 r k) = w1A V c (ix2 r k) := by
  obtain ⟨-, -, -, -, -, -, e0, e1, -⟩ := idx_facts t
  unfold iblk1
  exact congrArg (V c (Pipeline.arrRef spec1 3)) (Shape.idx_ext₂ (show win1_3.index t (0 : Fin 2) * 272 + 1 * r.val = r.val by omega) (show win1_3.index t (1 : Fin 2) * 128 + 1 * k.val = k.val by omega))

theorem b1_blk (c : Dev nD) (t : Fin cfg1.N) (k : Fin 128) :
    (iblk1 V c 4 t : FVec Ideal S128 .f32) (ix1 k) = b1A V c (ix1 k) := by
  obtain ⟨-, -, -, -, -, -, -, -, e0, -⟩ := idx_facts t
  unfold iblk1
  exact congrArg (V c (Pipeline.arrRef spec1 4)) (funext fun ax => Fin.ext (match ax with | ⟨0, _⟩ => (show win1_4.index t (0 : Fin 1) * 128 + 1 * k.val = k.val by omega)))

theorem w2_blk (c : Dev nD) (t : Fin cfg1.N) (r : Fin 128) (k : Fin 128) :
    (iblk1 V c 5 t : FVec Ideal S128x128 .bf16) (ix2 r k) = w2A V c (ix2 r k) := by
  obtain ⟨-, -, -, -, -, -, -, -, -, e0, e1, -⟩ := idx_facts t
  unfold iblk1
  exact congrArg (V c (Pipeline.arrRef spec1 5)) (Shape.idx_ext₂ (show win1_5.index t (0 : Fin 2) * 128 + 1 * r.val = r.val by omega) (show win1_5.index t (1 : Fin 2) * 128 + 1 * k.val = k.val by omega))

theorem b2_blk (c : Dev nD) (t : Fin cfg1.N) (k : Fin 128) :
    (iblk1 V c 6 t : FVec Ideal S128 .f32) (ix1 k) = b2A V c (ix1 k) := by
  obtain ⟨-, -, -, -, -, -, -, -, -, -, -, e0, -⟩ := idx_facts t
  unfold iblk1
  exact congrArg (V c (Pipeline.arrRef spec1 6)) (funext fun ax => Fin.ext (match ax with | ⟨0, _⟩ => (show win1_6.index t (0 : Fin 1) * 128 + 1 * k.val = k.val by omega)))

theorem block_msg (c : Dev nD) (t : Fin cfg1.N) (p : Fin 4000) (q : Fin 128) (e : Fin 400000) (he : e.val = t.val * 4000 + p.val) :
    k1_pay1 (F := Ideal) (iblk1 V c 0 t) (iblk1 V c 1 t) (iblk1 V c 2 t) (iblk1 V c 3 t) (iblk1 V c 4 t) (iblk1 V c 5 t) (iblk1 V c 6 t) (ix2 p q)
      = Cert.Spec.msgS (hiA V c) (hjA V c) (eaA V c) (w1A V c) (b1A V c) (w2A V c) (b2A V c) e q := by
  refine (pay_apply (iblk1 V c 0 t) (iblk1 V c 1 t) (iblk1 V c 2 t) (iblk1 V c 3 t) (iblk1 V c 4 t) (iblk1 V c 5 t) (iblk1 V c 6 t) p q).trans ?_
  unfold msgBlk Cert.Spec.msgS
  refine congrArg₂ max ?_ rfl
  refine congrArg₂ (· + ·) ?_ (b2_blk V c t q)
  refine Finset.sum_congr rfl fun k _ => ?_
  refine congrArg₂ (· * ·) (congrArg₂ max ?_ rfl) (w2_blk V c t k q)
  unfold preBlk Cert.Spec.msgPre
  refine congrArg₂ (· + ·) (congrArg₂ (· + ·) (congrArg₂ (· + ·) ?_ ?_) ?_) (b1_blk V c t k)
  · exact Finset.sum_congr rfl fun a _ => congrArg₂ (· * ·) (hi_blk V c t p a e he) (w1_blk V c t _ k)
  · exact Finset.sum_congr rfl fun a _ => congrArg₂ (· * ·) (hj_blk V c t p a e he) (w1_blk V c t _ k)
  · exact Finset.sum_congr rfl fun a _ => congrArg₂ (· * ·) (ea_blk V c t p a e he) (w1_blk V c t _ k)

abbrev G (c : Dev nD) : Cert.Spec.M 400000 128 :=
  Cert.Spec.mk2 (Cert.Spec.msgS (hiA V c) (hjA V c) (eaA V c) (w1A V c) (b1A V c) (w2A V c) (b2A V c))

theorem flushed_eq (c : Dev nD) (t : Fin cfg1.N) :
    (dat1 (F := Ideal) V c).flushed 7 t = ((cfg1.win 7).blk t).view.read (Elt Ideal) (G V c) := by
  show (cfg1.win 7).cut (grid1.coords t) ((dat1 (F := Ideal) V c).after 7 t) = _
  rw [after1_7]
  unfold out1_7
  rw [View.canon_unit_zero hz]
  simp only [View.ld_unit_zero (S := S4000x128) hz, View.ld_unit_zero (S := S4000x16) hz, View.ld_unit_zero (S := S272x128) hz,
    View.ld_unit_zero (S := S128x128) hz, View.ld_unit_zero (S := S128) hzVec]
  obtain ⟨-, -, -, -, -, -, -, -, -, -, -, -, e0, e1⟩ := idx_facts t
  have hN : cfg1.N = 100 := N_1
  have htN : t.val < 100 := hN ▸ t.isLt
  funext j
  have hp : (j 0).val < 4000 := (j 0).isLt
  have hq : (j 1).val < 128 := (j 1).isLt
  have hx : (cfg1.win 7).xinj (grid1.coords t) j = ix2 (⟨(j 0).val, hp⟩ : Fin 4000) (⟨(j 1).val, hq⟩ : Fin 128) :=
    funext fun ax => Fin.ext (match ax with | ⟨0, _⟩ => rfl | ⟨1, _⟩ => rfl)
  have hemb : ((cfg1.win 7).blk t).view.emb j
      = ix2 (⟨t.val * 4000 + (j 0).val, by omega⟩ : Fin 400000) (⟨(j 1).val, hq⟩ : Fin 128) := by
    funext ax
    apply Fin.ext
    match ax with
    | ⟨0, _⟩ => show win1_7.index t (0 : Fin 2) * 4000 + 1 * (j 0).val = t.val * 4000 + (j 0).val; rw [e0]; omega
    | ⟨1, _⟩ => show win1_7.index t (1 : Fin 2) * 128 + 1 * (j 1).val = (j 1).val; rw [e1]; omega
  refine (congrArg (k1_pay1 (F := Ideal) (iblk1 V c 0 t) (iblk1 V c 1 t) (iblk1 V c 2 t) (iblk1 V c 3 t) (iblk1 V c 4 t) (iblk1 V c 5 t) (iblk1 V c 6 t)) hx).trans ?_
  refine (block_msg V c t ⟨(j 0).val, hp⟩ ⟨(j 1).val, hq⟩ ⟨t.val * 4000 + (j 0).val, by omega⟩ rfl).trans ?_
  refine (Cert.Spec.mk2_ix2 _ _ _).symm.trans ?_
  exact (congrArg (G V c) hemb).symm

theorem mem_blk (t : Fin cfg1.N) (i : S400000x128.Idx) :
    i ∈ ((cfg1.win 7).blk t).view.set ↔ ∀ a : Fin 2, win1_7.index t a * S4000x128.size a ≤ (i a).val ∧ (i a).val < win1_7.index t a * S4000x128.size a + S4000x128.size a := by
  show i ∈ ((View.whole (Pipeline.arrRef spec1 7)).slice (win1_7.rect t)).set ↔ _
  rw [View.set_slice_whole, Rect.mem_set_unit]
  exact Iff.rfl

theorem cover (i : S400000x128.Idx) :
    ∃ t : Fin cfg1.N, (cfg1.win 7).flush t = true ∧ i ∈ ((cfg1.win 7).blk t).view.set := by
  have hi0 : (i 0).val < 400000 := (i 0).isLt
  have hi1 : (i 1).val < 128 := (i 1).isLt
  have hN : cfg1.N = 100 := N_1
  have ht : (i 0).val / 4000 < cfg1.N := by rw [hN]; omega
  obtain ⟨-, -, -, -, -, -, -, -, -, -, -, -, e0, e1⟩ := idx_facts ⟨(i 0).val / 4000, ht⟩
  refine ⟨⟨(i 0).val / 4000, ht⟩, flush1_7 _, ?_⟩
  rw [mem_blk]
  intro a
  match a with
  | ⟨0, _⟩ =>
    show win1_7.index ⟨(i 0).val / 4000, ht⟩ (0 : Fin 2) * 4000 ≤ (i 0).val ∧ (i 0).val < win1_7.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win1_7.index ⟨(i 0).val / 4000, ht⟩ (1 : Fin 2) * 128 ≤ (i 1).val ∧ (i 1).val < win1_7.index ⟨(i 0).val / 4000, ht⟩ (1 : Fin 2) * 128 + 128
    rw [e1]; omega

theorem value (c : Dev nD) :
    ((dat1 (F := Ideal) V c).arrAt 7 cfg1.N : Cert.Spec.M 400000 128)
      = Cert.Spec.mk2 (Cert.Spec.msgS (hiA V c) (hjA V c) (eaA V c) (w1A V c) (b1A V c) (w2A V c) (b2A V c)) :=
  (dat1 (F := Ideal) V c).arrAt_eq_of_cover 7 (G V c) (fun t _ => flushed_eq V c t) cover

end Cert.KernelIdeal.Reg1

end
-- ==== Proof.UpdPay.lean ====
import proofs.«404470_j89532888252999_1_alg».proof.Proof.Gen.KernelIdeal.Skeleton
import proofs.«404470_j89532888252999_1_alg».proof.Proof.Spec
import proofs.«404470_j89532888252999_1_alg».proof.Proof.LibPlain
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Upd

open Cert.KernelIdeal Cert.KernelIdeal.Gen Cert.Lib
open Idealize.ShloMosaic Idealize.ShloMosaic.TcCoe Idealize.ShloMosaic.ValueIdx
open scoped BigOperators

def rowBias (b : Vec Ideal S128 .f32) : FVec Ideal S5000x128 .f32 :=
  broadcastTo S5000x128 (shapeCast S1x128 (shapeCast S128 b shapeCasts_S128_S128) shapeCasts_S128_S1x128) broadcasts_S1x128_S5000x128

def band (o : Nat) (hs : S256x128.Slices ![o, 0] S128x128) (x : Vec Ideal S5000x128 .f32) (u : Vec Ideal S256x128 .bf16) :
    FVec Ideal S5000x128 .f32 :=
  matmul dot_S5000x128_S128x128_S5000x128_1_0_0_1_n_n none
    (truncf .bf16 (shapeCast S5000x128 x shapeCasts_S5000x128_S5000x128) bitsLt_bf16_f32)
    (extractStridedSlice S128x128 ![o, 0] (shapeCast S256x128 u shapeCasts_S256x128_S256x128 : FVec Ideal S256x128 .bf16) hs : FVec Ideal S128x128 .bf16)
    (constant S5000x128 .f32 0x00000000#32)

def meanCol (w : FVec Ideal S5000x128 .f32) : FVec Ideal S5000x1 .f32 :=
  divf (shapeCast S5000x1 (multiReduction .add [1] S5000 w 0x00000000#32 reduces_S5000x128_S5000 (.inl rfl) rfl) shapeCasts_S5000_S5000x1)
    (broadcast S5000x1 (Scalar.ofBits .f32 0x43000000#32))

def spread (col : FVec Ideal S5000x1 .f32) : FVec Ideal S5000x128 .f32 :=
  broadcastTo S5000x128 col broadcasts_S5000x1_S5000x128

def resid (x0 x1 : Vec Ideal S5000x128 .f32) (u : Vec Ideal S256x128 .bf16) (b : Vec Ideal S128 .f32) : FVec Ideal S5000x128 .f32 :=
  addf (maximumf (addf (addf (band 0 slices_S256x128_o0_0_S128x128 x0 u) (band 128 slices_S256x128_o128_0_S128x128 x1 u)) (rowBias b))
      (broadcast S5000x128 (Scalar.ofBits .f32 0x00000000#32)))
    (shapeCast S5000x128 x0 shapeCasts_S5000x128_S5000x128)

def centred (w : FVec Ideal S5000x128 .f32) : FVec Ideal S5000x128 .f32 := subf w (spread (meanCol w))

def normed (w : FVec Ideal S5000x128 .f32) : FVec Ideal S5000x128 .f32 :=
  mulf (centred w) (spread (rsqrt (addf (meanCol (mulf (centred w) (centred w))) (broadcast S5000x1 (Scalar.ofBits .f32 0x3727C5AC#32)))))

theorem payNorm_eq (x0 x1 : Vec Ideal S5000x128 .f32) (u : Vec Ideal S256x128 .bf16) (b : Vec Ideal S128 .f32) :
    k2_pay2 x0 x1 u b = normed (resid x0 x1 u b) := rfl
theorem payScale_eq (g : Vec Ideal S128 .f32) : k2_pay3 g = rowBias g := rfl
theorem payStore_eq (n s : FVec Ideal S5000x128 .f32) (b : Vec Ideal S128 .f32) : k2_pay1 n s b = addf (mulf n s) (rowBias b) := rfl

theorem rowBias_apply (b : FVec Ideal S128 .f32) (p : Fin 5000) (q : Fin 128) : rowBias b (ix2 p q) = b (ix1 q) := by
  unfold rowBias
  refine (broadcastTo_1b_ab_apply _ broadcasts_S1x128_S5000x128 p q).trans ?_
  refine (shapeCast_a_1a_apply _ shapeCasts_S128_S1x128 (0 : Fin 1) q).trans ?_
  rw [shapeCast_self]

theorem band_apply (o : Nat) (hs : S256x128.Slices ![o, 0] S128x128) (x : FVec Ideal S5000x128 .f32) (u : FVec Ideal S256x128 .bf16)
    (r : Fin 128 → Fin 256) (hr : ∀ a, (r a).val = o + a.val) (p : Fin 5000) (q : Fin 128) :
    band o hs x u (ix2 p q) = ∑ a : Fin 128, x (ix2 p a) * u (ix2 (r a) q) := by
  unfold band
  refine (Cert.Lib.matmul_apply _ _ _ p q).trans ?_
  refine Finset.sum_congr rfl fun a _ => ?_
  have e0 : (truncf .bf16 (shapeCast S5000x128 x shapeCasts_S5000x128_S5000x128) bitsLt_bf16_f32 : FVec Ideal S5000x128 .bf16) (ix2 p a) = x (ix2 p a) := by
    show shapeCast S5000x128 x shapeCasts_S5000x128_S5000x128 (ix2 p a) = x (ix2 p a)
    rw [shapeCast_self]
  have e1 : (extractStridedSlice S128x128 ![o, 0] (shapeCast S256x128 u shapeCasts_S256x128_S256x128 : FVec Ideal S256x128 .bf16) hs : FVec Ideal S128x128 .bf16) (ix2 a q)
      = u (ix2 (r a) q) := by
    refine (slice2_axis0_apply o _ hs a q (r a) (hr a)).trans ?_
    rw [shapeCast_self]
  rw [e0, e1]

theorem spread_apply (col : FVec Ideal S5000x1 .f32) (p : Fin 5000) (q : Fin 128) : spread col (ix2 p q) = col (ix2 p (0 : Fin 1)) :=
  broadcastTo_a1_ab_apply col broadcasts_S5000x1_S5000x128 p q

theorem meanCol_apply (w : FVec Ideal S5000x128 .f32) (p : Fin 5000) (u : Fin 1) :
    meanCol w (ix2 p u) = Ideal.div (∑ k : Fin 128, w (ix2 p k)) (Ideal.ofBits .f32 0x43000000#32) := by
  unfold meanCol
  show Ideal.div (shapeCast S5000x1 (multiReduction .add [1] S5000 w 0x00000000#32 reduces_S5000x128_S5000 (.inl rfl) rfl) shapeCasts_S5000_S5000x1 (ix2 p u)) (Ideal.ofBits .f32 0x43000000#32) = _
  refine congrArg (fun s => Ideal.div s (Ideal.ofBits .f32 0x43000000#32)) ?_
  refine (shapeCast_a_a1_apply _ shapeCasts_S5000_S5000x1 p u).trans ?_
  exact laneSum_apply w _ reduces_S5000x128_S5000 (.inl rfl) rfl p

def preB (x0 x1 : FVec Ideal S5000x128 .f32) (u : FVec Ideal S256x128 .bf16) (b : FVec Ideal S128 .f32) (p : Fin 5000) (k : Fin 128) : EReal :=
  max ((((∑ a : Fin 128, x0 (ix2 p a) * u (ix2 (⟨a.val, by omega⟩ : Fin 256) k))
    + (∑ a : Fin 128, x1 (ix2 p a) * u (ix2 (⟨128 + a.val, by omega⟩ : Fin 256) k)))) + b (ix1 k)) Cert.Spec.c0 + x0 (ix2 p k)

theorem resid_apply (x0 x1 : FVec Ideal S5000x128 .f32) (u : FVec Ideal S256x128 .bf16) (b : FVec Ideal S128 .f32) (p : Fin 5000) (k : Fin 128) :
    resid x0 x1 u b (ix2 p k) = preB x0 x1 u b p k := by
  unfold resid preB
  show max ((band 0 slices_S256x128_o0_0_S128x128 x0 u (ix2 p k) + band 128 slices_S256x128_o128_0_S128x128 x1 u (ix2 p k)) + rowBias b (ix2 p k))
      (Ideal.ofBits .f32 0x00000000#32) + shapeCast S5000x128 x0 shapeCasts_S5000x128_S5000x128 (ix2 p k) = _
  rw [band_apply 0 slices_S256x128_o0_0_S128x128 x0 u (fun a => ⟨a.val, by omega⟩) (fun a => (Nat.zero_add _).symm) p k,
    band_apply 128 slices_S256x128_o128_0_S128x128 x1 u (fun a => ⟨128 + a.val, by omega⟩) (fun a => rfl) p k,
    rowBias_apply, shapeCast_self]
  rfl

theorem centred_apply (w : FVec Ideal S5000x128 .f32) (p : Fin 5000) (q : Fin 128) :
    centred w (ix2 p q) = w (ix2 p q) - Cert.Spec.mean128 (fun k => w (ix2 p k)) := by
  unfold centred
  show w (ix2 p q) - spread (meanCol w) (ix2 p q) = _
  rw [spread_apply, meanCol_apply]
  rfl

theorem normed_apply (w : FVec Ideal S5000x128 .f32) (p : Fin 5000) (q : Fin 128) :
    normed w (ix2 p q) = (w (ix2 p q) - Cert.Spec.mean128 (fun k => w (ix2 p k)))
      * Ideal.rsqrt (Cert.Spec.mean128 (fun k => (w (ix2 p k) - Cert.Spec.mean128 (fun k => w (ix2 p k))) * (w (ix2 p k) - Cert.Spec.mean128 (fun k => w (ix2 p k)))) + Cert.Spec.ceps) := by
  unfold normed
  show centred w (ix2 p q) * spread (rsqrt (addf (meanCol (mulf (centred w) (centred w))) (broadcast S5000x1 (Scalar.ofBits .f32 0x3727C5AC#32)))) (ix2 p q) = _
  rw [spread_apply]
  show centred w (ix2 p q) * Ideal.rsqrt (meanCol (mulf (centred w) (centred w)) (ix2 p (0 : Fin 1)) + Ideal.ofBits .f32 0x3727C5AC#32) = _
  rw [meanCol_apply, centred_apply]
  have hsq : ∀ k : Fin 128, mulf (centred w) (centred w) (ix2 p k)
      = (w (ix2 p k) - Cert.Spec.mean128 (fun k => w (ix2 p k))) * (w (ix2 p k) - Cert.Spec.mean128 (fun k => w (ix2 p k))) := fun k => by
    show centred w (ix2 p k) * centred w (ix2 p k) = _
    rw [centred_apply]
  rw [Finset.sum_congr rfl fun k _ => hsq k]
  rfl

theorem pay_apply (x0 x1 : Vec Ideal S5000x128 .f32) (u : Vec Ideal S256x128 .bf16) (b g beta : Vec Ideal S128 .f32) (p : Fin 5000) (q : Fin 128) :
    k2_pay1 (k2_pay2 x0 x1 u b) (k2_pay3 g) beta (ix2 p q) = Cert.Spec.lnRow (fun k => preB x0 x1 u b p k) g beta q := by
  rw [payNorm_eq, payScale_eq, payStore_eq]
  show normed (resid x0 x1 u b) (ix2 p q) * rowBias g (ix2 p q) + rowBias beta (ix2 p q) = _
  rw [normed_apply, rowBias_apply, rowBias_apply]
  simp only [resid_apply]
  rfl

end Cert.KernelIdeal.Upd

end
-- ==== Proof.Reg2.lean ====
import proofs.«404470_j89532888252999_1_alg».proof.Proof.Gen.KernelIdeal.Frame
import proofs.«404470_j89532888252999_1_alg».proof.Proof.Spec
import proofs.«404470_j89532888252999_1_alg».proof.Proof.UpdPay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Upd
open Idealize.ShloMosaic.ValueIdx
open scoped BigOperators

variable (V : (c : Dev nD) → (b : Ref sig .tc) → Buf (Elt Ideal) ((c : Thread nD τ).loc b))

abbrev hA (c : Dev nD) : Cert.Spec.M 50000 128 := V c (Pipeline.arrRef spec2 0)

abbrev aggA (c : Dev nD) : Cert.Spec.M 50000 128 := V c (Pipeline.arrRef spec2 1)

abbrev uA (c : Dev nD) : Cert.Spec.M 256 128 := V c (Pipeline.arrRef spec2 2)

abbrev ubA (c : Dev nD) : Cert.Spec.Vc 128 := V c (Pipeline.arrRef spec2 3)

abbrev gA (c : Dev nD) : Cert.Spec.Vc 128 := V c (Pipeline.arrRef spec2 4)

abbrev betaA (c : Dev nD) : Cert.Spec.Vc 128 := V c (Pipeline.arrRef spec2 5)

abbrev updA (c : Dev nD) : Cert.Spec.M 50000 128 :=
  Cert.Spec.mk2 (Cert.Spec.updS (hA V c) (aggA V c) (uA V c) (ubA V c) (gA V c) (betaA V c))

theorem hz : (![0, 0] : Fin 2 → Nat) = fun _ => 0 := funext fun a => by fin_cases a <;> rfl
theorem hz1 : (![0] : Fin 1 → Nat) = fun _ => 0 := funext fun a => by fin_cases a <;> rfl

theorem idx_facts : ∀ t : Fin cfg2.N, win2_0.index t (0 : Fin 2) = win2_6.index t (0 : Fin 2)
    ∧ win2_0.index t (1 : Fin 2) = 0
    ∧ win2_1.index t (0 : Fin 2) = win2_6.index t (0 : Fin 2)
    ∧ win2_1.index t (1 : Fin 2) = 0
    ∧ win2_2.index t (0 : Fin 2) = 0 ∧ win2_2.index t (1 : Fin 2) = 0
    ∧ win2_3.index t (0 : Fin 1) = 0
    ∧ win2_4.index t (0 : Fin 1) = 0
    ∧ win2_5.index t (0 : Fin 1) = 0
    ∧ win2_6.index t (1 : Fin 2) = 0
    ∧ win2_6.index t (0 : Fin 2) ≤ 9 :=
  (by decide +kernel : ∀ t : Fin grid2.N, _)

theorem idx_onto : ∀ q0 : Fin 10, ∃ t : Fin cfg2.N, win2_6.index t = ![q0.val, 0] :=
  (by decide +kernel : ∀ q0 : Fin 10, ∃ t : Fin grid2.N, win2_6.index t = ![q0.val, 0])

abbrev rowBase (t : Fin cfg2.N) : Nat := win2_6.index t (0 : Fin 2) * 5000

theorem rowBase_lt (t : Fin cfg2.N) (p : Fin 5000) : rowBase t + p.val < 50000 := by
  obtain ⟨-, -, -, -, -, -, -, -, -, -, h⟩ := idx_facts t
  have := p.isLt
  show win2_6.index t (0 : Fin 2) * 5000 + p.val < 50000
  omega

theorem hblk_apply (c : Dev nD) (t : Fin cfg2.N) (p : Fin 5000) (k : Fin 128) :
    (iblk2 V c 0 t : Vec Ideal S5000x128 .f32) (ix2 p k) = hA V c (ix2 ⟨rowBase t + p.val, rowBase_lt t p⟩ k) := by
  obtain ⟨e0, e1, -, -, -, -, -, -, -, -, -⟩ := idx_facts t
  show hA V c (((cfg2.win 0).blk t).view.emb (ix2 p k)) = _
  refine congrArg (hA V c) (Shape.idx_ext₂ ?_ ?_)
  · show win2_0.index t (0 : Fin 2) * 5000 + 1 * p.val = win2_6.index t (0 : Fin 2) * 5000 + p.val
    omega
  · show win2_0.index t (1 : Fin 2) * 128 + 1 * k.val = k.val
    omega

theorem aggblk_apply (c : Dev nD) (t : Fin cfg2.N) (p : Fin 5000) (k : Fin 128) :
    (iblk2 V c 1 t : Vec Ideal S5000x128 .f32) (ix2 p k) = aggA V c (ix2 ⟨rowBase t + p.val, rowBase_lt t p⟩ k) := by
  obtain ⟨-, -, e0, e1, -, -, -, -, -, -, -⟩ := idx_facts t
  show aggA V c (((cfg2.win 1).blk t).view.emb (ix2 p k)) = _
  refine congrArg (aggA V c) (Shape.idx_ext₂ ?_ ?_)
  · show win2_1.index t (0 : Fin 2) * 5000 + 1 * p.val = win2_6.index t (0 : Fin 2) * 5000 + p.val
    omega
  · show win2_1.index t (1 : Fin 2) * 128 + 1 * k.val = k.val
    omega

theorem ublk_apply (c : Dev nD) (t : Fin cfg2.N) (r : Fin 256) (q : Fin 128) :
    (iblk2 V c 2 t : Vec Ideal S256x128 .bf16) (ix2 r q) = uA V c (ix2 r q) := by
  obtain ⟨-, -, -, -, e0, e1, -, -, -, -, -⟩ := idx_facts t
  show uA V c (((cfg2.win 2).blk t).view.emb (ix2 r q)) = _
  refine congrArg (uA V c) (Shape.idx_ext₂ ?_ ?_)
  · show win2_2.index t (0 : Fin 2) * 256 + 1 * r.val = r.val
    omega
  · show win2_2.index t (1 : Fin 2) * 128 + 1 * q.val = q.val
    omega

theorem ubblk_apply (c : Dev nD) (t : Fin cfg2.N) (q : Fin 128) :
    (iblk2 V c 3 t : Vec Ideal S128 .f32) (ix1 q) = ubA V c (ix1 q) := by
  obtain ⟨-, -, -, -, -, -, e0, -, -, -, -⟩ := idx_facts t
  show ubA V c (((cfg2.win 3).blk t).view.emb (ix1 q)) = _
  refine congrArg (ubA V c) (funext fun a => Fin.ext ?_)
  match a with
  | ⟨0, _⟩ =>
    show win2_3.index t (0 : Fin 1) * 128 + 1 * q.val = q.val
    omega

theorem gblk_apply (c : Dev nD) (t : Fin cfg2.N) (q : Fin 128) :
    (iblk2 V c 4 t : Vec Ideal S128 .f32) (ix1 q) = gA V c (ix1 q) := by
  obtain ⟨-, -, -, -, -, -, -, e0, -, -, -⟩ := idx_facts t
  show gA V c (((cfg2.win 4).blk t).view.emb (ix1 q)) = _
  refine congrArg (gA V c) (funext fun a => Fin.ext ?_)
  match a with
  | ⟨0, _⟩ =>
    show win2_4.index t (0 : Fin 1) * 128 + 1 * q.val = q.val
    omega

theorem betablk_apply (c : Dev nD) (t : Fin cfg2.N) (q : Fin 128) :
    (iblk2 V c 5 t : Vec Ideal S128 .f32) (ix1 q) = betaA V c (ix1 q) := by
  obtain ⟨-, -, -, -, -, -, -, -, e0, -, -⟩ := idx_facts t
  show betaA V c (((cfg2.win 5).blk t).view.emb (ix1 q)) = _
  refine congrArg (betaA V c) (funext fun a => Fin.ext ?_)
  match a with
  | ⟨0, _⟩ =>
    show win2_5.index t (0 : Fin 1) * 128 + 1 * q.val = q.val
    omega

theorem out_emb (t : Fin cfg2.N) (p : Fin 5000) (q : Fin 128) :
    (((cfg2.win 6).blk t).view.emb (ix2 p q) : S50000x128.Idx) = ix2 ⟨rowBase t + p.val, rowBase_lt t p⟩ q := by
  obtain ⟨-, -, -, -, -, -, -, -, -, e0, -⟩ := idx_facts t
  refine Shape.idx_ext₂ ?_ ?_
  · show win2_6.index t (0 : Fin 2) * 5000 + 1 * p.val = win2_6.index t (0 : Fin 2) * 5000 + p.val
    omega
  · show win2_6.index t (1 : Fin 2) * 128 + 1 * q.val = q.val
    omega

theorem preB_blocks (c : Dev nD) (t : Fin cfg2.N) (p : Fin 5000) (k : Fin 128) :
    preB (iblk2 V c 0 t) (iblk2 V c 1 t) (iblk2 V c 2 t) (iblk2 V c 3 t) p k
      = Cert.Spec.updPre (hA V c) (aggA V c) (uA V c) (ubA V c) ⟨rowBase t + p.val, rowBase_lt t p⟩ k := by
  unfold preB Cert.Spec.updPre
  exact congrArg₂ (· + ·)
    (congrArg (fun s => max s Cert.Spec.c0)
      (congrArg₂ (· + ·)
        (congrArg₂ (· + ·)
          (Finset.sum_congr rfl fun a _ => congrArg₂ (· * ·) (hblk_apply V c t p a) (ublk_apply V c t ⟨a.val, by omega⟩ k))
          (Finset.sum_congr rfl fun a _ => congrArg₂ (· * ·) (aggblk_apply V c t p a) (ublk_apply V c t ⟨128 + a.val, by omega⟩ k)))
        (ubblk_apply V c t k)))
    (hblk_apply V c t p k)

theorem lnRow_congr {v v' : Fin 128 → EReal} {g g' b b' : Cert.Spec.Vc 128} (j : Fin 128) (hv : ∀ k, v k = v' k)
    (hg : g (ix1 j) = g' (ix1 j)) (hb : b (ix1 j) = b' (ix1 j)) : Cert.Spec.lnRow v g b j = Cert.Spec.lnRow v' g' b' j := by
  have e : v = v' := funext hv
  subst e
  unfold Cert.Spec.lnRow
  rw [hg, hb]

theorem flushed_eq (c : Dev nD) (t : Fin cfg2.N) :
    (dat2 (F := Ideal) V c).flushed 6 t = ((cfg2.win 6).blk t).view.read (Elt Ideal) (updA V c) := by
  show (cfg2.win 6).cut (grid2.coords t) ((dat2 V c).after 6 t) = _
  rw [after2_6]
  unfold out2_6
  rw [View.canon_unit_zero hz]
  simp only [View.ld_unit_zero (S := S5000x128) hz, View.ld_unit_zero (S := S256x128) hz, View.ld_unit_zero (S := S128) hz1]
  refine Cert.Spec.ext2 (a := 5000) (b := 128) fun p q => ?_
  show k2_pay1 (k2_pay2 (iblk2 V c 0 t) (iblk2 V c 1 t) (iblk2 V c 2 t) (iblk2 V c 3 t)) (k2_pay3 (iblk2 V c 4 t)) (iblk2 V c 5 t) (ix2 p q)
      = updA V c (((cfg2.win 6).blk t).view.emb (ix2 p q))
  refine (pay_apply (iblk2 V c 0 t) (iblk2 V c 1 t) (iblk2 V c 2 t) (iblk2 V c 3 t) (iblk2 V c 4 t) (iblk2 V c 5 t) p q).trans ?_
  refine Eq.trans ?_ (congrArg (updA V c) (out_emb t p q)).symm
  show _ = Cert.Spec.lnRow (fun k => Cert.Spec.updPre (hA V c) (aggA V c) (uA V c) (ubA V c) ⟨rowBase t + p.val, rowBase_lt t p⟩ k)
      (gA V c) (betaA V c) q
  exact lnRow_congr q (fun k => preB_blocks V c t p k) (gblk_apply V c t q) (betablk_apply V c t q)

theorem mem_blk (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole (Pipeline.arrRef spec2 6)).slice (win2_6.rect t)).set ↔ _
  rw [View.set_slice_whole, Rect.mem_set_unit]
  exact Iff.rfl

theorem cover (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  obtain ⟨t, ht⟩ := idx_onto ⟨(i 0).val / 5000, by omega⟩
  have q0 : win2_6.index t (0 : Fin 2) = (i 0).val / 5000 := congrFun ht 0
  have q1 : win2_6.index t (1 : Fin 2) = 0 := congrFun ht 1
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

theorem value (c : Dev nD) :
    ((dat2 (F := Ideal) V c).arrAt 6 cfg2.N : Cert.Spec.M 50000 128)
      = Cert.Spec.mk2 (Cert.Spec.updS (hA V c) (aggA V c) (uA V c) (ubA V c) (gA V c) (betaA V c)) :=
  (dat2 V c).arrAt_eq_of_cover 6 (updA V c) (fun t _ => flushed_eq V c t) cover

end Cert.KernelIdeal.Reg2

end
-- ==== Proof.Reg3.lean ====
import proofs.«404470_j89532888252999_1_alg».proof.Proof.Gen.KernelIdeal.Frame
import proofs.«404470_j89532888252999_1_alg».proof.Proof.Spec
import proofs.«404470_j89532888252999_1_alg».proof.Proof.MsgPay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg3

open Cert.KernelIdeal Cert.KernelIdeal.Gen Cert.KernelIdeal.Msg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

abbrev hiA (c : Dev nD) : Cert.Spec.M 400000 128 := V c (Pipeline.arrRef spec3 0)

abbrev hjA (c : Dev nD) : Cert.Spec.M 400000 128 := V c (Pipeline.arrRef spec3 1)

abbrev eaA (c : Dev nD) : Cert.Spec.M 400000 16 := V c (Pipeline.arrRef spec3 2)

abbrev w1A (c : Dev nD) : Cert.Spec.M 272 128 := V c (Pipeline.arrRef spec3 3)

abbrev b1A (c : Dev nD) : Cert.Spec.Vc 128 := V c (Pipeline.arrRef spec3 4)

abbrev w2A (c : Dev nD) : Cert.Spec.M 128 128 := V c (Pipeline.arrRef spec3 5)

abbrev b2A (c : Dev nD) : Cert.Spec.Vc 128 := V c (Pipeline.arrRef spec3 6)

theorem hz : (![0, 0] : Fin 2 → Nat) = fun _ => 0 := funext fun a => by fin_cases a <;> rfl
theorem hzVec : (![0] : Fin 1 → Nat) = fun _ => 0 := funext fun a => by fin_cases a; rfl

theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0
    ∧ win3_6.index t (0 : Fin 1) = 0
    ∧ win3_7.index t (0 : Fin 2) = t.val ∧ win3_7.index t (1 : Fin 2) = 0 :=
  (by decide +kernel : ∀ t : Fin grid3.N, _)

theorem hi_blk (c : Dev nD) (t : Fin cfg3.N) (p : Fin 4000) (a : Fin 128) (e : Fin 400000) (he : e.val = t.val * 4000 + p.val) :
    (iblk3 V c 0 t : FVec Ideal S4000x128 .f32) (ix2 p a) = hiA V c (ix2 e a) := by
  obtain ⟨e0, e1, -⟩ := idx_facts t
  unfold iblk3
  exact congrArg (V c (Pipeline.arrRef spec3 0)) (Shape.idx_ext₂ (show win3_0.index t (0 : Fin 2) * 4000 + 1 * p.val = e.val by omega) (show win3_0.index t (1 : Fin 2) * 128 + 1 * a.val = a.val by omega))

theorem hj_blk (c : Dev nD) (t : Fin cfg3.N) (p : Fin 4000) (a : Fin 128) (e : Fin 400000) (he : e.val = t.val * 4000 + p.val) :
    (iblk3 V c 1 t : FVec Ideal S4000x128 .f32) (ix2 p a) = hjA V c (ix2 e a) := by
  obtain ⟨-, -, e0, e1, -⟩ := idx_facts t
  unfold iblk3
  exact congrArg (V c (Pipeline.arrRef spec3 1)) (Shape.idx_ext₂ (show win3_1.index t (0 : Fin 2) * 4000 + 1 * p.val = e.val by omega) (show win3_1.index t (1 : Fin 2) * 128 + 1 * a.val = a.val by omega))

theorem ea_blk (c : Dev nD) (t : Fin cfg3.N) (p : Fin 4000) (a : Fin 16) (e : Fin 400000) (he : e.val = t.val * 4000 + p.val) :
    (iblk3 V c 2 t : FVec Ideal S4000x16 .f32) (ix2 p a) = eaA V c (ix2 e a) := by
  obtain ⟨-, -, -, -, e0, e1, -⟩ := idx_facts t
  unfold iblk3
  exact congrArg (V c (Pipeline.arrRef spec3 2)) (Shape.idx_ext₂ (show win3_2.index t (0 : Fin 2) * 4000 + 1 * p.val = e.val by omega) (show win3_2.index t (1 : Fin 2) * 16 + 1 * a.val = a.val by omega))

theorem w1_blk (c : Dev nD) (t : Fin cfg3.N) (r : Fin 272) (k : Fin 128) :
    (iblk3 V c 3 t : FVec Ideal S272x128 .bf16) (ix2 r k) = w1A V c (ix2 r k) := by
  obtain ⟨-, -, -, -, -, -, e0, e1, -⟩ := idx_facts t
  unfold iblk3
  exact congrArg (V c (Pipeline.arrRef spec3 3)) (Shape.idx_ext₂ (show win3_3.index t (0 : Fin 2) * 272 + 1 * r.val = r.val by omega) (show win3_3.index t (1 : Fin 2) * 128 + 1 * k.val = k.val by omega))

theorem b1_blk (c : Dev nD) (t : Fin cfg3.N) (k : Fin 128) :
    (iblk3 V c 4 t : FVec Ideal S128 .f32) (ix1 k) = b1A V c (ix1 k) := by
  obtain ⟨-, -, -, -, -, -, -, -, e0, -⟩ := idx_facts t
  unfold iblk3
  exact congrArg (V c (Pipeline.arrRef spec3 4)) (funext fun ax => Fin.ext (match ax with | ⟨0, _⟩ => (show win3_4.index t (0 : Fin 1) * 128 + 1 * k.val = k.val by omega)))

theorem w2_blk (c : Dev nD) (t : Fin cfg3.N) (r : Fin 128) (k : Fin 128) :
    (iblk3 V c 5 t : FVec Ideal S128x128 .bf16) (ix2 r k) = w2A V c (ix2 r k) := by
  obtain ⟨-, -, -, -, -, -, -, -, -, e0, e1, -⟩ := idx_facts t
  unfold iblk3
  exact congrArg (V c (Pipeline.arrRef spec3 5)) (Shape.idx_ext₂ (show win3_5.index t (0 : Fin 2) * 128 + 1 * r.val = r.val by omega) (show win3_5.index t (1 : Fin 2) * 128 + 1 * k.val = k.val by omega))

theorem b2_blk (c : Dev nD) (t : Fin cfg3.N) (k : Fin 128) :
    (iblk3 V c 6 t : FVec Ideal S128 .f32) (ix1 k) = b2A V c (ix1 k) := by
  obtain ⟨-, -, -, -, -, -, -, -, -, -, -, e0, -⟩ := idx_facts t
  unfold iblk3
  exact congrArg (V c (Pipeline.arrRef spec3 6)) (funext fun ax => Fin.ext (match ax with | ⟨0, _⟩ => (show win3_6.index t (0 : Fin 1) * 128 + 1 * k.val = k.val by omega)))

theorem block_msg (c : Dev nD) (t : Fin cfg3.N) (p : Fin 4000) (q : Fin 128) (e : Fin 400000) (he : e.val = t.val * 4000 + p.val) :
    k3_pay1 (F := Ideal) (iblk3 V c 0 t) (iblk3 V c 1 t) (iblk3 V c 2 t) (iblk3 V c 3 t) (iblk3 V c 4 t) (iblk3 V c 5 t) (iblk3 V c 6 t) (ix2 p q)
      = Cert.Spec.msgS (hiA V c) (hjA V c) (eaA V c) (w1A V c) (b1A V c) (w2A V c) (b2A V c) e q := by
  refine (pay_apply (iblk3 V c 0 t) (iblk3 V c 1 t) (iblk3 V c 2 t) (iblk3 V c 3 t) (iblk3 V c 4 t) (iblk3 V c 5 t) (iblk3 V c 6 t) p q).trans ?_
  unfold msgBlk Cert.Spec.msgS
  refine congrArg₂ max ?_ rfl
  refine congrArg₂ (· + ·) ?_ (b2_blk V c t q)
  refine Finset.sum_congr rfl fun k _ => ?_
  refine congrArg₂ (· * ·) (congrArg₂ max ?_ rfl) (w2_blk V c t k q)
  unfold preBlk Cert.Spec.msgPre
  refine congrArg₂ (· + ·) (congrArg₂ (· + ·) (congrArg₂ (· + ·) ?_ ?_) ?_) (b1_blk V c t k)
  · exact Finset.sum_congr rfl fun a _ => congrArg₂ (· * ·) (hi_blk V c t p a e he) (w1_blk V c t _ k)
  · exact Finset.sum_congr rfl fun a _ => congrArg₂ (· * ·) (hj_blk V c t p a e he) (w1_blk V c t _ k)
  · exact Finset.sum_congr rfl fun a _ => congrArg₂ (· * ·) (ea_blk V c t p a e he) (w1_blk V c t _ k)

abbrev G (c : Dev nD) : Cert.Spec.M 400000 128 :=
  Cert.Spec.mk2 (Cert.Spec.msgS (hiA V c) (hjA V c) (eaA V c) (w1A V c) (b1A V c) (w2A V c) (b2A V c))

theorem flushed_eq (c : Dev nD) (t : Fin cfg3.N) :
    (dat3 (F := Ideal) V c).flushed 7 t = ((cfg3.win 7).blk t).view.read (Elt Ideal) (G V c) := by
  show (cfg3.win 7).cut (grid3.coords t) ((dat3 (F := Ideal) V c).after 7 t) = _
  rw [after3_7]
  unfold out3_7
  rw [View.canon_unit_zero hz]
  simp only [View.ld_unit_zero (S := S4000x128) hz, View.ld_unit_zero (S := S4000x16) hz, View.ld_unit_zero (S := S272x128) hz,
    View.ld_unit_zero (S := S128x128) hz, View.ld_unit_zero (S := S128) hzVec]
  obtain ⟨-, -, -, -, -, -, -, -, -, -, -, -, e0, e1⟩ := idx_facts t
  have hN : cfg3.N = 100 := N_3
  have htN : t.val < 100 := hN ▸ t.isLt
  funext j
  have hp : (j 0).val < 4000 := (j 0).isLt
  have hq : (j 1).val < 128 := (j 1).isLt
  have hx : (cfg3.win 7).xinj (grid3.coords t) j = ix2 (⟨(j 0).val, hp⟩ : Fin 4000) (⟨(j 1).val, hq⟩ : Fin 128) :=
    funext fun ax => Fin.ext (match ax with | ⟨0, _⟩ => rfl | ⟨1, _⟩ => rfl)
  have hemb : ((cfg3.win 7).blk t).view.emb j
      = ix2 (⟨t.val * 4000 + (j 0).val, by omega⟩ : Fin 400000) (⟨(j 1).val, hq⟩ : Fin 128) := by
    funext ax
    apply Fin.ext
    match ax with
    | ⟨0, _⟩ => show win3_7.index t (0 : Fin 2) * 4000 + 1 * (j 0).val = t.val * 4000 + (j 0).val; rw [e0]; omega
    | ⟨1, _⟩ => show win3_7.index t (1 : Fin 2) * 128 + 1 * (j 1).val = (j 1).val; rw [e1]; omega
  refine (congrArg (k3_pay1 (F := Ideal) (iblk3 V c 0 t) (iblk3 V c 1 t) (iblk3 V c 2 t) (iblk3 V c 3 t) (iblk3 V c 4 t) (iblk3 V c 5 t) (iblk3 V c 6 t)) hx).trans ?_
  refine (block_msg V c t ⟨(j 0).val, hp⟩ ⟨(j 1).val, hq⟩ ⟨t.val * 4000 + (j 0).val, by omega⟩ rfl).trans ?_
  refine (Cert.Spec.mk2_ix2 _ _ _).symm.trans ?_
  exact (congrArg (G V c) hemb).symm

theorem mem_blk (t : Fin cfg3.N) (i : S400000x128.Idx) :
    i ∈ ((cfg3.win 7).blk t).view.set ↔ ∀ a : Fin 2, win3_7.index t a * S4000x128.size a ≤ (i a).val ∧ (i a).val < win3_7.index t a * S4000x128.size a + S4000x128.size a := by
  show i ∈ ((View.whole (Pipeline.arrRef spec3 7)).slice (win3_7.rect t)).set ↔ _
  rw [View.set_slice_whole, Rect.mem_set_unit]
  exact Iff.rfl

theorem cover (i : S400000x128.Idx) :
    ∃ t : Fin cfg3.N, (cfg3.win 7).flush t = true ∧ i ∈ ((cfg3.win 7).blk t).view.set := by
  have hi0 : (i 0).val < 400000 := (i 0).isLt
  have hi1 : (i 1).val < 128 := (i 1).isLt
  have hN : cfg3.N = 100 := N_3
  have ht : (i 0).val / 4000 < cfg3.N := by rw [hN]; omega
  obtain ⟨-, -, -, -, -, -, -, -, -, -, -, -, e0, e1⟩ := idx_facts ⟨(i 0).val / 4000, ht⟩
  refine ⟨⟨(i 0).val / 4000, ht⟩, flush3_7 _, ?_⟩
  rw [mem_blk]
  intro a
  match a with
  | ⟨0, _⟩ =>
    show win3_7.index ⟨(i 0).val / 4000, ht⟩ (0 : Fin 2) * 4000 ≤ (i 0).val ∧ (i 0).val < win3_7.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win3_7.index ⟨(i 0).val / 4000, ht⟩ (1 : Fin 2) * 128 ≤ (i 1).val ∧ (i 1).val < win3_7.index ⟨(i 0).val / 4000, ht⟩ (1 : Fin 2) * 128 + 128
    rw [e1]; omega

theorem value (c : Dev nD) :
    ((dat3 (F := Ideal) V c).arrAt 7 cfg3.N : Cert.Spec.M 400000 128)
      = Cert.Spec.mk2 (Cert.Spec.msgS (hiA V c) (hjA V c) (eaA V c) (w1A V c) (b1A V c) (w2A V c) (b2A V c)) :=
  (dat3 (F := Ideal) V c).arrAt_eq_of_cover 7 (G V c) (fun t _ => flushed_eq V c t) cover

end Cert.KernelIdeal.Reg3

end
-- ==== Proof.Reg4.lean ====
import proofs.«404470_j89532888252999_1_alg».proof.Proof.Gen.KernelIdeal.Frame
import proofs.«404470_j89532888252999_1_alg».proof.Proof.Spec
import proofs.«404470_j89532888252999_1_alg».proof.Proof.UpdPay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Upd
open Idealize.ShloMosaic.ValueIdx
open scoped BigOperators

variable (V : (c : Dev nD) → (b : Ref sig .tc) → Buf (Elt Ideal) ((c : Thread nD τ).loc b))

abbrev hA (c : Dev nD) : Cert.Spec.M 50000 128 := V c (Pipeline.arrRef spec4 0)

abbrev aggA (c : Dev nD) : Cert.Spec.M 50000 128 := V c (Pipeline.arrRef spec4 1)

abbrev uA (c : Dev nD) : Cert.Spec.M 256 128 := V c (Pipeline.arrRef spec4 2)

abbrev ubA (c : Dev nD) : Cert.Spec.Vc 128 := V c (Pipeline.arrRef spec4 3)

abbrev gA (c : Dev nD) : Cert.Spec.Vc 128 := V c (Pipeline.arrRef spec4 4)

abbrev betaA (c : Dev nD) : Cert.Spec.Vc 128 := V c (Pipeline.arrRef spec4 5)

abbrev updA (c : Dev nD) : Cert.Spec.M 50000 128 :=
  Cert.Spec.mk2 (Cert.Spec.updS (hA V c) (aggA V c) (uA V c) (ubA V c) (gA V c) (betaA V c))

theorem hz : (![0, 0] : Fin 2 → Nat) = fun _ => 0 := funext fun a => by fin_cases a <;> rfl
theorem hz1 : (![0] : Fin 1 → Nat) = fun _ => 0 := funext fun a => by fin_cases a <;> rfl

theorem idx_facts : ∀ t : Fin cfg4.N, win4_0.index t (0 : Fin 2) = win4_6.index t (0 : Fin 2)
    ∧ win4_0.index t (1 : Fin 2) = 0
    ∧ win4_1.index t (0 : Fin 2) = win4_6.index t (0 : Fin 2)
    ∧ win4_1.index t (1 : Fin 2) = 0
    ∧ win4_2.index t (0 : Fin 2) = 0 ∧ win4_2.index t (1 : Fin 2) = 0
    ∧ win4_3.index t (0 : Fin 1) = 0
    ∧ win4_4.index t (0 : Fin 1) = 0
    ∧ win4_5.index t (0 : Fin 1) = 0
    ∧ win4_6.index t (1 : Fin 2) = 0
    ∧ win4_6.index t (0 : Fin 2) ≤ 9 :=
  (by decide +kernel : ∀ t : Fin grid4.N, _)

theorem idx_onto : ∀ q0 : Fin 10, ∃ t : Fin cfg4.N, win4_6.index t = ![q0.val, 0] :=
  (by decide +kernel : ∀ q0 : Fin 10, ∃ t : Fin grid4.N, win4_6.index t = ![q0.val, 0])

abbrev rowBase (t : Fin cfg4.N) : Nat := win4_6.index t (0 : Fin 2) * 5000

theorem rowBase_lt (t : Fin cfg4.N) (p : Fin 5000) : rowBase t + p.val < 50000 := by
  obtain ⟨-, -, -, -, -, -, -, -, -, -, h⟩ := idx_facts t
  have := p.isLt
  show win4_6.index t (0 : Fin 2) * 5000 + p.val < 50000
  omega

theorem hblk_apply (c : Dev nD) (t : Fin cfg4.N) (p : Fin 5000) (k : Fin 128) :
    (iblk4 V c 0 t : Vec Ideal S5000x128 .f32) (ix2 p k) = hA V c (ix2 ⟨rowBase t + p.val, rowBase_lt t p⟩ k) := by
  obtain ⟨e0, e1, -, -, -, -, -, -, -, -, -⟩ := idx_facts t
  show hA V c (((cfg4.win 0).blk t).view.emb (ix2 p k)) = _
  refine congrArg (hA V c) (Shape.idx_ext₂ ?_ ?_)
  · show win4_0.index t (0 : Fin 2) * 5000 + 1 * p.val = win4_6.index t (0 : Fin 2) * 5000 + p.val
    omega
  · show win4_0.index t (1 : Fin 2) * 128 + 1 * k.val = k.val
    omega

theorem aggblk_apply (c : Dev nD) (t : Fin cfg4.N) (p : Fin 5000) (k : Fin 128) :
    (iblk4 V c 1 t : Vec Ideal S5000x128 .f32) (ix2 p k) = aggA V c (ix2 ⟨rowBase t + p.val, rowBase_lt t p⟩ k) := by
  obtain ⟨-, -, e0, e1, -, -, -, -, -, -, -⟩ := idx_facts t
  show aggA V c (((cfg4.win 1).blk t).view.emb (ix2 p k)) = _
  refine congrArg (aggA V c) (Shape.idx_ext₂ ?_ ?_)
  · show win4_1.index t (0 : Fin 2) * 5000 + 1 * p.val = win4_6.index t (0 : Fin 2) * 5000 + p.val
    omega
  · show win4_1.index t (1 : Fin 2) * 128 + 1 * k.val = k.val
    omega

theorem ublk_apply (c : Dev nD) (t : Fin cfg4.N) (r : Fin 256) (q : Fin 128) :
    (iblk4 V c 2 t : Vec Ideal S256x128 .bf16) (ix2 r q) = uA V c (ix2 r q) := by
  obtain ⟨-, -, -, -, e0, e1, -, -, -, -, -⟩ := idx_facts t
  show uA V c (((cfg4.win 2).blk t).view.emb (ix2 r q)) = _
  refine congrArg (uA V c) (Shape.idx_ext₂ ?_ ?_)
  · show win4_2.index t (0 : Fin 2) * 256 + 1 * r.val = r.val
    omega
  · show win4_2.index t (1 : Fin 2) * 128 + 1 * q.val = q.val
    omega

theorem ubblk_apply (c : Dev nD) (t : Fin cfg4.N) (q : Fin 128) :
    (iblk4 V c 3 t : Vec Ideal S128 .f32) (ix1 q) = ubA V c (ix1 q) := by
  obtain ⟨-, -, -, -, -, -, e0, -, -, -, -⟩ := idx_facts t
  show ubA V c (((cfg4.win 3).blk t).view.emb (ix1 q)) = _
  refine congrArg (ubA V c) (funext fun a => Fin.ext ?_)
  match a with
  | ⟨0, _⟩ =>
    show win4_3.index t (0 : Fin 1) * 128 + 1 * q.val = q.val
    omega

theorem gblk_apply (c : Dev nD) (t : Fin cfg4.N) (q : Fin 128) :
    (iblk4 V c 4 t : Vec Ideal S128 .f32) (ix1 q) = gA V c (ix1 q) := by
  obtain ⟨-, -, -, -, -, -, -, e0, -, -, -⟩ := idx_facts t
  show gA V c (((cfg4.win 4).blk t).view.emb (ix1 q)) = _
  refine congrArg (gA V c) (funext fun a => Fin.ext ?_)
  match a with
  | ⟨0, _⟩ =>
    show win4_4.index t (0 : Fin 1) * 128 + 1 * q.val = q.val
    omega

theorem betablk_apply (c : Dev nD) (t : Fin cfg4.N) (q : Fin 128) :
    (iblk4 V c 5 t : Vec Ideal S128 .f32) (ix1 q) = betaA V c (ix1 q) := by
  obtain ⟨-, -, -, -, -, -, -, -, e0, -, -⟩ := idx_facts t
  show betaA V c (((cfg4.win 5).blk t).view.emb (ix1 q)) = _
  refine congrArg (betaA V c) (funext fun a => Fin.ext ?_)
  match a with
  | ⟨0, _⟩ =>
    show win4_5.index t (0 : Fin 1) * 128 + 1 * q.val = q.val
    omega

theorem out_emb (t : Fin cfg4.N) (p : Fin 5000) (q : Fin 128) :
    (((cfg4.win 6).blk t).view.emb (ix2 p q) : S50000x128.Idx) = ix2 ⟨rowBase t + p.val, rowBase_lt t p⟩ q := by
  obtain ⟨-, -, -, -, -, -, -, -, -, e0, -⟩ := idx_facts t
  refine Shape.idx_ext₂ ?_ ?_
  · show win4_6.index t (0 : Fin 2) * 5000 + 1 * p.val = win4_6.index t (0 : Fin 2) * 5000 + p.val
    omega
  · show win4_6.index t (1 : Fin 2) * 128 + 1 * q.val = q.val
    omega

theorem preB_blocks (c : Dev nD) (t : Fin cfg4.N) (p : Fin 5000) (k : Fin 128) :
    preB (iblk4 V c 0 t) (iblk4 V c 1 t) (iblk4 V c 2 t) (iblk4 V c 3 t) p k
      = Cert.Spec.updPre (hA V c) (aggA V c) (uA V c) (ubA V c) ⟨rowBase t + p.val, rowBase_lt t p⟩ k := by
  unfold preB Cert.Spec.updPre
  exact congrArg₂ (· + ·)
    (congrArg (fun s => max s Cert.Spec.c0)
      (congrArg₂ (· + ·)
        (congrArg₂ (· + ·)
          (Finset.sum_congr rfl fun a _ => congrArg₂ (· * ·) (hblk_apply V c t p a) (ublk_apply V c t ⟨a.val, by omega⟩ k))
          (Finset.sum_congr rfl fun a _ => congrArg₂ (· * ·) (aggblk_apply V c t p a) (ublk_apply V c t ⟨128 + a.val, by omega⟩ k)))
        (ubblk_apply V c t k)))
    (hblk_apply V c t p k)

theorem lnRow_congr {v v' : Fin 128 → EReal} {g g' b b' : Cert.Spec.Vc 128} (j : Fin 128) (hv : ∀ k, v k = v' k)
    (hg : g (ix1 j) = g' (ix1 j)) (hb : b (ix1 j) = b' (ix1 j)) : Cert.Spec.lnRow v g b j = Cert.Spec.lnRow v' g' b' j := by
  have e : v = v' := funext hv
  subst e
  unfold Cert.Spec.lnRow
  rw [hg, hb]

theorem flushed_eq (c : Dev nD) (t : Fin cfg4.N) :
    (dat4 (F := Ideal) V c).flushed 6 t = ((cfg4.win 6).blk t).view.read (Elt Ideal) (updA V c) := by
  show (cfg4.win 6).cut (grid4.coords t) ((dat4 V c).after 6 t) = _
  rw [after4_6]
  unfold out4_6
  rw [View.canon_unit_zero hz]
  simp only [View.ld_unit_zero (S := S5000x128) hz, View.ld_unit_zero (S := S256x128) hz, View.ld_unit_zero (S := S128) hz1]
  refine Cert.Spec.ext2 (a := 5000) (b := 128) fun p q => ?_
  show k4_pay1 (k4_pay2 (iblk4 V c 0 t) (iblk4 V c 1 t) (iblk4 V c 2 t) (iblk4 V c 3 t)) (k4_pay3 (iblk4 V c 4 t)) (iblk4 V c 5 t) (ix2 p q)
      = updA V c (((cfg4.win 6).blk t).view.emb (ix2 p q))
  refine (pay_apply (iblk4 V c 0 t) (iblk4 V c 1 t) (iblk4 V c 2 t) (iblk4 V c 3 t) (iblk4 V c 4 t) (iblk4 V c 5 t) p q).trans ?_
  refine Eq.trans ?_ (congrArg (updA V c) (out_emb t p q)).symm
  show _ = Cert.Spec.lnRow (fun k => Cert.Spec.updPre (hA V c) (aggA V c) (uA V c) (ubA V c) ⟨rowBase t + p.val, rowBase_lt t p⟩ k)
      (gA V c) (betaA V c) q
  exact lnRow_congr q (fun k => preB_blocks V c t p k) (gblk_apply V c t q) (betablk_apply V c t q)

theorem mem_blk (t : Fin cfg4.N) (i : S50000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole (Pipeline.arrRef spec4 6)).slice (win4_6.rect t)).set ↔ _
  rw [View.set_slice_whole, Rect.mem_set_unit]
  exact Iff.rfl

theorem cover (i : S50000x128.Idx) : ∃ t : Fin cfg4.N, (cfg4.win 6).flush t = true ∧ i ∈ ((cfg4.win 6).blk t).view.set := by
  have hi0 : (i 0).val < 50000 := (i 0).isLt
  have hi1 : (i 1).val < 128 := (i 1).isLt
  obtain ⟨t, ht⟩ := idx_onto ⟨(i 0).val / 5000, by omega⟩
  have q0 : win4_6.index t (0 : Fin 2) = (i 0).val / 5000 := congrFun ht 0
  have q1 : win4_6.index t (1 : Fin 2) = 0 := congrFun ht 1
  refine ⟨t, flush4_6 t, ?_⟩
  rw [mem_blk]
  intro a
  match a with
  | ⟨0, _⟩ => show win4_6.index t (0 : Fin 2) * 5000 ≤ (i 0).val ∧ (i 0).val < win4_6.index t (0 : Fin 2) * 5000 + 5000; omega
  | ⟨1, _⟩ => show win4_6.index t (1 : Fin 2) * 128 ≤ (i 1).val ∧ (i 1).val < win4_6.index t (1 : Fin 2) * 128 + 128; omega

theorem value (c : Dev nD) :
    ((dat4 (F := Ideal) V c).arrAt 6 cfg4.N : Cert.Spec.M 50000 128)
      = Cert.Spec.mk2 (Cert.Spec.updS (hA V c) (aggA V c) (uA V c) (ubA V c) (gA V c) (betaA V c)) :=
  (dat4 V c).arrAt_eq_of_cover 6 (updA V c) (fun t _ => flushed_eq V c t) cover

end Cert.KernelIdeal.Reg4

end
-- ==== Proof.Reg5.lean ====
import proofs.«404470_j89532888252999_1_alg».proof.Proof.Gen.KernelIdeal.Frame
import proofs.«404470_j89532888252999_1_alg».proof.Proof.Spec
import proofs.«404470_j89532888252999_1_alg».proof.Proof.MsgPay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg5

open Cert.KernelIdeal Cert.KernelIdeal.Gen Cert.KernelIdeal.Msg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

abbrev hiA (c : Dev nD) : Cert.Spec.M 400000 128 := V c (Pipeline.arrRef spec5 0)

abbrev hjA (c : Dev nD) : Cert.Spec.M 400000 128 := V c (Pipeline.arrRef spec5 1)

abbrev eaA (c : Dev nD) : Cert.Spec.M 400000 16 := V c (Pipeline.arrRef spec5 2)

abbrev w1A (c : Dev nD) : Cert.Spec.M 272 128 := V c (Pipeline.arrRef spec5 3)

abbrev b1A (c : Dev nD) : Cert.Spec.Vc 128 := V c (Pipeline.arrRef spec5 4)

abbrev w2A (c : Dev nD) : Cert.Spec.M 128 128 := V c (Pipeline.arrRef spec5 5)

abbrev b2A (c : Dev nD) : Cert.Spec.Vc 128 := V c (Pipeline.arrRef spec5 6)

theorem hz : (![0, 0] : Fin 2 → Nat) = fun _ => 0 := funext fun a => by fin_cases a <;> rfl
theorem hzVec : (![0] : Fin 1 → Nat) = fun _ => 0 := funext fun a => by fin_cases a; rfl

theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 1) = 0
    ∧ win5_5.index t (0 : Fin 2) = 0 ∧ win5_5.index t (1 : Fin 2) = 0
    ∧ win5_6.index t (0 : Fin 1) = 0
    ∧ win5_7.index t (0 : Fin 2) = t.val ∧ win5_7.index t (1 : Fin 2) = 0 :=
  (by decide +kernel : ∀ t : Fin grid5.N, _)

theorem hi_blk (c : Dev nD) (t : Fin cfg5.N) (p : Fin 4000) (a : Fin 128) (e : Fin 400000) (he : e.val = t.val * 4000 + p.val) :
    (iblk5 V c 0 t : FVec Ideal S4000x128 .f32) (ix2 p a) = hiA V c (ix2 e a) := by
  obtain ⟨e0, e1, -⟩ := idx_facts t
  unfold iblk5
  exact congrArg (V c (Pipeline.arrRef spec5 0)) (Shape.idx_ext₂ (show win5_0.index t (0 : Fin 2) * 4000 + 1 * p.val = e.val by omega) (show win5_0.index t (1 : Fin 2) * 128 + 1 * a.val = a.val by omega))

theorem hj_blk (c : Dev nD) (t : Fin cfg5.N) (p : Fin 4000) (a : Fin 128) (e : Fin 400000) (he : e.val = t.val * 4000 + p.val) :
    (iblk5 V c 1 t : FVec Ideal S4000x128 .f32) (ix2 p a) = hjA V c (ix2 e a) := by
  obtain ⟨-, -, e0, e1, -⟩ := idx_facts t
  unfold iblk5
  exact congrArg (V c (Pipeline.arrRef spec5 1)) (Shape.idx_ext₂ (show win5_1.index t (0 : Fin 2) * 4000 + 1 * p.val = e.val by omega) (show win5_1.index t (1 : Fin 2) * 128 + 1 * a.val = a.val by omega))

theorem ea_blk (c : Dev nD) (t : Fin cfg5.N) (p : Fin 4000) (a : Fin 16) (e : Fin 400000) (he : e.val = t.val * 4000 + p.val) :
    (iblk5 V c 2 t : FVec Ideal S4000x16 .f32) (ix2 p a) = eaA V c (ix2 e a) := by
  obtain ⟨-, -, -, -, e0, e1, -⟩ := idx_facts t
  unfold iblk5
  exact congrArg (V c (Pipeline.arrRef spec5 2)) (Shape.idx_ext₂ (show win5_2.index t (0 : Fin 2) * 4000 + 1 * p.val = e.val by omega) (show win5_2.index t (1 : Fin 2) * 16 + 1 * a.val = a.val by omega))

theorem w1_blk (c : Dev nD) (t : Fin cfg5.N) (r : Fin 272) (k : Fin 128) :
    (iblk5 V c 3 t : FVec Ideal S272x128 .bf16) (ix2 r k) = w1A V c (ix2 r k) := by
  obtain ⟨-, -, -, -, -, -, e0, e1, -⟩ := idx_facts t
  unfold iblk5
  exact congrArg (V c (Pipeline.arrRef spec5 3)) (Shape.idx_ext₂ (show win5_3.index t (0 : Fin 2) * 272 + 1 * r.val = r.val by omega) (show win5_3.index t (1 : Fin 2) * 128 + 1 * k.val = k.val by omega))

theorem b1_blk (c : Dev nD) (t : Fin cfg5.N) (k : Fin 128) :
    (iblk5 V c 4 t : FVec Ideal S128 .f32) (ix1 k) = b1A V c (ix1 k) := by
  obtain ⟨-, -, -, -, -, -, -, -, e0, -⟩ := idx_facts t
  unfold iblk5
  exact congrArg (V c (Pipeline.arrRef spec5 4)) (funext fun ax => Fin.ext (match ax with | ⟨0, _⟩ => (show win5_4.index t (0 : Fin 1) * 128 + 1 * k.val = k.val by omega)))

theorem w2_blk (c : Dev nD) (t : Fin cfg5.N) (r : Fin 128) (k : Fin 128) :
    (iblk5 V c 5 t : FVec Ideal S128x128 .bf16) (ix2 r k) = w2A V c (ix2 r k) := by
  obtain ⟨-, -, -, -, -, -, -, -, -, e0, e1, -⟩ := idx_facts t
  unfold iblk5
  exact congrArg (V c (Pipeline.arrRef spec5 5)) (Shape.idx_ext₂ (show win5_5.index t (0 : Fin 2) * 128 + 1 * r.val = r.val by omega) (show win5_5.index t (1 : Fin 2) * 128 + 1 * k.val = k.val by omega))

theorem b2_blk (c : Dev nD) (t : Fin cfg5.N) (k : Fin 128) :
    (iblk5 V c 6 t : FVec Ideal S128 .f32) (ix1 k) = b2A V c (ix1 k) := by
  obtain ⟨-, -, -, -, -, -, -, -, -, -, -, e0, -⟩ := idx_facts t
  unfold iblk5
  exact congrArg (V c (Pipeline.arrRef spec5 6)) (funext fun ax => Fin.ext (match ax with | ⟨0, _⟩ => (show win5_6.index t (0 : Fin 1) * 128 + 1 * k.val = k.val by omega)))

theorem block_msg (c : Dev nD) (t : Fin cfg5.N) (p : Fin 4000) (q : Fin 128) (e : Fin 400000) (he : e.val = t.val * 4000 + p.val) :
    k5_pay1 (F := Ideal) (iblk5 V c 0 t) (iblk5 V c 1 t) (iblk5 V c 2 t) (iblk5 V c 3 t) (iblk5 V c 4 t) (iblk5 V c 5 t) (iblk5 V c 6 t) (ix2 p q)
      = Cert.Spec.msgS (hiA V c) (hjA V c) (eaA V c) (w1A V c) (b1A V c) (w2A V c) (b2A V c) e q := by
  refine (pay_apply (iblk5 V c 0 t) (iblk5 V c 1 t) (iblk5 V c 2 t) (iblk5 V c 3 t) (iblk5 V c 4 t) (iblk5 V c 5 t) (iblk5 V c 6 t) p q).trans ?_
  unfold msgBlk Cert.Spec.msgS
  refine congrArg₂ max ?_ rfl
  refine congrArg₂ (· + ·) ?_ (b2_blk V c t q)
  refine Finset.sum_congr rfl fun k _ => ?_
  refine congrArg₂ (· * ·) (congrArg₂ max ?_ rfl) (w2_blk V c t k q)
  unfold preBlk Cert.Spec.msgPre
  refine congrArg₂ (· + ·) (congrArg₂ (· + ·) (congrArg₂ (· + ·) ?_ ?_) ?_) (b1_blk V c t k)
  · exact Finset.sum_congr rfl fun a _ => congrArg₂ (· * ·) (hi_blk V c t p a e he) (w1_blk V c t _ k)
  · exact Finset.sum_congr rfl fun a _ => congrArg₂ (· * ·) (hj_blk V c t p a e he) (w1_blk V c t _ k)
  · exact Finset.sum_congr rfl fun a _ => congrArg₂ (· * ·) (ea_blk V c t p a e he) (w1_blk V c t _ k)

abbrev G (c : Dev nD) : Cert.Spec.M 400000 128 :=
  Cert.Spec.mk2 (Cert.Spec.msgS (hiA V c) (hjA V c) (eaA V c) (w1A V c) (b1A V c) (w2A V c) (b2A V c))

theorem flushed_eq (c : Dev nD) (t : Fin cfg5.N) :
    (dat5 (F := Ideal) V c).flushed 7 t = ((cfg5.win 7).blk t).view.read (Elt Ideal) (G V c) := by
  show (cfg5.win 7).cut (grid5.coords t) ((dat5 (F := Ideal) V c).after 7 t) = _
  rw [after5_7]
  unfold out5_7
  rw [View.canon_unit_zero hz]
  simp only [View.ld_unit_zero (S := S4000x128) hz, View.ld_unit_zero (S := S4000x16) hz, View.ld_unit_zero (S := S272x128) hz,
    View.ld_unit_zero (S := S128x128) hz, View.ld_unit_zero (S := S128) hzVec]
  obtain ⟨-, -, -, -, -, -, -, -, -, -, -, -, e0, e1⟩ := idx_facts t
  have hN : cfg5.N = 100 := N_5
  have htN : t.val < 100 := hN ▸ t.isLt
  funext j
  have hp : (j 0).val < 4000 := (j 0).isLt
  have hq : (j 1).val < 128 := (j 1).isLt
  have hx : (cfg5.win 7).xinj (grid5.coords t) j = ix2 (⟨(j 0).val, hp⟩ : Fin 4000) (⟨(j 1).val, hq⟩ : Fin 128) :=
    funext fun ax => Fin.ext (match ax with | ⟨0, _⟩ => rfl | ⟨1, _⟩ => rfl)
  have hemb : ((cfg5.win 7).blk t).view.emb j
      = ix2 (⟨t.val * 4000 + (j 0).val, by omega⟩ : Fin 400000) (⟨(j 1).val, hq⟩ : Fin 128) := by
    funext ax
    apply Fin.ext
    match ax with
    | ⟨0, _⟩ => show win5_7.index t (0 : Fin 2) * 4000 + 1 * (j 0).val = t.val * 4000 + (j 0).val; rw [e0]; omega
    | ⟨1, _⟩ => show win5_7.index t (1 : Fin 2) * 128 + 1 * (j 1).val = (j 1).val; rw [e1]; omega
  refine (congrArg (k5_pay1 (F := Ideal) (iblk5 V c 0 t) (iblk5 V c 1 t) (iblk5 V c 2 t) (iblk5 V c 3 t) (iblk5 V c 4 t) (iblk5 V c 5 t) (iblk5 V c 6 t)) hx).trans ?_
  refine (block_msg V c t ⟨(j 0).val, hp⟩ ⟨(j 1).val, hq⟩ ⟨t.val * 4000 + (j 0).val, by omega⟩ rfl).trans ?_
  refine (Cert.Spec.mk2_ix2 _ _ _).symm.trans ?_
  exact (congrArg (G V c) hemb).symm

theorem mem_blk (t : Fin cfg5.N) (i : S400000x128.Idx) :
    i ∈ ((cfg5.win 7).blk t).view.set ↔ ∀ a : Fin 2, win5_7.index t a * S4000x128.size a ≤ (i a).val ∧ (i a).val < win5_7.index t a * S4000x128.size a + S4000x128.size a := by
  show i ∈ ((View.whole (Pipeline.arrRef spec5 7)).slice (win5_7.rect t)).set ↔ _
  rw [View.set_slice_whole, Rect.mem_set_unit]
  exact Iff.rfl

theorem cover (i : S400000x128.Idx) :
    ∃ t : Fin cfg5.N, (cfg5.win 7).flush t = true ∧ i ∈ ((cfg5.win 7).blk t).view.set := by
  have hi0 : (i 0).val < 400000 := (i 0).isLt
  have hi1 : (i 1).val < 128 := (i 1).isLt
  have hN : cfg5.N = 100 := N_5
  have ht : (i 0).val / 4000 < cfg5.N := by rw [hN]; omega
  obtain ⟨-, -, -, -, -, -, -, -, -, -, -, -, e0, e1⟩ := idx_facts ⟨(i 0).val / 4000, ht⟩
  refine ⟨⟨(i 0).val / 4000, ht⟩, flush5_7 _, ?_⟩
  rw [mem_blk]
  intro a
  match a with
  | ⟨0, _⟩ =>
    show win5_7.index ⟨(i 0).val / 4000, ht⟩ (0 : Fin 2) * 4000 ≤ (i 0).val ∧ (i 0).val < win5_7.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win5_7.index ⟨(i 0).val / 4000, ht⟩ (1 : Fin 2) * 128 ≤ (i 1).val ∧ (i 1).val < win5_7.index ⟨(i 0).val / 4000, ht⟩ (1 : Fin 2) * 128 + 128
    rw [e1]; omega

theorem value (c : Dev nD) :
    ((dat5 (F := Ideal) V c).arrAt 7 cfg5.N : Cert.Spec.M 400000 128)
      = Cert.Spec.mk2 (Cert.Spec.msgS (hiA V c) (hjA V c) (eaA V c) (w1A V c) (b1A V c) (w2A V c) (b2A V c)) :=
  (dat5 (F := Ideal) V c).arrAt_eq_of_cover 7 (G V c) (fun t _ => flushed_eq V c t) cover

end Cert.KernelIdeal.Reg5

end
-- ==== Proof.Reg6.lean ====
import proofs.«404470_j89532888252999_1_alg».proof.Proof.Gen.KernelIdeal.Frame
import proofs.«404470_j89532888252999_1_alg».proof.Proof.Spec
import proofs.«404470_j89532888252999_1_alg».proof.Proof.UpdPay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg6

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Upd
open Idealize.ShloMosaic.ValueIdx
open scoped BigOperators

variable (V : (c : Dev nD) → (b : Ref sig .tc) → Buf (Elt Ideal) ((c : Thread nD τ).loc b))

abbrev hA (c : Dev nD) : Cert.Spec.M 50000 128 := V c (Pipeline.arrRef spec6 0)

abbrev aggA (c : Dev nD) : Cert.Spec.M 50000 128 := V c (Pipeline.arrRef spec6 1)

abbrev uA (c : Dev nD) : Cert.Spec.M 256 128 := V c (Pipeline.arrRef spec6 2)

abbrev ubA (c : Dev nD) : Cert.Spec.Vc 128 := V c (Pipeline.arrRef spec6 3)

abbrev gA (c : Dev nD) : Cert.Spec.Vc 128 := V c (Pipeline.arrRef spec6 4)

abbrev betaA (c : Dev nD) : Cert.Spec.Vc 128 := V c (Pipeline.arrRef spec6 5)

abbrev updA (c : Dev nD) : Cert.Spec.M 50000 128 :=
  Cert.Spec.mk2 (Cert.Spec.updS (hA V c) (aggA V c) (uA V c) (ubA V c) (gA V c) (betaA V c))

theorem hz : (![0, 0] : Fin 2 → Nat) = fun _ => 0 := funext fun a => by fin_cases a <;> rfl
theorem hz1 : (![0] : Fin 1 → Nat) = fun _ => 0 := funext fun a => by fin_cases a <;> rfl

theorem idx_facts : ∀ t : Fin cfg6.N, win6_0.index t (0 : Fin 2) = win6_6.index t (0 : Fin 2)
    ∧ win6_0.index t (1 : Fin 2) = 0
    ∧ win6_1.index t (0 : Fin 2) = win6_6.index t (0 : Fin 2)
    ∧ win6_1.index t (1 : Fin 2) = 0
    ∧ win6_2.index t (0 : Fin 2) = 0 ∧ win6_2.index t (1 : Fin 2) = 0
    ∧ win6_3.index t (0 : Fin 1) = 0
    ∧ win6_4.index t (0 : Fin 1) = 0
    ∧ win6_5.index t (0 : Fin 1) = 0
    ∧ win6_6.index t (1 : Fin 2) = 0
    ∧ win6_6.index t (0 : Fin 2) ≤ 9 :=
  (by decide +kernel : ∀ t : Fin grid6.N, _)

theorem idx_onto : ∀ q0 : Fin 10, ∃ t : Fin cfg6.N, win6_6.index t = ![q0.val, 0] :=
  (by decide +kernel : ∀ q0 : Fin 10, ∃ t : Fin grid6.N, win6_6.index t = ![q0.val, 0])

abbrev rowBase (t : Fin cfg6.N) : Nat := win6_6.index t (0 : Fin 2) * 5000

theorem rowBase_lt (t : Fin cfg6.N) (p : Fin 5000) : rowBase t + p.val < 50000 := by
  obtain ⟨-, -, -, -, -, -, -, -, -, -, h⟩ := idx_facts t
  have := p.isLt
  show win6_6.index t (0 : Fin 2) * 5000 + p.val < 50000
  omega

theorem hblk_apply (c : Dev nD) (t : Fin cfg6.N) (p : Fin 5000) (k : Fin 128) :
    (iblk6 V c 0 t : Vec Ideal S5000x128 .f32) (ix2 p k) = hA V c (ix2 ⟨rowBase t + p.val, rowBase_lt t p⟩ k) := by
  obtain ⟨e0, e1, -, -, -, -, -, -, -, -, -⟩ := idx_facts t
  show hA V c (((cfg6.win 0).blk t).view.emb (ix2 p k)) = _
  refine congrArg (hA V c) (Shape.idx_ext₂ ?_ ?_)
  · show win6_0.index t (0 : Fin 2) * 5000 + 1 * p.val = win6_6.index t (0 : Fin 2) * 5000 + p.val
    omega
  · show win6_0.index t (1 : Fin 2) * 128 + 1 * k.val = k.val
    omega

theorem aggblk_apply (c : Dev nD) (t : Fin cfg6.N) (p : Fin 5000) (k : Fin 128) :
    (iblk6 V c 1 t : Vec Ideal S5000x128 .f32) (ix2 p k) = aggA V c (ix2 ⟨rowBase t + p.val, rowBase_lt t p⟩ k) := by
  obtain ⟨-, -, e0, e1, -, -, -, -, -, -, -⟩ := idx_facts t
  show aggA V c (((cfg6.win 1).blk t).view.emb (ix2 p k)) = _
  refine congrArg (aggA V c) (Shape.idx_ext₂ ?_ ?_)
  · show win6_1.index t (0 : Fin 2) * 5000 + 1 * p.val = win6_6.index t (0 : Fin 2) * 5000 + p.val
    omega
  · show win6_1.index t (1 : Fin 2) * 128 + 1 * k.val = k.val
    omega

theorem ublk_apply (c : Dev nD) (t : Fin cfg6.N) (r : Fin 256) (q : Fin 128) :
    (iblk6 V c 2 t : Vec Ideal S256x128 .bf16) (ix2 r q) = uA V c (ix2 r q) := by
  obtain ⟨-, -, -, -, e0, e1, -, -, -, -, -⟩ := idx_facts t
  show uA V c (((cfg6.win 2).blk t).view.emb (ix2 r q)) = _
  refine congrArg (uA V c) (Shape.idx_ext₂ ?_ ?_)
  · show win6_2.index t (0 : Fin 2) * 256 + 1 * r.val = r.val
    omega
  · show win6_2.index t (1 : Fin 2) * 128 + 1 * q.val = q.val
    omega

theorem ubblk_apply (c : Dev nD) (t : Fin cfg6.N) (q : Fin 128) :
    (iblk6 V c 3 t : Vec Ideal S128 .f32) (ix1 q) = ubA V c (ix1 q) := by
  obtain ⟨-, -, -, -, -, -, e0, -, -, -, -⟩ := idx_facts t
  show ubA V c (((cfg6.win 3).blk t).view.emb (ix1 q)) = _
  refine congrArg (ubA V c) (funext fun a => Fin.ext ?_)
  match a with
  | ⟨0, _⟩ =>
    show win6_3.index t (0 : Fin 1) * 128 + 1 * q.val = q.val
    omega

theorem gblk_apply (c : Dev nD) (t : Fin cfg6.N) (q : Fin 128) :
    (iblk6 V c 4 t : Vec Ideal S128 .f32) (ix1 q) = gA V c (ix1 q) := by
  obtain ⟨-, -, -, -, -, -, -, e0, -, -, -⟩ := idx_facts t
  show gA V c (((cfg6.win 4).blk t).view.emb (ix1 q)) = _
  refine congrArg (gA V c) (funext fun a => Fin.ext ?_)
  match a with
  | ⟨0, _⟩ =>
    show win6_4.index t (0 : Fin 1) * 128 + 1 * q.val = q.val
    omega

theorem betablk_apply (c : Dev nD) (t : Fin cfg6.N) (q : Fin 128) :
    (iblk6 V c 5 t : Vec Ideal S128 .f32) (ix1 q) = betaA V c (ix1 q) := by
  obtain ⟨-, -, -, -, -, -, -, -, e0, -, -⟩ := idx_facts t
  show betaA V c (((cfg6.win 5).blk t).view.emb (ix1 q)) = _
  refine congrArg (betaA V c) (funext fun a => Fin.ext ?_)
  match a with
  | ⟨0, _⟩ =>
    show win6_5.index t (0 : Fin 1) * 128 + 1 * q.val = q.val
    omega

theorem out_emb (t : Fin cfg6.N) (p : Fin 5000) (q : Fin 128) :
    (((cfg6.win 6).blk t).view.emb (ix2 p q) : S50000x128.Idx) = ix2 ⟨rowBase t + p.val, rowBase_lt t p⟩ q := by
  obtain ⟨-, -, -, -, -, -, -, -, -, e0, -⟩ := idx_facts t
  refine Shape.idx_ext₂ ?_ ?_
  · show win6_6.index t (0 : Fin 2) * 5000 + 1 * p.val = win6_6.index t (0 : Fin 2) * 5000 + p.val
    omega
  · show win6_6.index t (1 : Fin 2) * 128 + 1 * q.val = q.val
    omega

theorem preB_blocks (c : Dev nD) (t : Fin cfg6.N) (p : Fin 5000) (k : Fin 128) :
    preB (iblk6 V c 0 t) (iblk6 V c 1 t) (iblk6 V c 2 t) (iblk6 V c 3 t) p k
      = Cert.Spec.updPre (hA V c) (aggA V c) (uA V c) (ubA V c) ⟨rowBase t + p.val, rowBase_lt t p⟩ k := by
  unfold preB Cert.Spec.updPre
  exact congrArg₂ (· + ·)
    (congrArg (fun s => max s Cert.Spec.c0)
      (congrArg₂ (· + ·)
        (congrArg₂ (· + ·)
          (Finset.sum_congr rfl fun a _ => congrArg₂ (· * ·) (hblk_apply V c t p a) (ublk_apply V c t ⟨a.val, by omega⟩ k))
          (Finset.sum_congr rfl fun a _ => congrArg₂ (· * ·) (aggblk_apply V c t p a) (ublk_apply V c t ⟨128 + a.val, by omega⟩ k)))
        (ubblk_apply V c t k)))
    (hblk_apply V c t p k)

theorem lnRow_congr {v v' : Fin 128 → EReal} {g g' b b' : Cert.Spec.Vc 128} (j : Fin 128) (hv : ∀ k, v k = v' k)
    (hg : g (ix1 j) = g' (ix1 j)) (hb : b (ix1 j) = b' (ix1 j)) : Cert.Spec.lnRow v g b j = Cert.Spec.lnRow v' g' b' j := by
  have e : v = v' := funext hv
  subst e
  unfold Cert.Spec.lnRow
  rw [hg, hb]

theorem flushed_eq (c : Dev nD) (t : Fin cfg6.N) :
    (dat6 (F := Ideal) V c).flushed 6 t = ((cfg6.win 6).blk t).view.read (Elt Ideal) (updA V c) := by
  show (cfg6.win 6).cut (grid6.coords t) ((dat6 V c).after 6 t) = _
  rw [after6_6]
  unfold out6_6
  rw [View.canon_unit_zero hz]
  simp only [View.ld_unit_zero (S := S5000x128) hz, View.ld_unit_zero (S := S256x128) hz, View.ld_unit_zero (S := S128) hz1]
  refine Cert.Spec.ext2 (a := 5000) (b := 128) fun p q => ?_
  show k6_pay1 (k6_pay2 (iblk6 V c 0 t) (iblk6 V c 1 t) (iblk6 V c 2 t) (iblk6 V c 3 t)) (k6_pay3 (iblk6 V c 4 t)) (iblk6 V c 5 t) (ix2 p q)
      = updA V c (((cfg6.win 6).blk t).view.emb (ix2 p q))
  refine (pay_apply (iblk6 V c 0 t) (iblk6 V c 1 t) (iblk6 V c 2 t) (iblk6 V c 3 t) (iblk6 V c 4 t) (iblk6 V c 5 t) p q).trans ?_
  refine Eq.trans ?_ (congrArg (updA V c) (out_emb t p q)).symm
  show _ = Cert.Spec.lnRow (fun k => Cert.Spec.updPre (hA V c) (aggA V c) (uA V c) (ubA V c) ⟨rowBase t + p.val, rowBase_lt t p⟩ k)
      (gA V c) (betaA V c) q
  exact lnRow_congr q (fun k => preB_blocks V c t p k) (gblk_apply V c t q) (betablk_apply V c t q)

theorem mem_blk (t : Fin cfg6.N) (i : S50000x128.Idx) :
    i ∈ ((cfg6.win 6).blk t).view.set ↔ ∀ a : Fin 2, win6_6.index t a * S5000x128.size a ≤ (i a).val ∧ (i a).val < win6_6.index t a * S5000x128.size a + S5000x128.size a := by
  show i ∈ ((View.whole (Pipeline.arrRef spec6 6)).slice (win6_6.rect t)).set ↔ _
  rw [View.set_slice_whole, Rect.mem_set_unit]
  exact Iff.rfl

theorem cover (i : S50000x128.Idx) : ∃ t : Fin cfg6.N, (cfg6.win 6).flush t = true ∧ i ∈ ((cfg6.win 6).blk t).view.set := by
  have hi0 : (i 0).val < 50000 := (i 0).isLt
  have hi1 : (i 1).val < 128 := (i 1).isLt
  obtain ⟨t, ht⟩ := idx_onto ⟨(i 0).val / 5000, by omega⟩
  have q0 : win6_6.index t (0 : Fin 2) = (i 0).val / 5000 := congrFun ht 0
  have q1 : win6_6.index t (1 : Fin 2) = 0 := congrFun ht 1
  refine ⟨t, flush6_6 t, ?_⟩
  rw [mem_blk]
  intro a
  match a with
  | ⟨0, _⟩ => show win6_6.index t (0 : Fin 2) * 5000 ≤ (i 0).val ∧ (i 0).val < win6_6.index t (0 : Fin 2) * 5000 + 5000; omega
  | ⟨1, _⟩ => show win6_6.index t (1 : Fin 2) * 128 ≤ (i 1).val ∧ (i 1).val < win6_6.index t (1 : Fin 2) * 128 + 128; omega

theorem value (c : Dev nD) :
    ((dat6 (F := Ideal) V c).arrAt 6 cfg6.N : Cert.Spec.M 50000 128)
      = Cert.Spec.mk2 (Cert.Spec.updS (hA V c) (aggA V c) (uA V c) (ubA V c) (gA V c) (betaA V c)) :=
  (dat6 V c).arrAt_eq_of_cover 6 (updA V c) (fun t _ => flushed_eq V c t) cover

end Cert.KernelIdeal.Reg6

end
-- ==== Proof.Reg7Pay.lean ====
import proofs.«404470_j89532888252999_1_alg».proof.Proof.Gen.KernelIdeal.Skeleton
import proofs.«404470_j89532888252999_1_alg».proof.Proof.Spec
import proofs.«404470_j89532888252999_1_alg».proof.Proof.LibPlain
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reg7

open Idealize.ShloMosaic Idealize.ShloMosaic.ValueIdx
open Cert.KernelIdeal Cert.KernelIdeal.Gen Cert.Lib
open scoped BigOperators

section Defs
variable {F : FTy → Type} [FloatOps F]

def rowMean (x : Vec F S5000x128 .f32) : FVec F S5000x1 .f32 :=
  divf (shapeCast S5000x1 (multiReduction .add [1] S5000 (shapeCast S5000x128 x shapeCasts_S5000x128_S5000x128) 0x00000000#32
      reduces_S5000x128_S5000 (.inl rfl) rfl) shapeCasts_S5000_S5000x1)
    (broadcast S5000x1 (Scalar.ofBits .f32 0x43000000#32))

def rowDev (x : Vec F S5000x128 .f32) : FVec F S5000x128 .f32 :=
  subf (shapeCast S5000x128 x shapeCasts_S5000x128_S5000x128) (broadcastTo S5000x128 (rowMean x) broadcasts_S5000x1_S5000x128)

def rowVar (x : Vec F S5000x128 .f32) : FVec F S5000x1 .f32 :=
  divf (shapeCast S5000x1 (multiReduction .add [1] S5000 (mulf (rowDev x) (rowDev x)) 0x00000000#32
      reduces_S5000x128_S5000 (.inl rfl) rfl) shapeCasts_S5000_S5000x1)
    (broadcast S5000x1 (Scalar.ofBits .f32 0x43000000#32))

def normed (x : Vec F S5000x128 .f32) (g b : Vec F S128 .f32) : FVec F S5000x128 .f32 :=
  addf (mulf (mulf (rowDev x)
        (broadcastTo S5000x128 (rsqrt (addf (rowVar x) (broadcast S5000x1 (Scalar.ofBits .f32 0x3727C5AC#32)))) broadcasts_S5000x1_S5000x128))
      (broadcastTo S5000x128 (shapeCast S1x128 g shapeCasts_S128_S1x128) broadcasts_S1x128_S5000x128))
    (broadcastTo S5000x128 (shapeCast S1x128 b shapeCasts_S128_S1x128) broadcasts_S1x128_S5000x128)

theorem pay2_eq (x : Vec F S5000x128 .f32) (g b : Vec F S128 .f32) (acc : Vec F S1x128 .f32) :
    k7_pay2 x g b acc = addf (shapeCast S1x128 acc shapeCasts_S1x128_S1x128)
      (shapeCast S1x128 (multiReduction .add [0] S128 (normed x g b) 0x00000000#32 reduces_S5000x128_S128 (.inl rfl) rfl) shapeCasts_S128_S1x128) := rfl

end Defs

theorem rowMean_apply (x : Vec Ideal S5000x128 .f32) (p : Fin 5000) (u : Fin 1) :
    rowMean x (ix2 p u) = Cert.Spec.mean128 (fun k => x (ix2 p k)) := by
  show Ideal.div (shapeCast S5000x1 _ shapeCasts_S5000_S5000x1 (ix2 p u)) (Ideal.ofBits .f32 0x43000000#32) = Ideal.div _ Cert.Spec.c128
  refine congrArg (fun z => Ideal.div z (Ideal.ofBits .f32 0x43000000#32)) ?_
  refine (shapeCast_a_a1_apply _ _ p u).trans ?_
  refine (laneSum_apply _ _ _ _ _ p).trans ?_
  exact Finset.sum_congr rfl fun k _ => congrFun (shapeCast_self x _) (ix2 p k)

theorem rowDev_apply (x : Vec Ideal S5000x128 .f32) (p : Fin 5000) (k : Fin 128) :
    rowDev x (ix2 p k) = x (ix2 p k) - Cert.Spec.mean128 (fun k => x (ix2 p k)) := by
  show shapeCast S5000x128 x _ (ix2 p k) - broadcastTo S5000x128 (rowMean x) _ (ix2 p k) = _
  refine congrArg₂ (· - ·) (congrFun (shapeCast_self x _) (ix2 p k)) ?_
  exact (broadcastTo_a1_ab_apply _ _ p k).trans (rowMean_apply x p 0)

theorem rowVar_apply (x : Vec Ideal S5000x128 .f32) (p : Fin 5000) (u : Fin 1) :
    rowVar x (ix2 p u) = Cert.Spec.mean128 (fun k => (x (ix2 p k) - Cert.Spec.mean128 (fun k => x (ix2 p k)))
      * (x (ix2 p k) - Cert.Spec.mean128 (fun k => x (ix2 p k)))) := by
  show Ideal.div (shapeCast S5000x1 _ shapeCasts_S5000_S5000x1 (ix2 p u)) (Ideal.ofBits .f32 0x43000000#32) = Ideal.div _ Cert.Spec.c128
  refine congrArg (fun z => Ideal.div z (Ideal.ofBits .f32 0x43000000#32)) ?_
  refine (shapeCast_a_a1_apply _ _ p u).trans ?_
  refine (laneSum_apply _ _ _ _ _ p).trans ?_
  refine Finset.sum_congr rfl fun k _ => ?_
  show rowDev x (ix2 p k) * rowDev x (ix2 p k) = _
  rw [rowDev_apply]

theorem normed_apply (x : Vec Ideal S5000x128 .f32) (g b : Vec Ideal S128 .f32) (p : Fin 5000) (k : Fin 128) :
    normed x g b (ix2 p k) = Cert.Spec.lnRow (fun k => x (ix2 p k)) g b k := by
  show rowDev x (ix2 p k) * broadcastTo S5000x128 (rsqrt (addf (rowVar x) (broadcast S5000x1 (Scalar.ofBits .f32 0x3727C5AC#32)))) _ (ix2 p k)
      * broadcastTo S5000x128 (shapeCast S1x128 g _) _ (ix2 p k) + broadcastTo S5000x128 (shapeCast S1x128 b _) _ (ix2 p k) = _
  unfold Cert.Spec.lnRow
  refine congrArg₂ (· + ·) (congrArg₂ (· * ·) (congrArg₂ (· * ·) (rowDev_apply x p k) ?_) ?_) ?_
  · refine (broadcastTo_a1_ab_apply _ _ p k).trans ?_
    show Ideal.rsqrt (rowVar x (ix2 p 0) + Ideal.ofBits .f32 0x3727C5AC#32) = _
    rw [rowVar_apply]; rfl
  · exact (broadcastTo_1b_ab_apply _ _ p k).trans (shapeCast_a_1a_apply g _ 0 k)
  · exact (broadcastTo_1b_ab_apply _ _ p k).trans (shapeCast_a_1a_apply b _ 0 k)

theorem pay2_apply (x : Vec Ideal S5000x128 .f32) (g b : Vec Ideal S128 .f32) (acc : Vec Ideal S1x128 .f32) (q : Fin 128) :
    k7_pay2 x g b acc (ix2 (0 : Fin 1) q)
      = acc (ix2 (0 : Fin 1) q) + ∑ p : Fin 5000, Cert.Spec.lnRow (fun k => x (ix2 p k)) g b q := by
  rw [pay2_eq]
  show shapeCast S1x128 acc _ (ix2 (0 : Fin 1) q) + shapeCast S1x128 _ shapeCasts_S128_S1x128 (ix2 (0 : Fin 1) q) = _
  refine congrArg₂ (· + ·) (congrFun (shapeCast_self acc _) _) ?_
  refine (shapeCast_a_1a_apply _ _ 0 q).trans ?_
  refine (rowSum_apply _ _ _ _ _ q).trans ?_
  exact Finset.sum_congr rfl fun p _ => normed_apply x g b p q

theorem pay1_apply (i : S1x128.Idx) : k7_pay1 (F := Ideal) i = 0 :=
  Ideal.ofBits_zero_f32

end Cert.KernelIdeal.Reg7

end
-- ==== Proof.Reg7.lean ====
import proofs.«404470_j89532888252999_1_alg».proof.Proof.Gen.KernelIdeal.Frame
import proofs.«404470_j89532888252999_1_alg».proof.Proof.Spec
import proofs.«404470_j89532888252999_1_alg».proof.Proof.Reg7Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg7

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open scoped BigOperators

section Pieces
variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

theorem out_B (c : Dev nD) (i : grid7.Coords) (a1 : Memref sig .tc .vmem S5000x128 .f32) (h1 : a1.IsWhole)
    (a2 : Memref sig .tc .vmem S128 .f32) (h2 : a2.IsWhole) (a3 : Memref sig .tc .vmem S128 .f32) (h3 : a3.IsWhole)
    (a4 : Memref sig .tc .vmem S1x128 .f32) (h4 : a4.IsWhole) (hc : ¬cond7_0 i)
    (x0 : Vec F S5000x128 .f32) (x1 x2 : Vec F S128 .f32) (xo : Vec F S1x128 .f32) :
    out7_B_3 c i a1 h1 a2 h2 a3 h3 a4 h4 hc x0 x1 x2 xo = k7_pay2 x0 x1 x2 xo := by
  unfold out7_B_3
  rw [View.read_writes_eq_canon _ _ _ (cover7_B_3 c i a1 h1 a2 h2 a3 h3 a4 h4 hc x0 x1 x2 xo)]
  unfold kernelRun7_B
  dsimp only
  sl_unfold_words
  rw [View.canon_unit_zero hz2]
  simp only [View.readAt_eq_ld, h1.read_unread, h2.read_unread, h3.read_unread, h4.read_unread,
    View.ld_unit_zero (S := S5000x128) hz2, View.ld_unit_zero (S := S128) hz1, View.ld_unit_zero (S := S1x128) hz2]

theorem out_A (c : Dev nD) (i : grid7.Coords) (a1 : Memref sig .tc .vmem S5000x128 .f32) (h1 : a1.IsWhole)
    (a2 : Memref sig .tc .vmem S128 .f32) (h2 : a2.IsWhole) (a3 : Memref sig .tc .vmem S128 .f32) (h3 : a3.IsWhole)
    (a4 : Memref sig .tc .vmem S1x128 .f32) (h4 : a4.IsWhole) (hc : cond7_0 i)
    (x0 : Vec F S5000x128 .f32) (x1 x2 : Vec F S128 .f32) :
    out7_A_3 c i a1 h1 a2 h2 a3 h3 a4 h4 hc x0 x1 x2 = k7_pay2 x0 x1 x2 k7_pay1 := by
  unfold out7_A_3
  rw [View.read_writes_eq_canon _ _ _ (cover7_A_3 c i a1 h1 a2 h2 a3 h3 a4 h4 hc x0 x1 x2)]
  unfold kernelRun7_A
  dsimp only
  sl_unfold_words
  rw [View.canon_cons_unit_zero (S := S1x128) hz2, View.readCov_unit_zero (S := S1x128) _ hz2]
  simp only [View.readAt_eq_ld, h1.read_unread, h2.read_unread, h3.read_unread,
    View.ld_unit_zero (S := S5000x128) hz2, View.ld_unit_zero (S := S128) hz1, View.ld_unit_zero (S := S1x128) hz2]

end Pieces

variable (V : (c : Dev nD) → (b : Ref sig .tc) → Buf (Elt Ideal) ((c : Thread nD τ).loc b))

abbrev hA (c : Dev nD) : Cert.Spec.M 50000 128 := V c (Pipeline.arrRef spec7 0)

abbrev gA (c : Dev nD) : Cert.Spec.Vc 128 := V c (Pipeline.arrRef spec7 1)

abbrev bA (c : Dev nD) : Cert.Spec.Vc 128 := V c (Pipeline.arrRef spec7 2)

abbrev hblk (c : Dev nD) (t : Fin cfg7.N) : Vec Ideal S5000x128 .f32 := iblk7 V c 0 t
abbrev gblk (c : Dev nD) (t : Fin cfg7.N) : Vec Ideal S128 .f32 := iblk7 V c 1 t
abbrev bblk (c : Dev nD) (t : Fin cfg7.N) : Vec Ideal S128 .f32 := iblk7 V c 2 t

theorem idx_facts : ∀ t : Fin cfg7.N, win7_0.index t (0 : Fin 2) = t.val ∧ win7_0.index t (1 : Fin 2) = 0
    ∧ win7_1.index t (0 : Fin 1) = 0 ∧ win7_2.index t (0 : Fin 1) = 0
    ∧ win7_3.index t (0 : Fin 2) = 0 ∧ win7_3.index t (1 : Fin 2) = 0 ∧ t.val ≤ 9 :=
  (by decide +kernel : ∀ t : Fin grid7.N, _)

theorem row_lt (t : Fin cfg7.N) (p : Fin 5000) : t.val * 5000 + p.val < 50000 := by
  obtain ⟨-, -, -, -, -, -, h⟩ := idx_facts t
  have := p.isLt
  omega

theorem hblk_apply (c : Dev nD) (t : Fin cfg7.N) (p : Fin 5000) (k : Fin 128) :
    hblk V c t (ix2 p k) = hA V c (ix2 ⟨t.val * 5000 + p.val, row_lt t p⟩ k) := by
  obtain ⟨e0, e1, -⟩ := idx_facts t
  show hA V c (((cfg7.win 0).blk t).view.emb (ix2 p k)) = _
  refine congrArg (hA V c) (Shape.idx_ext₂ ?_ ?_)
  · show win7_0.index t (0 : Fin 2) * 5000 + 1 * p.val = t.val * 5000 + p.val
    omega
  · show win7_0.index t (1 : Fin 2) * 128 + 1 * k.val = k.val
    omega

theorem gblk_eq (c : Dev nD) (t : Fin cfg7.N) : gblk V c t = gA V c := by
  obtain ⟨-, -, e2, -⟩ := idx_facts t
  funext j
  obtain ⟨q, rfl⟩ : ∃ q : Fin 128, j = ix1 q := ⟨j 0, eq_ix1 j⟩
  show gA V c (((cfg7.win 1).blk t).view.emb (ix1 q)) = _
  refine congrArg (gA V c) (funext fun a => Fin.ext ?_)
  match a with
  | ⟨0, _⟩ =>
    show win7_1.index t (0 : Fin 1) * 128 + 1 * q.val = q.val
    omega

theorem bblk_eq (c : Dev nD) (t : Fin cfg7.N) : bblk V c t = bA V c := by
  obtain ⟨-, -, -, e3, -⟩ := idx_facts t
  funext j
  obtain ⟨q, rfl⟩ : ∃ q : Fin 128, j = ix1 q := ⟨j 0, eq_ix1 j⟩
  show bA V c (((cfg7.win 2).blk t).view.emb (ix1 q)) = _
  refine congrArg (bA V c) (funext fun a => Fin.ext ?_)
  match a with
  | ⟨0, _⟩ =>
    show win7_2.index t (0 : Fin 1) * 128 + 1 * q.val = q.val
    omega

abbrev nodeLn (c : Dev nD) (q : Fin 128) (r : Fin 50000) : EReal :=
  Cert.Spec.lnRow (fun k => hA V c (ix2 r k)) (gA V c) (bA V c) q

def blockSum (c : Dev nD) (t : Fin cfg7.N) (q : Fin 128) : EReal :=
  ∑ p : Fin 5000, nodeLn V c q ⟨t.val * 5000 + p.val, row_lt t p⟩

theorem blockSum_eq (c : Dev nD) (t : Fin cfg7.N) (q : Fin 128) :
    ∑ p : Fin 5000, Cert.Spec.lnRow (fun k => hblk V c t (ix2 p k)) (gblk V c t) (bblk V c t) q = blockSum V c t q := by
  rw [gblk_eq V c t, bblk_eq V c t]
  exact Finset.sum_congr rfl fun p _ =>
    congrArg (fun v => Cert.Spec.lnRow v (gA V c) (bA V c) q) (funext fun k => hblk_apply V c t p k)

theorem point_first (c : Dev nD) (t : Fin cfg7.N) (h0 : t.val % 10 = 0) (q : Fin 128) :
    (outsAt7 V c t.val t.isLt : Vec Ideal S1x128 .f32) (ix2 (0 : Fin 1) q) = blockSum V c t q := by
  rw [outsAt7_A V c t h0]
  refine (congrFun (out_A (F := Ideal) c (grid7.coords t) (ms7_0 t) (hs7_0 t) (ms7_1 t) (hs7_1 t) (ms7_2 t) (hs7_2 t)
    (ms7_3 t) (hs7_3 t) ((hcond7_0 t).mpr h0) (hblk V c t) (gblk V c t) (bblk V c t)) (ix2 (0 : Fin 1) q)).trans ?_
  refine (pay2_apply (hblk V c t) (gblk V c t) (bblk V c t) (k7_pay1 (F := Ideal)) q).trans ?_
  rw [pay1_apply, zero_add]
  exact blockSum_eq V c t q

theorem point_next (c : Dev nD) (t : Fin cfg7.N) (h0 : ¬t.val % 10 = 0) (q : Fin 128) :
    (outsAt7 V c t.val t.isLt : Vec Ideal S1x128 .f32) (ix2 (0 : Fin 1) q)
      = (outsAt7 V c (t.val - 1) (Nat.lt_of_le_of_lt (Nat.sub_le _ _) t.isLt) : Vec Ideal S1x128 .f32) (ix2 (0 : Fin 1) q)
        + blockSum V c t q := by
  rw [outsAt7_B V c t h0]
  refine (congrFun (out_B (F := Ideal) c (grid7.coords t) (ms7_0 t) (hs7_0 t) (ms7_1 t) (hs7_1 t) (ms7_2 t) (hs7_2 t)
    (ms7_3 t) (hs7_3 t) (fun h => h0 ((hcond7_0 t).mp h)) (hblk V c t) (gblk V c t) (bblk V c t)
    (outsAt7 V c (t.val - 1) (Nat.lt_of_le_of_lt (Nat.sub_le _ _) t.isLt))) (ix2 (0 : Fin 1) q)).trans ?_
  refine (pay2_apply (hblk V c t) (gblk V c t) (bblk V c t)
    (outsAt7 V c (t.val - 1) (Nat.lt_of_le_of_lt (Nat.sub_le _ _) t.isLt)) q).trans ?_
  exact congrArg₂ (· + ·) rfl (blockSum_eq V c t q)

theorem outsAt_apply (c : Dev nD) : ∀ (n : ℕ) (hn : n < cfg7.N) (q : Fin 128),
    (outsAt7 V c n hn : Vec Ideal S1x128 .f32) (ix2 (0 : Fin 1) q)
      = ∑ s : Fin (n + 1), blockSum V c ⟨s.val, Nat.lt_of_lt_of_le s.isLt (Nat.succ_le_of_lt hn)⟩ q
  | 0, hn, q => (point_first V c ⟨0, hn⟩ rfl q).trans
      (Fin.sum_univ_one (fun s : Fin 1 => blockSum V c ⟨s.val, Nat.lt_of_lt_of_le s.isLt (Nat.succ_le_of_lt hn)⟩ q)).symm
  | n + 1, hn, q => by
    have hN : cfg7.N = 10 := N_7
    have hB : ¬(⟨n + 1, hn⟩ : Fin cfg7.N).val % 10 = 0 := by dsimp only; omega
    refine (point_next V c ⟨n + 1, hn⟩ hB q).trans ?_
    rw [Fin.sum_univ_castSucc]
    exact congrArg₂ (· + ·) (outsAt_apply c n (Nat.lt_of_succ_lt hn) q) rfl

theorem sum_blocks (f : Fin 50000 → EReal) (hb : ∀ (t : Fin 10) (p : Fin 5000), t.val * 5000 + p.val < 50000) :
    ∑ t : Fin 10, ∑ p : Fin 5000, f ⟨t.val * 5000 + p.val, hb t p⟩ = ∑ r : Fin 50000, f r := by
  refine (Fintype.sum_prod_type' (fun (t : Fin 10) (p : Fin 5000) => f ⟨t.val * 5000 + p.val, hb t p⟩)).symm.trans ?_
  refine (Finset.sum_congr rfl fun x _ => ?_).trans (Equiv.sum_comp (finProdFinEquiv (m := 10) (n := 5000)) f)
  refine congrArg f (Fin.ext ?_)
  rw [finProdFinEquiv_apply_val]
  show x.1.val * 5000 + x.2.val = x.2.val + 5000 * x.1.val
  omega

def sumA (c : Dev nD) : Cert.Spec.M 1 128 :=
  Cert.Spec.mk2 (fun _ j => ∑ r : Fin 50000, Cert.Spec.lnRow (fun k => hA V c (ix2 r k)) (gA V c) (bA V c) j)

theorem sumA_def (c : Dev nD) : sumA V c
    = Cert.Spec.mk2 (fun _ j => ∑ r : Fin 50000, Cert.Spec.lnRow (fun k => hA V c (ValueIdx.ix2 r k)) (gA V c) (bA V c) j) := rfl

theorem sumA_apply (c : Dev nD) (p : Fin 1) (q : Fin 128) : sumA V c (ix2 p q) = ∑ r : Fin 50000, nodeLn V c q r := rfl

attribute [irreducible] sumA

theorem last_eq (c : Dev nD) (h9 : 9 < cfg7.N) : (outsAt7 V c 9 h9 : Cert.Spec.M 1 128) = sumA V c := by
  refine Cert.Spec.ext2 (a := 1) (b := 128) fun r q => ?_
  obtain rfl : r = 0 := Subsingleton.elim _ _
  refine (outsAt_apply V c 9 h9 q).trans ?_
  refine Eq.trans ?_ (sumA_apply V c 0 q).symm
  exact sum_blocks (nodeLn V c q) (fun t p => by have := t.isLt; have := p.isLt; omega)

theorem outsAt_congr (c : Dev nD) {n m : ℕ} (hn : n < cfg7.N) (hm : m < cfg7.N) (e : n = m) :
    outsAt7 V c n hn = outsAt7 V c m hm := by
  subst e; rfl

theorem last_eq_at (c : Dev nD) (t : Fin cfg7.N) (h9 : t.val = 9) :
    (outsAt7 V c t.val t.isLt : Cert.Spec.M 1 128) = sumA V c :=
  (outsAt_congr V c t.isLt (h9 ▸ t.isLt) h9).trans (last_eq V c (h9 ▸ t.isLt))

theorem out_emb (t : Fin cfg7.N) (p : Fin 1) (q : Fin 128) :
    (((cfg7.win 3).blk t).view.emb (ix2 p q) : S1x128.Idx) = ix2 p q := by
  obtain ⟨-, -, -, -, e4, e5, -⟩ := idx_facts t
  refine Shape.idx_ext₂ ?_ ?_
  · show win7_3.index t (0 : Fin 2) * 1 + 1 * p.val = p.val
    omega
  · show win7_3.index t (1 : Fin 2) * 128 + 1 * q.val = q.val
    omega

theorem flushed_eq (c : Dev nD) (t : Fin cfg7.N) (hf : (cfg7.win 3).flush t = true) :
    (dat7 (F := Ideal) V c).flushed 3 t = ((cfg7.win 3).blk t).view.read (Elt Ideal) (sumA V c) := by
  have h9 : t.val = 9 := by
    have h := (flush7_3 t).mp hf
    obtain ⟨-, -, -, -, -, -, hle⟩ := idx_facts t
    omega
  show (cfg7.win 3).cut (grid7.coords t) ((dat7 V c).after 3 t) = _
  rw [after7_3]
  refine Cert.Spec.ext2 (a := 1) (b := 128) fun p q => ?_
  show (outsAt7 V c t.val t.isLt : Cert.Spec.M 1 128) (ix2 p q) = sumA V c (((cfg7.win 3).blk t).view.emb (ix2 p q))
  refine Eq.trans ?_ (congrArg (sumA V c) (out_emb t p q)).symm
  exact congrFun (last_eq_at V c t h9) (ix2 p q)

theorem mem_blk (t : Fin cfg7.N) (i : S1x128.Idx) :
    i ∈ ((cfg7.win 3).blk t).view.set ↔ ∀ a : Fin 2, win7_3.index t a * S1x128.size a ≤ (i a).val ∧ (i a).val < win7_3.index t a * S1x128.size a + S1x128.size a := by
  show i ∈ ((View.whole main_v78).slice (win7_3.rect t)).set ↔ _
  rw [View.set_slice_whole, Rect.mem_set_unit]
  exact Iff.rfl

theorem cover (i : S1x128.Idx) : ∃ t : Fin cfg7.N, (cfg7.win 3).flush t = true ∧ i ∈ ((cfg7.win 3).blk t).view.set := by
  have hi0 : (i 0).val < 1 := (i 0).isLt
  have hi1 : (i 1).val < 128 := (i 1).isLt
  obtain ⟨t, ht⟩ : ∃ t : Fin cfg7.N, t.val = 9 := ⟨t7_9, rfl⟩
  obtain ⟨-, -, -, -, e4, e5, -⟩ := idx_facts t
  refine ⟨t, (flush7_3 t).mpr (by omega), ?_⟩
  rw [mem_blk]
  intro a
  match a with
  | ⟨0, _⟩ => show win7_3.index t (0 : Fin 2) * 1 ≤ (i 0).val ∧ (i 0).val < win7_3.index t (0 : Fin 2) * 1 + 1; omega
  | ⟨1, _⟩ => show win7_3.index t (1 : Fin 2) * 128 ≤ (i 1).val ∧ (i 1).val < win7_3.index t (1 : Fin 2) * 128 + 128; omega

theorem value (c : Dev nD) :
    ((dat7 (F := Ideal) V c).arrAt 3 cfg7.N : Cert.Spec.M 1 128)
      = Cert.Spec.mk2 (fun _ j => ∑ r : Fin 50000, Cert.Spec.lnRow (fun k => hA V c (ValueIdx.ix2 r k)) (gA V c) (bA V c) j) :=
  ((dat7 V c).arrAt_eq_of_cover 3 (sumA V c) (fun t hf => flushed_eq V c t hf) cover).trans (sumA_def V c)

end Cert.KernelIdeal.Reg7

end
-- ==== Proof.ChainK.lean ====
import proofs.«404470_j89532888252999_1_alg».proof.Proof.Gen.KernelIdeal.Frame
import proofs.«404470_j89532888252999_1_alg».proof.Proof.Net
import proofs.«404470_j89532888252999_1_alg».proof.Proof.ChainK0
import proofs.«404470_j89532888252999_1_alg».proof.Proof.ChainK1
import proofs.«404470_j89532888252999_1_alg».proof.Proof.ChainK2
import proofs.«404470_j89532888252999_1_alg».proof.Proof.Reg0
import proofs.«404470_j89532888252999_1_alg».proof.Proof.Reg1
import proofs.«404470_j89532888252999_1_alg».proof.Proof.Reg2
import proofs.«404470_j89532888252999_1_alg».proof.Proof.Reg3
import proofs.«404470_j89532888252999_1_alg».proof.Proof.Reg4
import proofs.«404470_j89532888252999_1_alg».proof.Proof.Reg5
import proofs.«404470_j89532888252999_1_alg».proof.Proof.Reg6
import proofs.«404470_j89532888252999_1_alg».proof.Proof.Reg7
import Idealize.ShloMosaic.Lib.ValueIdx

set_option maxRecDepth 16384

noncomputable section

namespace Cert.KernelIdeal.ChainK

open Cert.KernelIdeal Cert.KernelIdeal.Gen Cert.KernelIdeal.TakeK
open Idealize.ShloMosaic Idealize.ShloMosaic.TcCoe Idealize.ShloMosaic.StableHlo Idealize.ShloMosaic.ValueIdx
open scoped BigOperators

variable (m : (ℓ : Loc nD τ sig) → Buf (Elt Ideal) ℓ) (ρ : Dev nD → PrngReg)

abbrev gathI : Cert.Spec.M 50000 128 → Cert.Spec.IdxV → Cert.Spec.M 400000 128 := fun h idx => gathK (F := Ideal) h idx

abbrev scatI : Cert.Spec.IdxV → Cert.Spec.M 400000 128 → Cert.Spec.M 50000 128 := fun idx u =>
  Host.scatterAdd scatter_S50000x128_S400000x1_S400000x128_1_0_0_1
    (broadcastInDim S50000x128 ![] bcast_S_S50000x128 (constant (F := Ideal) S_ .f32 0x00000000#32))
    (broadcastInDim S400000x1 ![0] bcast_S400000_S400000x1_0 idx) u

def iiK (c : Dev nD) : Cert.Spec.IdxV := rowI (m ((c : Thread nD τ).loc main_arg2) : IVec S2x400000 32)

def jjK (c : Dev nD) : Cert.Spec.IdxV := rowJ (m ((c : Thread nD τ).loc main_arg2) : IVec S2x400000 32)

def pWK (c : Dev nD) : Cert.Spec.M 128 128 := truncf (F := Ideal) .bf16 (m ((c : Thread nD τ).loc main_arg3) : FVec Ideal S128x128 .f32) bitsLt_bf16_f32

def wK0 (c : Dev nD) : Cert.Spec.LayerW :=
  layerAt 0 slices_S3x272x128_S1x272x128_0_0_0 slices_S3x128_S1x128_0_0 slices_S3x128x128_S1x128x128_0_0_0 slices_S3x256x128_S1x256x128_0_0_0
    (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
def wK1 (c : Dev nD) : Cert.Spec.LayerW :=
  layerAt 1 slices_S3x272x128_S1x272x128_1_0_0 slices_S3x128_S1x128_1_0 slices_S3x128x128_S1x128x128_1_0_0 slices_S3x256x128_S1x256x128_1_0_0
    (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
def wK2 (c : Dev nD) : Cert.Spec.LayerW :=
  layerAt 2 slices_S3x272x128_S1x272x128_2_0_0 slices_S3x128_S1x128_2_0 slices_S3x128x128_S1x128x128_2_0_0 slices_S3x256x128_S1x256x128_2_0_0
    (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

def hK0 (c : Dev nD) : Cert.Spec.M 50000 128 :=
  Cert.Spec.mk2 (Cert.Spec.projS (m ((c : Thread nD τ).loc main_arg0)) (pWK m c) (m ((c : Thread nD τ).loc main_arg4)))

def hK1 (c : Dev nD) : Cert.Spec.M 50000 128 :=
  Cert.Spec.layer gathI scatI (iiK m c) (jjK m c) (m ((c : Thread nD τ).loc main_arg1)) (wK0 m c) (hK0 m c)

def hK2 (c : Dev nD) : Cert.Spec.M 50000 128 :=
  Cert.Spec.layer gathI scatI (iiK m c) (jjK m c) (m ((c : Thread nD τ).loc main_arg1)) (wK1 m c) (hK1 m c)

def hK3 (c : Dev nD) : Cert.Spec.M 50000 128 :=
  Cert.Spec.layer gathI scatI (iiK m c) (jjK m c) (m ((c : Thread nD τ).loc main_arg1)) (wK2 m c) (hK2 m c)

abbrev HIn (m : (ℓ : Loc nD τ sig) → Buf (Elt Ideal) ℓ) (c : Dev nD) : Prop :=
  InRange (rowI (m ((c : Thread nD τ).loc main_arg2) : IVec S2x400000 32)) ∧ InRange (rowJ (m ((c : Thread nD τ).loc main_arg2) : IVec S2x400000 32))

theorem proj_congr {x x' : Cert.Spec.M 50000 128} {W W' : Cert.Spec.M 128 128} {b b' : Cert.Spec.Vc 128}
    (h0 : x = x') (h1 : W = W') (h2 : b = b') :
    Cert.Spec.mk2 (Cert.Spec.projS x W b) = Cert.Spec.mk2 (Cert.Spec.projS x' W' b') := by subst h0 h1 h2; rfl

theorem msg_congr {hi hi' hj hj' : Cert.Spec.M 400000 128} {ea ea' : Cert.Spec.M 400000 16} {W1 W1' : Cert.Spec.M 272 128}
    {b1 b1' : Cert.Spec.Vc 128} {W2 W2' : Cert.Spec.M 128 128} {b2 b2' : Cert.Spec.Vc 128}
    (h0 : hi = hi') (h1 : hj = hj') (h2 : ea = ea') (h3 : W1 = W1') (h4 : b1 = b1') (h5 : W2 = W2') (h6 : b2 = b2') :
    Cert.Spec.mk2 (Cert.Spec.msgS hi hj ea W1 b1 W2 b2) = Cert.Spec.mk2 (Cert.Spec.msgS hi' hj' ea' W1' b1' W2' b2') := by
  subst h0 h1 h2 h3 h4 h5 h6; rfl

theorem upd_congr {h h' agg agg' : Cert.Spec.M 50000 128} {U U' : Cert.Spec.M 256 128} {ub ub' g g' beta beta' : Cert.Spec.Vc 128}
    (h0 : h = h') (h1 : agg = agg') (h2 : U = U') (h3 : ub = ub') (h4 : g = g') (h5 : beta = beta') :
    Cert.Spec.mk2 (Cert.Spec.updS h agg U ub g beta) = Cert.Spec.mk2 (Cert.Spec.updS h' agg' U' ub' g' beta') := by
  subst h0 h1 h2 h3 h4 h5; rfl

theorem fin_congr {h h' : Cert.Spec.M 50000 128} {g g' b b' : Cert.Spec.Vc 128} (h0 : h = h') (h1 : g = g') (h2 : b = b') :
    (Cert.Spec.mk2 (fun _ j => ∑ r : Fin 50000, Cert.Spec.lnRow (fun k => h (ValueIdx.ix2 r k)) g b j) : Cert.Spec.M 1 128)
      = Cert.Spec.mk2 (fun _ j => ∑ r : Fin 50000, Cert.Spec.lnRow (fun k => h' (ValueIdx.ix2 r k)) g' b' j) := by
  subst h0 h1 h2; rfl

theorem reg0_keep (c : Dev nD) (b : Ref sig .tc) (hb : b ≠ main_v8) :
    W2 m ρ c (Proc.devRef .tc b) = W1 m ρ c (Proc.devRef .tc b) := by
  have key : ∀ w : Fin cfg0.W, Pipeline.arrRef spec0 w ≠ main_v8 → (cfg0.win w).isOut = false := by decide
  by_cases h : ∀ w, Pipeline.arrRef spec0 w ≠ b
  · exact W2_of_ne m ρ c b h
  · obtain ⟨w, hw⟩ := not_forall.mp h
    obtain rfl : Pipeline.arrRef spec0 w = b := not_not.mp hw
    exact (W2_arr m ρ c w).trans (((dat0 (V1 m ρ) c).arrAt_in w (key w hb) _).trans (A_eq0 (V1 m ρ) c w))

theorem reg1_keep (c : Dev nD) (b : Ref sig .tc) (hb : b ≠ main_v19) :
    W6 m ρ c (Proc.devRef .tc b) = W5 m ρ c (Proc.devRef .tc b) := by
  have key : ∀ w : Fin cfg1.W, Pipeline.arrRef spec1 w ≠ main_v19 → (cfg1.win w).isOut = false := by decide
  by_cases h : ∀ w, Pipeline.arrRef spec1 w ≠ b
  · exact W6_of_ne m ρ c b h
  · obtain ⟨w, hw⟩ := not_forall.mp h
    obtain rfl : Pipeline.arrRef spec1 w = b := not_not.mp hw
    exact (W6_arr m ρ c w).trans (((dat1 (V5 m ρ) c).arrAt_in w (key w hb) _).trans (A_eq1 (V5 m ρ) c w))

theorem reg2_keep (c : Dev nD) (b : Ref sig .tc) (hb : b ≠ main_v31) :
    W8 m ρ c (Proc.devRef .tc b) = W7 m ρ c (Proc.devRef .tc b) := by
  have key : ∀ w : Fin cfg2.W, Pipeline.arrRef spec2 w ≠ main_v31 → (cfg2.win w).isOut = false := by decide
  by_cases h : ∀ w, Pipeline.arrRef spec2 w ≠ b
  · exact W8_of_ne m ρ c b h
  · obtain ⟨w, hw⟩ := not_forall.mp h
    obtain rfl : Pipeline.arrRef spec2 w = b := not_not.mp hw
    exact (W8_arr m ρ c w).trans (((dat2 (V7 m ρ) c).arrAt_in w (key w hb) _).trans (A_eq2 (V7 m ρ) c w))

theorem reg3_keep (c : Dev nD) (b : Ref sig .tc) (hb : b ≠ main_v42) :
    W12 m ρ c (Proc.devRef .tc b) = W11 m ρ c (Proc.devRef .tc b) := by
  have key : ∀ w : Fin cfg3.W, Pipeline.arrRef spec3 w ≠ main_v42 → (cfg3.win w).isOut = false := by decide
  by_cases h : ∀ w, Pipeline.arrRef spec3 w ≠ b
  · exact W12_of_ne m ρ c b h
  · obtain ⟨w, hw⟩ := not_forall.mp h
    obtain rfl : Pipeline.arrRef spec3 w = b := not_not.mp hw
    exact (W12_arr m ρ c w).trans (((dat3 (V11 m ρ) c).arrAt_in w (key w hb) _).trans (A_eq3 (V11 m ρ) c w))

theorem reg4_keep (c : Dev nD) (b : Ref sig .tc) (hb : b ≠ main_v54) :
    W14 m ρ c (Proc.devRef .tc b) = W13 m ρ c (Proc.devRef .tc b) := by
  have key : ∀ w : Fin cfg4.W, Pipeline.arrRef spec4 w ≠ main_v54 → (cfg4.win w).isOut = false := by decide
  by_cases h : ∀ w, Pipeline.arrRef spec4 w ≠ b
  · exact W14_of_ne m ρ c b h
  · obtain ⟨w, hw⟩ := not_forall.mp h
    obtain rfl : Pipeline.arrRef spec4 w = b := not_not.mp hw
    exact (W14_arr m ρ c w).trans (((dat4 (V13 m ρ) c).arrAt_in w (key w hb) _).trans (A_eq4 (V13 m ρ) c w))

theorem reg5_keep (c : Dev nD) (b : Ref sig .tc) (hb : b ≠ main_v65) :
    W18 m ρ c (Proc.devRef .tc b) = W17 m ρ c (Proc.devRef .tc b) := by
  have key : ∀ w : Fin cfg5.W, Pipeline.arrRef spec5 w ≠ main_v65 → (cfg5.win w).isOut = false := by decide
  by_cases h : ∀ w, Pipeline.arrRef spec5 w ≠ b
  · exact W18_of_ne m ρ c b h
  · obtain ⟨w, hw⟩ := not_forall.mp h
    obtain rfl : Pipeline.arrRef spec5 w = b := not_not.mp hw
    exact (W18_arr m ρ c w).trans (((dat5 (V17 m ρ) c).arrAt_in w (key w hb) _).trans (A_eq5 (V17 m ρ) c w))

theorem reg6_keep (c : Dev nD) (b : Ref sig .tc) (hb : b ≠ main_v77) :
    W20 m ρ c (Proc.devRef .tc b) = W19 m ρ c (Proc.devRef .tc b) := by
  have key : ∀ w : Fin cfg6.W, Pipeline.arrRef spec6 w ≠ main_v77 → (cfg6.win w).isOut = false := by decide
  by_cases h : ∀ w, Pipeline.arrRef spec6 w ≠ b
  · exact W20_of_ne m ρ c b h
  · obtain ⟨w, hw⟩ := not_forall.mp h
    obtain rfl : Pipeline.arrRef spec6 w = b := not_not.mp hw
    exact (W20_arr m ρ c w).trans (((dat6 (V19 m ρ) c).arrAt_in w (key w hb) _).trans (A_eq6 (V19 m ρ) c w))

noncomputable def L2 : List (Ref sig .tc) := [main_v8]
noncomputable def L3 : List (Ref sig .tc) := wl1 ++ L2
noncomputable def L4 : List (Ref sig .tc) := wl1_1 ++ L3
noncomputable def L5 : List (Ref sig .tc) := wl1_2 ++ L4
noncomputable def L6 : List (Ref sig .tc) := main_v19 :: L5
noncomputable def L7 : List (Ref sig .tc) := wl2 ++ L6
noncomputable def L8 : List (Ref sig .tc) := main_v31 :: L7
noncomputable def L9 : List (Ref sig .tc) := wl3 ++ L8
noncomputable def L10 : List (Ref sig .tc) := wl3_1 ++ L9
noncomputable def L11 : List (Ref sig .tc) := wl3_2 ++ L10
noncomputable def L12 : List (Ref sig .tc) := main_v42 :: L11
noncomputable def L13 : List (Ref sig .tc) := wl4 ++ L12
noncomputable def L14 : List (Ref sig .tc) := main_v54 :: L13
noncomputable def L15 : List (Ref sig .tc) := wl5 ++ L14
noncomputable def L16 : List (Ref sig .tc) := wl5_1 ++ L15
noncomputable def L17 : List (Ref sig .tc) := wl5_2 ++ L16
noncomputable def L18 : List (Ref sig .tc) := main_v65 :: L17
noncomputable def L19 : List (Ref sig .tc) := wl6 ++ L18
noncomputable def L20 : List (Ref sig .tc) := main_v77 :: L19

theorem K2 (c : Dev nD) (b : Ref sig .tc) (h : b ∉ L2) : W2 m ρ c (Proc.devRef .tc b) = W1 m ρ c (Proc.devRef .tc b) :=
  reg0_keep m ρ c b fun e => h (by subst e; decide)
theorem K3 (c : Dev nD) (b : Ref sig .tc) (h : b ∉ L3) : W3 m ρ c (Proc.devRef .tc b) = W1 m ρ c (Proc.devRef .tc b) :=
  (keep1 (W2 m ρ c) b fun hm => h (List.mem_append_left _ hm)).trans (K2 m ρ c b fun hm => h (List.mem_append_right _ hm))
theorem K4 (c : Dev nD) (b : Ref sig .tc) (h : b ∉ L4) : W4 m ρ c (Proc.devRef .tc b) = W1 m ρ c (Proc.devRef .tc b) :=
  (keep1_1 (W3 m ρ c) b fun hm => h (List.mem_append_left _ hm)).trans (K3 m ρ c b fun hm => h (List.mem_append_right _ hm))
theorem K5 (c : Dev nD) (b : Ref sig .tc) (h : b ∉ L5) : W5 m ρ c (Proc.devRef .tc b) = W1 m ρ c (Proc.devRef .tc b) :=
  (keep1_2 (W4 m ρ c) b fun hm => h (List.mem_append_left _ hm)).trans (K4 m ρ c b fun hm => h (List.mem_append_right _ hm))
theorem K6 (c : Dev nD) (b : Ref sig .tc) (h : b ∉ L6) : W6 m ρ c (Proc.devRef .tc b) = W1 m ρ c (Proc.devRef .tc b) :=
  (reg1_keep m ρ c b fun e => h (by subst e; decide)).trans (K5 m ρ c b fun hm => h (List.mem_cons_of_mem _ hm))
theorem K7 (c : Dev nD) (b : Ref sig .tc) (h : b ∉ L7) : W7 m ρ c (Proc.devRef .tc b) = W1 m ρ c (Proc.devRef .tc b) :=
  (keep2 (W6 m ρ c) b fun hm => h (List.mem_append_left _ hm)).trans (K6 m ρ c b fun hm => h (List.mem_append_right _ hm))
theorem K8 (c : Dev nD) (b : Ref sig .tc) (h : b ∉ L8) : W8 m ρ c (Proc.devRef .tc b) = W1 m ρ c (Proc.devRef .tc b) :=
  (reg2_keep m ρ c b fun e => h (by subst e; decide)).trans (K7 m ρ c b fun hm => h (List.mem_cons_of_mem _ hm))
theorem K9 (c : Dev nD) (b : Ref sig .tc) (h : b ∉ L9) : W9 m ρ c (Proc.devRef .tc b) = W1 m ρ c (Proc.devRef .tc b) :=
  (keep3 (W8 m ρ c) b fun hm => h (List.mem_append_left _ hm)).trans (K8 m ρ c b fun hm => h (List.mem_append_right _ hm))
theorem K10 (c : Dev nD) (b : Ref sig .tc) (h : b ∉ L10) : W10 m ρ c (Proc.devRef .tc b) = W1 m ρ c (Proc.devRef .tc b) :=
  (keep3_1 (W9 m ρ c) b fun hm => h (List.mem_append_left _ hm)).trans (K9 m ρ c b fun hm => h (List.mem_append_right _ hm))
theorem K11 (c : Dev nD) (b : Ref sig .tc) (h : b ∉ L11) : W11 m ρ c (Proc.devRef .tc b) = W1 m ρ c (Proc.devRef .tc b) :=
  (keep3_2 (W10 m ρ c) b fun hm => h (List.mem_append_left _ hm)).trans (K10 m ρ c b fun hm => h (List.mem_append_right _ hm))
theorem K12 (c : Dev nD) (b : Ref sig .tc) (h : b ∉ L12) : W12 m ρ c (Proc.devRef .tc b) = W1 m ρ c (Proc.devRef .tc b) :=
  (reg3_keep m ρ c b fun e => h (by subst e; decide)).trans (K11 m ρ c b fun hm => h (List.mem_cons_of_mem _ hm))
theorem K13 (c : Dev nD) (b : Ref sig .tc) (h : b ∉ L13) : W13 m ρ c (Proc.devRef .tc b) = W1 m ρ c (Proc.devRef .tc b) :=
  (keep4 (W12 m ρ c) b fun hm => h (List.mem_append_left _ hm)).trans (K12 m ρ c b fun hm => h (List.mem_append_right _ hm))
theorem K14 (c : Dev nD) (b : Ref sig .tc) (h : b ∉ L14) : W14 m ρ c (Proc.devRef .tc b) = W1 m ρ c (Proc.devRef .tc b) :=
  (reg4_keep m ρ c b fun e => h (by subst e; decide)).trans (K13 m ρ c b fun hm => h (List.mem_cons_of_mem _ hm))
theorem K15 (c : Dev nD) (b : Ref sig .tc) (h : b ∉ L15) : W15 m ρ c (Proc.devRef .tc b) = W1 m ρ c (Proc.devRef .tc b) :=
  (keep5 (W14 m ρ c) b fun hm => h (List.mem_append_left _ hm)).trans (K14 m ρ c b fun hm => h (List.mem_append_right _ hm))
theorem K16 (c : Dev nD) (b : Ref sig .tc) (h : b ∉ L16) : W16 m ρ c (Proc.devRef .tc b) = W1 m ρ c (Proc.devRef .tc b) :=
  (keep5_1 (W15 m ρ c) b fun hm => h (List.mem_append_left _ hm)).trans (K15 m ρ c b fun hm => h (List.mem_append_right _ hm))
theorem K17 (c : Dev nD) (b : Ref sig .tc) (h : b ∉ L17) : W17 m ρ c (Proc.devRef .tc b) = W1 m ρ c (Proc.devRef .tc b) :=
  (keep5_2 (W16 m ρ c) b fun hm => h (List.mem_append_left _ hm)).trans (K16 m ρ c b fun hm => h (List.mem_append_right _ hm))
theorem K18 (c : Dev nD) (b : Ref sig .tc) (h : b ∉ L18) : W18 m ρ c (Proc.devRef .tc b) = W1 m ρ c (Proc.devRef .tc b) :=
  (reg5_keep m ρ c b fun e => h (by subst e; decide)).trans (K17 m ρ c b fun hm => h (List.mem_cons_of_mem _ hm))
theorem K19 (c : Dev nD) (b : Ref sig .tc) (h : b ∉ L19) : W19 m ρ c (Proc.devRef .tc b) = W1 m ρ c (Proc.devRef .tc b) :=
  (keep6 (W18 m ρ c) b fun hm => h (List.mem_append_left _ hm)).trans (K18 m ρ c b fun hm => h (List.mem_append_right _ hm))
theorem K20 (c : Dev nD) (b : Ref sig .tc) (h : b ∉ L20) : W20 m ρ c (Proc.devRef .tc b) = W1 m ρ c (Proc.devRef .tc b) :=
  (reg6_keep m ρ c b fun e => h (by subst e; decide)).trans (K19 m ρ c b fun hm => h (List.mem_cons_of_mem _ hm))

theorem W1_arg (c : Dev nD) (b : Ref sig .tc) (h : b ∉ wl0) :
    W1 m ρ c (Proc.devRef .tc b) = m ((c : Thread nD τ).loc b) :=
  (keep0 (W0 m ρ c) b h).trans rfl

theorem W1_ii (c : Dev nD) : W1 m ρ c (Proc.devRef .tc main_v1) = iiK m c := read0_ii (W0 m ρ c)
theorem W1_jj (c : Dev nD) : W1 m ρ c (Proc.devRef .tc main_v3) = jjK m c := read0_jj (W0 m ρ c)
theorem W1_pW (c : Dev nD) : W1 m ρ c (Proc.devRef .tc main_v4) = pWK m c := read0_pW (W0 m ρ c)
theorem W1_c5 (c : Dev nD) :
    (W1 m ρ c (Proc.devRef .tc main_v5) : FVec Ideal S3x272x128 .bf16) = truncf (F := Ideal) .bf16 (m ((c : Thread nD τ).loc main_arg5) : FVec Ideal S3x272x128 .f32) bitsLt_bf16_f32 :=
  read0_c5 (W0 m ρ c)
theorem W1_c6 (c : Dev nD) :
    (W1 m ρ c (Proc.devRef .tc main_v6) : FVec Ideal S3x128x128 .bf16) = truncf (F := Ideal) .bf16 (m ((c : Thread nD τ).loc main_arg7) : FVec Ideal S3x128x128 .f32) bitsLt_bf16_f32 :=
  read0_c6 (W0 m ρ c)
theorem W1_c7 (c : Dev nD) :
    (W1 m ρ c (Proc.devRef .tc main_v7) : FVec Ideal S3x256x128 .bf16) = truncf (F := Ideal) .bf16 (m ((c : Thread nD τ).loc main_arg9) : FVec Ideal S3x256x128 .f32) bitsLt_bf16_f32 :=
  read0_c7 (W0 m ρ c)

theorem val_h0 (c : Dev nD) (hin : HIn m c) : W2 m ρ c (Proc.devRef .tc main_v8) = hK0 m c :=
  (W2_arr m ρ c 3).trans <| (Reg0.value (V1 m ρ) c).trans <|
  proj_congr (W1_arg m ρ c main_arg0 (by decide)) (W1_pW m ρ c) (W1_arg m ρ c main_arg4 (by decide))

theorem take1_of (X : Valuation τ sig (Elt Ideal)) {h : FVec Ideal S50000x128 .f32} {idx : IVec S400000 32}
    (hh : X (Proc.devRef .tc main_v8) = h) (hi : X (Proc.devRef .tc main_v1) = idx) :
    after hostOps1 X (Proc.devRef .tc main_v9) = takeK (F := Ideal) h idx := by subst hh hi; exact read1 X
theorem take1_1_of (X : Valuation τ sig (Elt Ideal)) {h : FVec Ideal S50000x128 .f32} {idx : IVec S400000 32}
    (hh : X (Proc.devRef .tc main_v8) = h) (hi : X (Proc.devRef .tc main_v3) = idx) :
    after hostOps1_1 X (Proc.devRef .tc main_v10) = takeK (F := Ideal) h idx := by subst hh hi; exact read1_1 X

theorem src0 (c : Dev nD) (hin : HIn m c) :
    W5 m ρ c (Proc.devRef .tc main_v9) = gathI (hK0 m c) (iiK m c) :=
  (keep1_2 (W4 m ρ c) main_v9 (by decide)).trans <|
  (keep1_1 (W3 m ρ c) main_v9 (by decide)).trans <|
  (take1_of (W2 m ρ c) (val_h0 m ρ c hin)
    ((K2 m ρ c main_v1 (by decide)).trans (W1_ii m ρ c))).trans
  (takeK_eq_gathK _ _ hin.1)

theorem tgt0 (c : Dev nD) (hin : HIn m c) :
    W5 m ρ c (Proc.devRef .tc main_v10) = gathI (hK0 m c) (jjK m c) :=
  (keep1_2 (W4 m ρ c) main_v10 (by decide)).trans <|
  (take1_1_of (W3 m ρ c) ((keep1 (W2 m ρ c) main_v8 (by decide)).trans (val_h0 m ρ c hin))
    ((K3 m ρ c main_v3 (by decide)).trans (W1_jj m ρ c))).trans
  (takeK_eq_gathK _ _ hin.2)

theorem mW1_0 (c : Dev nD) : W5 m ρ c (Proc.devRef .tc main_v12) = (wK0 m c).W1 := by
  have e := (K4 m ρ c main_v5 (by decide)).trans (W1_c5 m ρ c)
  have r := read1_2_W1 (W4 m ρ c)
  rw [e] at r; exact r
theorem mb1_0 (c : Dev nD) : W5 m ρ c (Proc.devRef .tc main_v14) = (wK0 m c).b1 := by
  have e := (K4 m ρ c main_arg6 (by decide)).trans (W1_arg m ρ c main_arg6 (by decide))
  have r := read1_2_b1 (W4 m ρ c)
  rw [e] at r; exact r
theorem mW2_0 (c : Dev nD) : W5 m ρ c (Proc.devRef .tc main_v16) = (wK0 m c).W2 := by
  have e := (K4 m ρ c main_v6 (by decide)).trans (W1_c6 m ρ c)
  have r := read1_2_W2 (W4 m ρ c)
  rw [e] at r; exact r
theorem mb2_0 (c : Dev nD) : W5 m ρ c (Proc.devRef .tc main_v18) = (wK0 m c).b2 := by
  have e := (K4 m ρ c main_arg8 (by decide)).trans (W1_arg m ρ c main_arg8 (by decide))
  have r := read1_2_b2 (W4 m ρ c)
  rw [e] at r; exact r

theorem mea_0 (c : Dev nD) : W5 m ρ c (Proc.devRef .tc main_arg1) = m ((c : Thread nD τ).loc main_arg1) :=
  (K5 m ρ c main_arg1 (by decide)).trans (W1_arg m ρ c main_arg1 (by decide))

theorem msg0 (c : Dev nD) (hin : HIn m c) :
    W6 m ρ c (Proc.devRef .tc main_v19) = (Cert.Spec.mk2 (Cert.Spec.msgS (gathI (hK0 m c) (iiK m c)) (gathI (hK0 m c) (jjK m c)) (m ((c : Thread nD τ).loc main_arg1))
        (wK0 m c).W1 (wK0 m c).b1 (wK0 m c).W2 (wK0 m c).b2)) :=
  (W6_arr m ρ c 7).trans <| (Reg1.value (V5 m ρ) c).trans <|
  msg_congr (src0 m ρ c hin) (tgt0 m ρ c hin) (mea_0 m ρ c) (mW1_0 m ρ c) (mb1_0 m ρ c) (mW2_0 m ρ c) (mb2_0 m ρ c)

theorem agg0 (c : Dev nD) (hin : HIn m c) :
    W7 m ρ c (Proc.devRef .tc main_v22) = scatI (iiK m c) (Cert.Spec.mk2 (Cert.Spec.msgS (gathI (hK0 m c) (iiK m c)) (gathI (hK0 m c) (jjK m c)) (m ((c : Thread nD τ).loc main_arg1))
        (wK0 m c).W1 (wK0 m c).b1 (wK0 m c).W2 (wK0 m c).b2)) := by
  have e1 := (K6 m ρ c main_v1 (by decide)).trans (W1_ii m ρ c)
  have e2 := msg0 m ρ c hin
  have r := read2_agg (W6 m ρ c)
  rw [e1, e2] at r; exact r

theorem uU_0 (c : Dev nD) : W7 m ρ c (Proc.devRef .tc main_v24) = (wK0 m c).U := by
  have e := (K6 m ρ c main_v7 (by decide)).trans (W1_c7 m ρ c)
  have r := read2_U (W6 m ρ c)
  rw [e] at r; exact r
theorem uub_0 (c : Dev nD) : W7 m ρ c (Proc.devRef .tc main_v26) = (wK0 m c).ub := by
  have e := (K6 m ρ c main_arg10 (by decide)).trans (W1_arg m ρ c main_arg10 (by decide))
  have r := read2_ub (W6 m ρ c)
  rw [e] at r; exact r
theorem ug_0 (c : Dev nD) : W7 m ρ c (Proc.devRef .tc main_v28) = (wK0 m c).g := by
  have e := (K6 m ρ c main_arg11 (by decide)).trans (W1_arg m ρ c main_arg11 (by decide))
  have r := read2_g (W6 m ρ c)
  rw [e] at r; exact r
theorem ubeta_0 (c : Dev nD) : W7 m ρ c (Proc.devRef .tc main_v30) = (wK0 m c).beta := by
  have e := (K6 m ρ c main_arg12 (by decide)).trans (W1_arg m ρ c main_arg12 (by decide))
  have r := read2_beta (W6 m ρ c)
  rw [e] at r; exact r

theorem uh_0 (c : Dev nD) (hin : HIn m c) : W7 m ρ c (Proc.devRef .tc main_v8) = hK0 m c :=
  (keep2 (W6 m ρ c) main_v8 (by decide)).trans <|
  (reg1_keep m ρ c main_v8 (by decide)).trans <|
  (keep1_2 (W4 m ρ c) main_v8 (by decide)).trans <|
  (keep1_1 (W3 m ρ c) main_v8 (by decide)).trans <|
  (keep1 (W2 m ρ c) main_v8 (by decide)).trans (val_h0 m ρ c hin)

theorem val_h1 (c : Dev nD) (hin : HIn m c) :
    W8 m ρ c (Proc.devRef .tc main_v31) = hK1 m c :=
  (W8_arr m ρ c 6).trans <| (Reg2.value (V7 m ρ) c).trans <|
  upd_congr (uh_0 m ρ c hin) (agg0 m ρ c hin) (uU_0 m ρ c) (uub_0 m ρ c) (ug_0 m ρ c) (ubeta_0 m ρ c)

theorem take3_of (X : Valuation τ sig (Elt Ideal)) {h : FVec Ideal S50000x128 .f32} {idx : IVec S400000 32}
    (hh : X (Proc.devRef .tc main_v31) = h) (hi : X (Proc.devRef .tc main_v1) = idx) :
    after hostOps3 X (Proc.devRef .tc main_v32) = takeK (F := Ideal) h idx := by subst hh hi; exact read3 X
theorem take3_1_of (X : Valuation τ sig (Elt Ideal)) {h : FVec Ideal S50000x128 .f32} {idx : IVec S400000 32}
    (hh : X (Proc.devRef .tc main_v31) = h) (hi : X (Proc.devRef .tc main_v3) = idx) :
    after hostOps3_1 X (Proc.devRef .tc main_v33) = takeK (F := Ideal) h idx := by subst hh hi; exact read3_1 X

theorem src1 (c : Dev nD) (hin : HIn m c) :
    W11 m ρ c (Proc.devRef .tc main_v32) = gathI (hK1 m c) (iiK m c) :=
  (keep3_2 (W10 m ρ c) main_v32 (by decide)).trans <|
  (keep3_1 (W9 m ρ c) main_v32 (by decide)).trans <|
  (take3_of (W8 m ρ c) (val_h1 m ρ c hin)
    ((K8 m ρ c main_v1 (by decide)).trans (W1_ii m ρ c))).trans
  (takeK_eq_gathK _ _ hin.1)

theorem tgt1 (c : Dev nD) (hin : HIn m c) :
    W11 m ρ c (Proc.devRef .tc main_v33) = gathI (hK1 m c) (jjK m c) :=
  (keep3_2 (W10 m ρ c) main_v33 (by decide)).trans <|
  (take3_1_of (W9 m ρ c) ((keep3 (W8 m ρ c) main_v31 (by decide)).trans (val_h1 m ρ c hin))
    ((K9 m ρ c main_v3 (by decide)).trans (W1_jj m ρ c))).trans
  (takeK_eq_gathK _ _ hin.2)

theorem mW1_1 (c : Dev nD) : W11 m ρ c (Proc.devRef .tc main_v35) = (wK1 m c).W1 := by
  have e := (K10 m ρ c main_v5 (by decide)).trans (W1_c5 m ρ c)
  have r := read3_2_W1 (W10 m ρ c)
  rw [e] at r; exact r
theorem mb1_1 (c : Dev nD) : W11 m ρ c (Proc.devRef .tc main_v37) = (wK1 m c).b1 := by
  have e := (K10 m ρ c main_arg6 (by decide)).trans (W1_arg m ρ c main_arg6 (by decide))
  have r := read3_2_b1 (W10 m ρ c)
  rw [e] at r; exact r
theorem mW2_1 (c : Dev nD) : W11 m ρ c (Proc.devRef .tc main_v39) = (wK1 m c).W2 := by
  have e := (K10 m ρ c main_v6 (by decide)).trans (W1_c6 m ρ c)
  have r := read3_2_W2 (W10 m ρ c)
  rw [e] at r; exact r
theorem mb2_1 (c : Dev nD) : W11 m ρ c (Proc.devRef .tc main_v41) = (wK1 m c).b2 := by
  have e := (K10 m ρ c main_arg8 (by decide)).trans (W1_arg m ρ c main_arg8 (by decide))
  have r := read3_2_b2 (W10 m ρ c)
  rw [e] at r; exact r

theorem mea_1 (c : Dev nD) : W11 m ρ c (Proc.devRef .tc main_arg1) = m ((c : Thread nD τ).loc main_arg1) :=
  (K11 m ρ c main_arg1 (by decide)).trans (W1_arg m ρ c main_arg1 (by decide))

theorem msg1 (c : Dev nD) (hin : HIn m c) :
    W12 m ρ c (Proc.devRef .tc main_v42) = (Cert.Spec.mk2 (Cert.Spec.msgS (gathI (hK1 m c) (iiK m c)) (gathI (hK1 m c) (jjK m c)) (m ((c : Thread nD τ).loc main_arg1))
        (wK1 m c).W1 (wK1 m c).b1 (wK1 m c).W2 (wK1 m c).b2)) :=
  (W12_arr m ρ c 7).trans <| (Reg3.value (V11 m ρ) c).trans <|
  msg_congr (src1 m ρ c hin) (tgt1 m ρ c hin) (mea_1 m ρ c) (mW1_1 m ρ c) (mb1_1 m ρ c) (mW2_1 m ρ c) (mb2_1 m ρ c)

theorem agg1 (c : Dev nD) (hin : HIn m c) :
    W13 m ρ c (Proc.devRef .tc main_v45) = scatI (iiK m c) (Cert.Spec.mk2 (Cert.Spec.msgS (gathI (hK1 m c) (iiK m c)) (gathI (hK1 m c) (jjK m c)) (m ((c : Thread nD τ).loc main_arg1))
        (wK1 m c).W1 (wK1 m c).b1 (wK1 m c).W2 (wK1 m c).b2)) := by
  have e1 := (K12 m ρ c main_v1 (by decide)).trans (W1_ii m ρ c)
  have e2 := msg1 m ρ c hin
  have r := read4_agg (W12 m ρ c)
  rw [e1, e2] at r; exact r

theorem uU_1 (c : Dev nD) : W13 m ρ c (Proc.devRef .tc main_v47) = (wK1 m c).U := by
  have e := (K12 m ρ c main_v7 (by decide)).trans (W1_c7 m ρ c)
  have r := read4_U (W12 m ρ c)
  rw [e] at r; exact r
theorem uub_1 (c : Dev nD) : W13 m ρ c (Proc.devRef .tc main_v49) = (wK1 m c).ub := by
  have e := (K12 m ρ c main_arg10 (by decide)).trans (W1_arg m ρ c main_arg10 (by decide))
  have r := read4_ub (W12 m ρ c)
  rw [e] at r; exact r
theorem ug_1 (c : Dev nD) : W13 m ρ c (Proc.devRef .tc main_v51) = (wK1 m c).g := by
  have e := (K12 m ρ c main_arg11 (by decide)).trans (W1_arg m ρ c main_arg11 (by decide))
  have r := read4_g (W12 m ρ c)
  rw [e] at r; exact r
theorem ubeta_1 (c : Dev nD) : W13 m ρ c (Proc.devRef .tc main_v53) = (wK1 m c).beta := by
  have e := (K12 m ρ c main_arg12 (by decide)).trans (W1_arg m ρ c main_arg12 (by decide))
  have r := read4_beta (W12 m ρ c)
  rw [e] at r; exact r

theorem uh_1 (c : Dev nD) (hin : HIn m c) : W13 m ρ c (Proc.devRef .tc main_v31) = hK1 m c :=
  (keep4 (W12 m ρ c) main_v31 (by decide)).trans <|
  (reg3_keep m ρ c main_v31 (by decide)).trans <|
  (keep3_2 (W10 m ρ c) main_v31 (by decide)).trans <|
  (keep3_1 (W9 m ρ c) main_v31 (by decide)).trans <|
  (keep3 (W8 m ρ c) main_v31 (by decide)).trans (val_h1 m ρ c hin)

theorem val_h2 (c : Dev nD) (hin : HIn m c) :
    W14 m ρ c (Proc.devRef .tc main_v54) = hK2 m c :=
  (W14_arr m ρ c 6).trans <| (Reg4.value (V13 m ρ) c).trans <|
  upd_congr (uh_1 m ρ c hin) (agg1 m ρ c hin) (uU_1 m ρ c) (uub_1 m ρ c) (ug_1 m ρ c) (ubeta_1 m ρ c)

theorem take5_of (X : Valuation τ sig (Elt Ideal)) {h : FVec Ideal S50000x128 .f32} {idx : IVec S400000 32}
    (hh : X (Proc.devRef .tc main_v54) = h) (hi : X (Proc.devRef .tc main_v1) = idx) :
    after hostOps5 X (Proc.devRef .tc main_v55) = takeK (F := Ideal) h idx := by subst hh hi; exact read5 X
theorem take5_1_of (X : Valuation τ sig (Elt Ideal)) {h : FVec Ideal S50000x128 .f32} {idx : IVec S400000 32}
    (hh : X (Proc.devRef .tc main_v54) = h) (hi : X (Proc.devRef .tc main_v3) = idx) :
    after hostOps5_1 X (Proc.devRef .tc main_v56) = takeK (F := Ideal) h idx := by subst hh hi; exact read5_1 X

theorem src2 (c : Dev nD) (hin : HIn m c) :
    W17 m ρ c (Proc.devRef .tc main_v55) = gathI (hK2 m c) (iiK m c) :=
  (keep5_2 (W16 m ρ c) main_v55 (by decide)).trans <|
  (keep5_1 (W15 m ρ c) main_v55 (by decide)).trans <|
  (take5_of (W14 m ρ c) (val_h2 m ρ c hin)
    ((K14 m ρ c main_v1 (by decide)).trans (W1_ii m ρ c))).trans
  (takeK_eq_gathK _ _ hin.1)

theorem tgt2 (c : Dev nD) (hin : HIn m c) :
    W17 m ρ c (Proc.devRef .tc main_v56) = gathI (hK2 m c) (jjK m c) :=
  (keep5_2 (W16 m ρ c) main_v56 (by decide)).trans <|
  (take5_1_of (W15 m ρ c) ((keep5 (W14 m ρ c) main_v54 (by decide)).trans (val_h2 m ρ c hin))
    ((K15 m ρ c main_v3 (by decide)).trans (W1_jj m ρ c))).trans
  (takeK_eq_gathK _ _ hin.2)

theorem mW1_2 (c : Dev nD) : W17 m ρ c (Proc.devRef .tc main_v58) = (wK2 m c).W1 := by
  have e := (K16 m ρ c main_v5 (by decide)).trans (W1_c5 m ρ c)
  have r := read5_2_W1 (W16 m ρ c)
  rw [e] at r; exact r
theorem mb1_2 (c : Dev nD) : W17 m ρ c (Proc.devRef .tc main_v60) = (wK2 m c).b1 := by
  have e := (K16 m ρ c main_arg6 (by decide)).trans (W1_arg m ρ c main_arg6 (by decide))
  have r := read5_2_b1 (W16 m ρ c)
  rw [e] at r; exact r
theorem mW2_2 (c : Dev nD) : W17 m ρ c (Proc.devRef .tc main_v62) = (wK2 m c).W2 := by
  have e := (K16 m ρ c main_v6 (by decide)).trans (W1_c6 m ρ c)
  have r := read5_2_W2 (W16 m ρ c)
  rw [e] at r; exact r
theorem mb2_2 (c : Dev nD) : W17 m ρ c (Proc.devRef .tc main_v64) = (wK2 m c).b2 := by
  have e := (K16 m ρ c main_arg8 (by decide)).trans (W1_arg m ρ c main_arg8 (by decide))
  have r := read5_2_b2 (W16 m ρ c)
  rw [e] at r; exact r

theorem mea_2 (c : Dev nD) : W17 m ρ c (Proc.devRef .tc main_arg1) = m ((c : Thread nD τ).loc main_arg1) :=
  (K17 m ρ c main_arg1 (by decide)).trans (W1_arg m ρ c main_arg1 (by decide))

theorem msg2 (c : Dev nD) (hin : HIn m c) :
    W18 m ρ c (Proc.devRef .tc main_v65) = (Cert.Spec.mk2 (Cert.Spec.msgS (gathI (hK2 m c) (iiK m c)) (gathI (hK2 m c) (jjK m c)) (m ((c : Thread nD τ).loc main_arg1))
        (wK2 m c).W1 (wK2 m c).b1 (wK2 m c).W2 (wK2 m c).b2)) :=
  (W18_arr m ρ c 7).trans <| (Reg5.value (V17 m ρ) c).trans <|
  msg_congr (src2 m ρ c hin) (tgt2 m ρ c hin) (mea_2 m ρ c) (mW1_2 m ρ c) (mb1_2 m ρ c) (mW2_2 m ρ c) (mb2_2 m ρ c)

theorem agg2 (c : Dev nD) (hin : HIn m c) :
    W19 m ρ c (Proc.devRef .tc main_v68) = scatI (iiK m c) (Cert.Spec.mk2 (Cert.Spec.msgS (gathI (hK2 m c) (iiK m c)) (gathI (hK2 m c) (jjK m c)) (m ((c : Thread nD τ).loc main_arg1))
        (wK2 m c).W1 (wK2 m c).b1 (wK2 m c).W2 (wK2 m c).b2)) := by
  have e1 := (K18 m ρ c main_v1 (by decide)).trans (W1_ii m ρ c)
  have e2 := msg2 m ρ c hin
  have r := read6_agg (W18 m ρ c)
  rw [e1, e2] at r; exact r

theorem uU_2 (c : Dev nD) : W19 m ρ c (Proc.devRef .tc main_v70) = (wK2 m c).U := by
  have e := (K18 m ρ c main_v7 (by decide)).trans (W1_c7 m ρ c)
  have r := read6_U (W18 m ρ c)
  rw [e] at r; exact r
theorem uub_2 (c : Dev nD) : W19 m ρ c (Proc.devRef .tc main_v72) = (wK2 m c).ub := by
  have e := (K18 m ρ c main_arg10 (by decide)).trans (W1_arg m ρ c main_arg10 (by decide))
  have r := read6_ub (W18 m ρ c)
  rw [e] at r; exact r
theorem ug_2 (c : Dev nD) : W19 m ρ c (Proc.devRef .tc main_v74) = (wK2 m c).g := by
  have e := (K18 m ρ c main_arg11 (by decide)).trans (W1_arg m ρ c main_arg11 (by decide))
  have r := read6_g (W18 m ρ c)
  rw [e] at r; exact r
theorem ubeta_2 (c : Dev nD) : W19 m ρ c (Proc.devRef .tc main_v76) = (wK2 m c).beta := by
  have e := (K18 m ρ c main_arg12 (by decide)).trans (W1_arg m ρ c main_arg12 (by decide))
  have r := read6_beta (W18 m ρ c)
  rw [e] at r; exact r

theorem uh_2 (c : Dev nD) (hin : HIn m c) : W19 m ρ c (Proc.devRef .tc main_v54) = hK2 m c :=
  (keep6 (W18 m ρ c) main_v54 (by decide)).trans <|
  (reg5_keep m ρ c main_v54 (by decide)).trans <|
  (keep5_2 (W16 m ρ c) main_v54 (by decide)).trans <|
  (keep5_1 (W15 m ρ c) main_v54 (by decide)).trans <|
  (keep5 (W14 m ρ c) main_v54 (by decide)).trans (val_h2 m ρ c hin)

theorem val_h3 (c : Dev nD) (hin : HIn m c) :
    W20 m ρ c (Proc.devRef .tc main_v77) = hK3 m c :=
  (W20_arr m ρ c 6).trans <| (Reg6.value (V19 m ρ) c).trans <|
  upd_congr (uh_2 m ρ c hin) (agg2 m ρ c hin) (uU_2 m ρ c) (uub_2 m ρ c) (ug_2 m ρ c) (ubeta_2 m ρ c)

theorem val_sum (c : Dev nD) (hin : HIn m c) :
    W21 m ρ c (Proc.devRef .tc main_v78)
      = (Cert.Spec.mk2 (fun _ j => ∑ r : Fin 50000, Cert.Spec.lnRow (fun k => hK3 m c (ValueIdx.ix2 r k))
          (m ((c : Thread nD τ).loc main_arg13)) (m ((c : Thread nD τ).loc main_arg14)) j) : Cert.Spec.M 1 128) :=
  (W21_arr m ρ c 3).trans <| (Reg7.value (V20 m ρ) c).trans <|
  fin_congr (val_h3 m ρ c hin)
    ((K20 m ρ c main_arg13 (by decide)).trans (W1_arg m ρ c main_arg13 (by decide)))
    ((K20 m ρ c main_arg14 (by decide)).trans (W1_arg m ρ c main_arg14 (by decide)))

theorem val_out (c : Dev nD) (hin : HIn m c) :
    W22 m ρ c (Proc.devRef .tc main_v80) = Cert.Spec.finA (hK3 m c) (m ((c : Thread nD τ).loc main_arg13)) (m ((c : Thread nD τ).loc main_arg14)) := by
  have e := val_sum m ρ c hin
  have r := read8 (W21 m ρ c)
  rw [e] at r
  refine r.trans (Cert.Spec.ext2 fun p j => ?_)
  rw [Cert.Spec.finA, Cert.Spec.mk2_ix2, Cert.Spec.finS]
  exact congrArg₂ Ideal.div (Cert.Spec.mk2_ix2 _ p j) rfl

theorem kernel_value (c : Dev nD) (hin : HIn m c) :
    W22 m ρ c (Proc.devRef .tc main_v80)
      = Cert.Spec.net gathI scatI (iiK m c) (jjK m c) (m ((c : Thread nD τ).loc main_arg0)) (m ((c : Thread nD τ).loc main_arg1)) (pWK m c) (m ((c : Thread nD τ).loc main_arg4))
          (wK0 m c) (wK1 m c) (wK2 m c) (m ((c : Thread nD τ).loc main_arg13)) (m ((c : Thread nD τ).loc main_arg14)) :=
  val_out m ρ c hin

end Cert.KernelIdeal.ChainK

end
-- ==== Proof.RefOps.lean ====
import proofs.«404470_j89532888252999_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Every operation touches references of the one device only. -/
macro "bufs_listed" : tactic =>
  `(tactic| simp only [List.Forall, nullary_bufs_sub, unary_bufs_sub, binary_bufs_sub, ternary_bufs_sub, reshape_bufs_sub,
      nary_bufs_sub, and_self])

noncomputable abbrev opsP : List (HloOp τ sig (Elt F)) :=
  [ StableHlo.unary main_arg2 main_v0 (extractStridedSlice S1x400000 ![0, 0] · slices_S2x400000_S1x400000_0_0),
    StableHlo.reshape main_v0 main_v1 rfl shapeCasts_S1x400000_S400000,
    StableHlo.unary main_arg2 main_v2 (extractStridedSlice S1x400000 ![1, 0] · slices_S2x400000_S1x400000_1_0),
    StableHlo.reshape main_v2 main_v3 rfl shapeCasts_S1x400000_S400000,
    StableHlo.binary main_arg0 main_arg3 main_v4 (fun l r => Host.dotGeneral dot_S50000x128_S128x128_S50000x128_1_0_0_1_n_n none l r),
    StableHlo.unary main_arg4 main_v5 (broadcastInDim S1x128 ![1] bcast_S128_S1x128_1),
    StableHlo.unary main_v5 main_v6 (broadcastInDim S50000x128 ![0, 1] bcast_S1x128_S50000x128_0_1),
    StableHlo.binary main_v4 main_v6 main_v7 addf ]

noncomputable abbrev opsP_W : List (Ref sig .tc) := [main_v0, main_v1, main_v2, main_v3, main_v4, main_v5, main_v6, main_v7]
theorem opsP_sub : (opsP : List (HloOp τ sig (Elt F))).Forall fun op => op.bufs ⊆ tcRefs τ sig := by bufs_listed

noncomputable abbrev opsG0 : List (HloOp τ sig (Elt F)) :=
  [ StableHlo.nullary main_c (constantI S_ 32 0#32),
    StableHlo.unary main_c main_v8 (broadcastInDim S400000 ![] bcast_S_S400000),
    StableHlo.binary main_v1 main_v8 main_v9 (cmpi .slt),
    StableHlo.nullary main_c_0 (constantI S_ 32 50000#32),
    StableHlo.unary main_c_0 main_v10 (broadcastInDim S400000 ![] bcast_S_S400000),
    StableHlo.binary main_v1 main_v10 main_v11 addi,
    StableHlo.ternary main_v9 main_v11 main_v1 main_v12 select,
    StableHlo.unary main_v12 main_v13 (broadcastInDim S400000x1 ![0] bcast_S400000_S400000x1_0),
    StableHlo.binary main_v7 main_v13 main_v14 (fun x i => Host.gather gather_S50000x128_S400000x1_S400000x128_1_0_n_n_0_1_1128 x i),
    StableHlo.nullary main_c_1 (constantI S_ 32 0#32),
    StableHlo.unary main_c_1 main_v15 (broadcastInDim S400000 ![] bcast_S_S400000),
    StableHlo.binary main_v3 main_v15 main_v16 (cmpi .slt),
    StableHlo.nullary main_c_2 (constantI S_ 32 50000#32),
    StableHlo.unary main_c_2 main_v17 (broadcastInDim S400000 ![] bcast_S_S400000),
    StableHlo.binary main_v3 main_v17 main_v18 addi,
    StableHlo.ternary main_v16 main_v18 main_v3 main_v19 select,
    StableHlo.unary main_v19 main_v20 (broadcastInDim S400000x1 ![0] bcast_S400000_S400000x1_0),
    StableHlo.binary main_v7 main_v20 main_v21 (fun x i => Host.gather gather_S50000x128_S400000x1_S400000x128_1_0_n_n_0_1_1128 x i) ]

noncomputable abbrev opsG0_W : List (Ref sig .tc) := [main_c, main_v8, main_v9, main_c_0, main_v10, main_v11, main_v12, main_v13, main_v14, main_c_1, main_v15, main_v16, main_c_2, main_v17, main_v18, main_v19, main_v20, main_v21]
theorem opsG0_sub : (opsG0 : List (HloOp τ sig (Elt F))).Forall fun op => op.bufs ⊆ tcRefs τ sig := by bufs_listed

noncomputable abbrev opsM0 : List (HloOp τ sig (Elt F)) :=
  [ StableHlo.nary ![main_v14, main_v21, main_arg1] main_v22 (fun u => concatenate S400000x272 1 [⟨S400000x128, u 0⟩, ⟨S400000x128, u 1⟩, ⟨S400000x16, u 2⟩] concatenates_S400000x128_S400000x128_S400000x16_S400000x272_d1),
    StableHlo.unary main_arg5 main_v23 (extractStridedSlice S1x272x128 ![0, 0, 0] · slices_S3x272x128_S1x272x128_0_0_0),
    StableHlo.reshape main_v23 main_v24 rfl shapeCasts_S1x272x128_S272x128,
    StableHlo.binary main_v22 main_v24 main_v25 (fun l r => Host.dotGeneral dot_S400000x272_S272x128_S400000x128_1_0_0_1_n_n none l r),
    StableHlo.unary main_arg6 main_v26 (extractStridedSlice S1x128 ![0, 0] · slices_S3x128_S1x128_0_0),
    StableHlo.reshape main_v26 main_v27 rfl shapeCasts_S1x128_S128,
    StableHlo.unary main_v27 main_v28 (broadcastInDim S1x128 ![1] bcast_S128_S1x128_1),
    StableHlo.unary main_v28 main_v29 (broadcastInDim S400000x128 ![0, 1] bcast_S1x128_S400000x128_0_1),
    StableHlo.binary main_v25 main_v29 main_v30 addf,
    StableHlo.TRef.nullary main_call0.cst (constant S_ .f32 0x00000000#32),
    StableHlo.TRef.unary main_call0.cst main_call0.v0 (broadcastInDim S400000x128 ![] bcast_S_S400000x128),
    StableHlo.TRef.binary (.of main_v30) main_call0.v0 main_call0.v1 maximumf,
    StableHlo.unary main_arg7 main_v32 (extractStridedSlice S1x128x128 ![0, 0, 0] · slices_S3x128x128_S1x128x128_0_0_0),
    StableHlo.reshape main_v32 main_v33 rfl shapeCasts_S1x128x128_S128x128,
    StableHlo.binary main_v31 main_v33 main_v34 (fun l r => Host.dotGeneral dot_S400000x128_S128x128_S400000x128_1_0_0_1_n_n none l r),
    StableHlo.unary main_arg8 main_v35 (extractStridedSlice S1x128 ![0, 0] · slices_S3x128_S1x128_0_0),
    StableHlo.reshape main_v35 main_v36 rfl shapeCasts_S1x128_S128,
    StableHlo.unary main_v36 main_v37 (broadcastInDim S1x128 ![1] bcast_S128_S1x128_1),
    StableHlo.unary main_v37 main_v38 (broadcastInDim S400000x128 ![0, 1] bcast_S1x128_S400000x128_0_1),
    StableHlo.binary main_v34 main_v38 main_v39 addf,
    StableHlo.TRef.nullary main_call1.cst (constant S_ .f32 0x00000000#32),
    StableHlo.TRef.unary main_call1.cst main_call1.v0 (broadcastInDim S400000x128 ![] bcast_S_S400000x128),
    StableHlo.TRef.binary (.of main_v39) main_call1.v0 main_call1.v1 maximumf ]

noncomputable abbrev opsM0_W : List (Ref sig .tc) := [main_v22, main_v23, main_v24, main_v25, main_v26, main_v27, main_v28, main_v29, main_v30, main_call0_cst, main_call0_v0, main_v31, main_v32, main_v33, main_v34, main_v35, main_v36, main_v37, main_v38, main_v39, main_call1_cst, main_call1_v0, main_v40]
theorem opsM0_sub : (opsM0 : List (HloOp τ sig (Elt F))).Forall fun op => op.bufs ⊆ tcRefs τ sig := by bufs_listed

noncomputable abbrev opsS0 : List (HloOp τ sig (Elt F)) :=
  [ StableHlo.nullary main_cst (constant S_ .f32 0x00000000#32),
    StableHlo.unary main_cst main_v41 (broadcastInDim S50000x128 ![] bcast_S_S50000x128),
    StableHlo.unary main_v1 main_v42 (broadcastInDim S400000x1 ![0] bcast_S400000_S400000x1_0),
    StableHlo.ternary main_v41 main_v42 main_v40 main_v43 (fun x i u => Host.scatterAdd scatter_S50000x128_S400000x1_S400000x128_1_0_0_1 x i u) ]

noncomputable abbrev opsS0_W : List (Ref sig .tc) := [main_cst, main_v41, main_v42, main_v43]
theorem opsS0_sub : (opsS0 : List (HloOp τ sig (Elt F))).Forall fun op => op.bufs ⊆ tcRefs τ sig := by bufs_listed

noncomputable abbrev opsU0 : List (HloOp τ sig (Elt F)) :=
  [ StableHlo.binary main_v7 main_v43 main_v44 (fun a b => concatenate S50000x256 1 [⟨S50000x128, a⟩, ⟨S50000x128, b⟩] concatenates_S50000x128_S50000x128_S50000x256_d1),
    StableHlo.unary main_arg9 main_v45 (extractStridedSlice S1x256x128 ![0, 0, 0] · slices_S3x256x128_S1x256x128_0_0_0),
    StableHlo.reshape main_v45 main_v46 rfl shapeCasts_S1x256x128_S256x128,
    StableHlo.binary main_v44 main_v46 main_v47 (fun l r => Host.dotGeneral dot_S50000x256_S256x128_S50000x128_1_0_0_1_n_n none l r),
    StableHlo.unary main_arg10 main_v48 (extractStridedSlice S1x128 ![0, 0] · slices_S3x128_S1x128_0_0),
    StableHlo.reshape main_v48 main_v49 rfl shapeCasts_S1x128_S128,
    StableHlo.unary main_v49 main_v50 (broadcastInDim S1x128 ![1] bcast_S128_S1x128_1),
    StableHlo.unary main_v50 main_v51 (broadcastInDim S50000x128 ![0, 1] bcast_S1x128_S50000x128_0_1),
    StableHlo.binary main_v47 main_v51 main_v52 addf,
    StableHlo.TRef.nullary main_call2.cst (constant S_ .f32 0x00000000#32),
    StableHlo.TRef.unary main_call2.cst main_call2.v0 (broadcastInDim S50000x128 ![] bcast_S_S50000x128),
    StableHlo.TRef.binary (.of main_v52) main_call2.v0 main_call2.v1 maximumf,
    StableHlo.binary main_v53 main_v7 main_v54 addf,
    StableHlo.unary main_arg11 main_v55 (extractStridedSlice S1x128 ![0, 0] · slices_S3x128_S1x128_0_0),
    StableHlo.reshape main_v55 main_v56 rfl shapeCasts_S1x128_S128,
    StableHlo.unary main_arg12 main_v57 (extractStridedSlice S1x128 ![0, 0] · slices_S3x128_S1x128_0_0),
    StableHlo.reshape main_v57 main_v58 rfl shapeCasts_S1x128_S128,
    StableHlo.nullary main_cst_3 (constant S_ .f32 0x00000000#32),
    StableHlo.binary main_v54 main_cst_3 main_v59 (fun x v => Host.reduceAdd x v reducesTo_S50000x128_S50000_d1 h_S_),
    StableHlo.unary main_v59 main_v60 (broadcastInDim S50000x1 ![0] bcast_S50000_S50000x1_0),
    StableHlo.nullary main_cst_4 (constant S_ .f32 0x43000000#32),
    StableHlo.unary main_cst_4 main_v61 (broadcastInDim S50000x1 ![] bcast_S_S50000x1),
    StableHlo.binary main_v60 main_v61 main_v62 Host.divf,
    StableHlo.unary main_v62 main_v63 (broadcastInDim S50000x128 ![0, 1] bcast_S50000x1_S50000x128_0_1),
    StableHlo.binary main_v54 main_v63 main_v64 subf,
    StableHlo.binary main_v64 main_v64 main_v65 mulf,
    StableHlo.nullary main_cst_5 (constant S_ .f32 0x00000000#32),
    StableHlo.binary main_v65 main_cst_5 main_v66 (fun x v => Host.reduceAdd x v reducesTo_S50000x128_S50000_d1 h_S_),
    StableHlo.unary main_v66 main_v67 (broadcastInDim S50000x1 ![0] bcast_S50000_S50000x1_0),
    StableHlo.nullary main_cst_6 (constant S_ .f32 0x43000000#32),
    StableHlo.unary main_cst_6 main_v68 (broadcastInDim S50000x1 ![] bcast_S_S50000x1),
    StableHlo.binary main_v67 main_v68 main_v69 Host.divf,
    StableHlo.unary main_v62 main_v70 (broadcastInDim S50000x128 ![0, 1] bcast_S50000x1_S50000x128_0_1),
    StableHlo.binary main_v54 main_v70 main_v71 subf,
    StableHlo.nullary main_cst_7 (constant S_ .f32 0x3727C5AC#32),
    StableHlo.unary main_cst_7 main_v72 (broadcastInDim S50000x1 ![] bcast_S_S50000x1),
    StableHlo.binary main_v69 main_v72 main_v73 addf,
    StableHlo.unary main_v73 main_v74 Host.rsqrt,
    StableHlo.unary main_v74 main_v75 (broadcastInDim S50000x128 ![0, 1] bcast_S50000x1_S50000x128_0_1),
    StableHlo.binary main_v71 main_v75 main_v76 mulf,
    StableHlo.unary main_v56 main_v77 (broadcastInDim S1x128 ![1] bcast_S128_S1x128_1),
    StableHlo.unary main_v77 main_v78 (broadcastInDim S50000x128 ![0, 1] bcast_S1x128_S50000x128_0_1),
    StableHlo.binary main_v76 main_v78 main_v79 mulf,
    StableHlo.unary main_v58 main_v80 (broadcastInDim S1x128 ![1] bcast_S128_S1x128_1),
    StableHlo.unary main_v80 main_v81 (broadcastInDim S50000x128 ![0, 1] bcast_S1x128_S50000x128_0_1),
    StableHlo.binary main_v79 main_v81 main_v82 addf ]

noncomputable abbrev opsU0_W : List (Ref sig .tc) := [main_v44, main_v45, main_v46, main_v47, main_v48, main_v49, main_v50, main_v51, main_v52, main_call2_cst, main_call2_v0, main_v53, main_v54, main_v55, main_v56, main_v57, main_v58, main_cst_3, main_v59, main_v60, main_cst_4, main_v61, main_v62, main_v63, main_v64, main_v65, main_cst_5, main_v66, main_v67, main_cst_6, main_v68, main_v69, main_v70, main_v71, main_cst_7, main_v72, main_v73, main_v74, main_v75, main_v76, main_v77, main_v78, main_v79, main_v80, main_v81, main_v82]
theorem opsU0_sub : (opsU0 : List (HloOp τ sig (Elt F))).Forall fun op => op.bufs ⊆ tcRefs τ sig := by bufs_listed

noncomputable abbrev opsG1 : List (HloOp τ sig (Elt F)) :=
  [ StableHlo.nullary main_c_8 (constantI S_ 32 0#32),
    StableHlo.unary main_c_8 main_v83 (broadcastInDim S400000 ![] bcast_S_S400000),
    StableHlo.binary main_v1 main_v83 main_v84 (cmpi .slt),
    StableHlo.nullary main_c_9 (constantI S_ 32 50000#32),
    StableHlo.unary main_c_9 main_v85 (broadcastInDim S400000 ![] bcast_S_S400000),
    StableHlo.binary main_v1 main_v85 main_v86 addi,
    StableHlo.ternary main_v84 main_v86 main_v1 main_v87 select,
    StableHlo.unary main_v87 main_v88 (broadcastInDim S400000x1 ![0] bcast_S400000_S400000x1_0),
    StableHlo.binary main_v82 main_v88 main_v89 (fun x i => Host.gather gather_S50000x128_S400000x1_S400000x128_1_0_n_n_0_1_1128 x i),
    StableHlo.nullary main_c_10 (constantI S_ 32 0#32),
    StableHlo.unary main_c_10 main_v90 (broadcastInDim S400000 ![] bcast_S_S400000),
    StableHlo.binary main_v3 main_v90 main_v91 (cmpi .slt),
    StableHlo.nullary main_c_11 (constantI S_ 32 50000#32),
    StableHlo.unary main_c_11 main_v92 (broadcastInDim S400000 ![] bcast_S_S400000),
    StableHlo.binary main_v3 main_v92 main_v93 addi,
    StableHlo.ternary main_v91 main_v93 main_v3 main_v94 select,
    StableHlo.unary main_v94 main_v95 (broadcastInDim S400000x1 ![0] bcast_S400000_S400000x1_0),
    StableHlo.binary main_v82 main_v95 main_v96 (fun x i => Host.gather gather_S50000x128_S400000x1_S400000x128_1_0_n_n_0_1_1128 x i) ]

noncomputable abbrev opsG1_W : List (Ref sig .tc) := [main_c_8, main_v83, main_v84, main_c_9, main_v85, main_v86, main_v87, main_v88, main_v89, main_c_10, main_v90, main_v91, main_c_11, main_v92, main_v93, main_v94, main_v95, main_v96]
theorem opsG1_sub : (opsG1 : List (HloOp τ sig (Elt F))).Forall fun op => op.bufs ⊆ tcRefs τ sig := by bufs_listed

noncomputable abbrev opsM1 : List (HloOp τ sig (Elt F)) :=
  [ StableHlo.nary ![main_v89, main_v96, main_arg1] main_v97 (fun u => concatenate S400000x272 1 [⟨S400000x128, u 0⟩, ⟨S400000x128, u 1⟩, ⟨S400000x16, u 2⟩] concatenates_S400000x128_S400000x128_S400000x16_S400000x272_d1),
    StableHlo.unary main_arg5 main_v98 (extractStridedSlice S1x272x128 ![1, 0, 0] · slices_S3x272x128_S1x272x128_1_0_0),
    StableHlo.reshape main_v98 main_v99 rfl shapeCasts_S1x272x128_S272x128,
    StableHlo.binary main_v97 main_v99 main_v100 (fun l r => Host.dotGeneral dot_S400000x272_S272x128_S400000x128_1_0_0_1_n_n none l r),
    StableHlo.unary main_arg6 main_v101 (extractStridedSlice S1x128 ![1, 0] · slices_S3x128_S1x128_1_0),
    StableHlo.reshape main_v101 main_v102 rfl shapeCasts_S1x128_S128,
    StableHlo.unary main_v102 main_v103 (broadcastInDim S1x128 ![1] bcast_S128_S1x128_1),
    StableHlo.unary main_v103 main_v104 (broadcastInDim S400000x128 ![0, 1] bcast_S1x128_S400000x128_0_1),
    StableHlo.binary main_v100 main_v104 main_v105 addf,
    StableHlo.TRef.nullary main_call3.cst (constant S_ .f32 0x00000000#32),
    StableHlo.TRef.unary main_call3.cst main_call3.v0 (broadcastInDim S400000x128 ![] bcast_S_S400000x128),
    StableHlo.TRef.binary (.of main_v105) main_call3.v0 main_call3.v1 maximumf,
    StableHlo.unary main_arg7 main_v107 (extractStridedSlice S1x128x128 ![1, 0, 0] · slices_S3x128x128_S1x128x128_1_0_0),
    StableHlo.reshape main_v107 main_v108 rfl shapeCasts_S1x128x128_S128x128,
    StableHlo.binary main_v106 main_v108 main_v109 (fun l r => Host.dotGeneral dot_S400000x128_S128x128_S400000x128_1_0_0_1_n_n none l r),
    StableHlo.unary main_arg8 main_v110 (extractStridedSlice S1x128 ![1, 0] · slices_S3x128_S1x128_1_0),
    StableHlo.reshape main_v110 main_v111 rfl shapeCasts_S1x128_S128,
    StableHlo.unary main_v111 main_v112 (broadcastInDim S1x128 ![1] bcast_S128_S1x128_1),
    StableHlo.unary main_v112 main_v113 (broadcastInDim S400000x128 ![0, 1] bcast_S1x128_S400000x128_0_1),
    StableHlo.binary main_v109 main_v113 main_v114 addf,
    StableHlo.TRef.nullary main_call4.cst (constant S_ .f32 0x00000000#32),
    StableHlo.TRef.unary main_call4.cst main_call4.v0 (broadcastInDim S400000x128 ![] bcast_S_S400000x128),
    StableHlo.TRef.binary (.of main_v114) main_call4.v0 main_call4.v1 maximumf ]

noncomputable abbrev opsM1_W : List (Ref sig .tc) := [main_v97, main_v98, main_v99, main_v100, main_v101, main_v102, main_v103, main_v104, main_v105, main_call3_cst, main_call3_v0, main_v106, main_v107, main_v108, main_v109, main_v110, main_v111, main_v112, main_v113, main_v114, main_call4_cst, main_call4_v0, main_v115]
theorem opsM1_sub : (opsM1 : List (HloOp τ sig (Elt F))).Forall fun op => op.bufs ⊆ tcRefs τ sig := by bufs_listed

noncomputable abbrev opsS1 : List (HloOp τ sig (Elt F)) :=
  [ StableHlo.nullary main_cst_12 (constant S_ .f32 0x00000000#32),
    StableHlo.unary main_cst_12 main_v116 (broadcastInDim S50000x128 ![] bcast_S_S50000x128),
    StableHlo.unary main_v1 main_v117 (broadcastInDim S400000x1 ![0] bcast_S400000_S400000x1_0),
    StableHlo.ternary main_v116 main_v117 main_v115 main_v118 (fun x i u => Host.scatterAdd scatter_S50000x128_S400000x1_S400000x128_1_0_0_1 x i u) ]

noncomputable abbrev opsS1_W : List (Ref sig .tc) := [main_cst_12, main_v116, main_v117, main_v118]
theorem opsS1_sub : (opsS1 : List (HloOp τ sig (Elt F))).Forall fun op => op.bufs ⊆ tcRefs τ sig := by bufs_listed

noncomputable abbrev opsU1 : List (HloOp τ sig (Elt F)) :=
  [ StableHlo.binary main_v82 main_v118 main_v119 (fun a b => concatenate S50000x256 1 [⟨S50000x128, a⟩, ⟨S50000x128, b⟩] concatenates_S50000x128_S50000x128_S50000x256_d1),
    StableHlo.unary main_arg9 main_v120 (extractStridedSlice S1x256x128 ![1, 0, 0] · slices_S3x256x128_S1x256x128_1_0_0),
    StableHlo.reshape main_v120 main_v121 rfl shapeCasts_S1x256x128_S256x128,
    StableHlo.binary main_v119 main_v121 main_v122 (fun l r => Host.dotGeneral dot_S50000x256_S256x128_S50000x128_1_0_0_1_n_n none l r),
    StableHlo.unary main_arg10 main_v123 (extractStridedSlice S1x128 ![1, 0] · slices_S3x128_S1x128_1_0),
    StableHlo.reshape main_v123 main_v124 rfl shapeCasts_S1x128_S128,
    StableHlo.unary main_v124 main_v125 (broadcastInDim S1x128 ![1] bcast_S128_S1x128_1),
    StableHlo.unary main_v125 main_v126 (broadcastInDim S50000x128 ![0, 1] bcast_S1x128_S50000x128_0_1),
    StableHlo.binary main_v122 main_v126 main_v127 addf,
    StableHlo.TRef.nullary main_call5.cst (constant S_ .f32 0x00000000#32),
    StableHlo.TRef.unary main_call5.cst main_call5.v0 (broadcastInDim S50000x128 ![] bcast_S_S50000x128),
    StableHlo.TRef.binary (.of main_v127) main_call5.v0 main_call5.v1 maximumf,
    StableHlo.binary main_v128 main_v82 main_v129 addf,
    StableHlo.unary main_arg11 main_v130 (extractStridedSlice S1x128 ![1, 0] · slices_S3x128_S1x128_1_0),
    StableHlo.reshape main_v130 main_v131 rfl shapeCasts_S1x128_S128,
    StableHlo.unary main_arg12 main_v132 (extractStridedSlice S1x128 ![1, 0] · slices_S3x128_S1x128_1_0),
    StableHlo.reshape main_v132 main_v133 rfl shapeCasts_S1x128_S128,
    StableHlo.nullary main_cst_13 (constant S_ .f32 0x00000000#32),
    StableHlo.binary main_v129 main_cst_13 main_v134 (fun x v => Host.reduceAdd x v reducesTo_S50000x128_S50000_d1 h_S_),
    StableHlo.unary main_v134 main_v135 (broadcastInDim S50000x1 ![0] bcast_S50000_S50000x1_0),
    StableHlo.nullary main_cst_14 (constant S_ .f32 0x43000000#32),
    StableHlo.unary main_cst_14 main_v136 (broadcastInDim S50000x1 ![] bcast_S_S50000x1),
    StableHlo.binary main_v135 main_v136 main_v137 Host.divf,
    StableHlo.unary main_v137 main_v138 (broadcastInDim S50000x128 ![0, 1] bcast_S50000x1_S50000x128_0_1),
    StableHlo.binary main_v129 main_v138 main_v139 subf,
    StableHlo.binary main_v139 main_v139 main_v140 mulf,
    StableHlo.nullary main_cst_15 (constant S_ .f32 0x00000000#32),
    StableHlo.binary main_v140 main_cst_15 main_v141 (fun x v => Host.reduceAdd x v reducesTo_S50000x128_S50000_d1 h_S_),
    StableHlo.unary main_v141 main_v142 (broadcastInDim S50000x1 ![0] bcast_S50000_S50000x1_0),
    StableHlo.nullary main_cst_16 (constant S_ .f32 0x43000000#32),
    StableHlo.unary main_cst_16 main_v143 (broadcastInDim S50000x1 ![] bcast_S_S50000x1),
    StableHlo.binary main_v142 main_v143 main_v144 Host.divf,
    StableHlo.unary main_v137 main_v145 (broadcastInDim S50000x128 ![0, 1] bcast_S50000x1_S50000x128_0_1),
    StableHlo.binary main_v129 main_v145 main_v146 subf,
    StableHlo.nullary main_cst_17 (constant S_ .f32 0x3727C5AC#32),
    StableHlo.unary main_cst_17 main_v147 (broadcastInDim S50000x1 ![] bcast_S_S50000x1),
    StableHlo.binary main_v144 main_v147 main_v148 addf,
    StableHlo.unary main_v148 main_v149 Host.rsqrt,
    StableHlo.unary main_v149 main_v150 (broadcastInDim S50000x128 ![0, 1] bcast_S50000x1_S50000x128_0_1),
    StableHlo.binary main_v146 main_v150 main_v151 mulf,
    StableHlo.unary main_v131 main_v152 (broadcastInDim S1x128 ![1] bcast_S128_S1x128_1),
    StableHlo.unary main_v152 main_v153 (broadcastInDim S50000x128 ![0, 1] bcast_S1x128_S50000x128_0_1),
    StableHlo.binary main_v151 main_v153 main_v154 mulf,
    StableHlo.unary main_v133 main_v155 (broadcastInDim S1x128 ![1] bcast_S128_S1x128_1),
    StableHlo.unary main_v155 main_v156 (broadcastInDim S50000x128 ![0, 1] bcast_S1x128_S50000x128_0_1),
    StableHlo.binary main_v154 main_v156 main_v157 addf ]

noncomputable abbrev opsU1_W : List (Ref sig .tc) := [main_v119, main_v120, main_v121, main_v122, main_v123, main_v124, main_v125, main_v126, main_v127, main_call5_cst, main_call5_v0, main_v128, main_v129, main_v130, main_v131, main_v132, main_v133, main_cst_13, main_v134, main_v135, main_cst_14, main_v136, main_v137, main_v138, main_v139, main_v140, main_cst_15, main_v141, main_v142, main_cst_16, main_v143, main_v144, main_v145, main_v146, main_cst_17, main_v147, main_v148, main_v149, main_v150, main_v151, main_v152, main_v153, main_v154, main_v155, main_v156, main_v157]
theorem opsU1_sub : (opsU1 : List (HloOp τ sig (Elt F))).Forall fun op => op.bufs ⊆ tcRefs τ sig := by bufs_listed

noncomputable abbrev opsG2 : List (HloOp τ sig (Elt F)) :=
  [ StableHlo.nullary main_c_18 (constantI S_ 32 0#32),
    StableHlo.unary main_c_18 main_v158 (broadcastInDim S400000 ![] bcast_S_S400000),
    StableHlo.binary main_v1 main_v158 main_v159 (cmpi .slt),
    StableHlo.nullary main_c_19 (constantI S_ 32 50000#32),
    StableHlo.unary main_c_19 main_v160 (broadcastInDim S400000 ![] bcast_S_S400000),
    StableHlo.binary main_v1 main_v160 main_v161 addi,
    StableHlo.ternary main_v159 main_v161 main_v1 main_v162 select,
    StableHlo.unary main_v162 main_v163 (broadcastInDim S400000x1 ![0] bcast_S400000_S400000x1_0),
    StableHlo.binary main_v157 main_v163 main_v164 (fun x i => Host.gather gather_S50000x128_S400000x1_S400000x128_1_0_n_n_0_1_1128 x i),
    StableHlo.nullary main_c_20 (constantI S_ 32 0#32),
    StableHlo.unary main_c_20 main_v165 (broadcastInDim S400000 ![] bcast_S_S400000),
    StableHlo.binary main_v3 main_v165 main_v166 (cmpi .slt),
    StableHlo.nullary main_c_21 (constantI S_ 32 50000#32),
    StableHlo.unary main_c_21 main_v167 (broadcastInDim S400000 ![] bcast_S_S400000),
    StableHlo.binary main_v3 main_v167 main_v168 addi,
    StableHlo.ternary main_v166 main_v168 main_v3 main_v169 select,
    StableHlo.unary main_v169 main_v170 (broadcastInDim S400000x1 ![0] bcast_S400000_S400000x1_0),
    StableHlo.binary main_v157 main_v170 main_v171 (fun x i => Host.gather gather_S50000x128_S400000x1_S400000x128_1_0_n_n_0_1_1128 x i) ]

noncomputable abbrev opsG2_W : List (Ref sig .tc) := [main_c_18, main_v158, main_v159, main_c_19, main_v160, main_v161, main_v162, main_v163, main_v164, main_c_20, main_v165, main_v166, main_c_21, main_v167, main_v168, main_v169, main_v170, main_v171]
theorem opsG2_sub : (opsG2 : List (HloOp τ sig (Elt F))).Forall fun op => op.bufs ⊆ tcRefs τ sig := by bufs_listed

noncomputable abbrev opsM2 : List (HloOp τ sig (Elt F)) :=
  [ StableHlo.nary ![main_v164, main_v171, main_arg1] main_v172 (fun u => concatenate S400000x272 1 [⟨S400000x128, u 0⟩, ⟨S400000x128, u 1⟩, ⟨S400000x16, u 2⟩] concatenates_S400000x128_S400000x128_S400000x16_S400000x272_d1),
    StableHlo.unary main_arg5 main_v173 (extractStridedSlice S1x272x128 ![2, 0, 0] · slices_S3x272x128_S1x272x128_2_0_0),
    StableHlo.reshape main_v173 main_v174 rfl shapeCasts_S1x272x128_S272x128,
    StableHlo.binary main_v172 main_v174 main_v175 (fun l r => Host.dotGeneral dot_S400000x272_S272x128_S400000x128_1_0_0_1_n_n none l r),
    StableHlo.unary main_arg6 main_v176 (extractStridedSlice S1x128 ![2, 0] · slices_S3x128_S1x128_2_0),
    StableHlo.reshape main_v176 main_v177 rfl shapeCasts_S1x128_S128,
    StableHlo.unary main_v177 main_v178 (broadcastInDim S1x128 ![1] bcast_S128_S1x128_1),
    StableHlo.unary main_v178 main_v179 (broadcastInDim S400000x128 ![0, 1] bcast_S1x128_S400000x128_0_1),
    StableHlo.binary main_v175 main_v179 main_v180 addf,
    StableHlo.TRef.nullary main_call6.cst (constant S_ .f32 0x00000000#32),
    StableHlo.TRef.unary main_call6.cst main_call6.v0 (broadcastInDim S400000x128 ![] bcast_S_S400000x128),
    StableHlo.TRef.binary (.of main_v180) main_call6.v0 main_call6.v1 maximumf,
    StableHlo.unary main_arg7 main_v182 (extractStridedSlice S1x128x128 ![2, 0, 0] · slices_S3x128x128_S1x128x128_2_0_0),
    StableHlo.reshape main_v182 main_v183 rfl shapeCasts_S1x128x128_S128x128,
    StableHlo.binary main_v181 main_v183 main_v184 (fun l r => Host.dotGeneral dot_S400000x128_S128x128_S400000x128_1_0_0_1_n_n none l r),
    StableHlo.unary main_arg8 main_v185 (extractStridedSlice S1x128 ![2, 0] · slices_S3x128_S1x128_2_0),
    StableHlo.reshape main_v185 main_v186 rfl shapeCasts_S1x128_S128,
    StableHlo.unary main_v186 main_v187 (broadcastInDim S1x128 ![1] bcast_S128_S1x128_1),
    StableHlo.unary main_v187 main_v188 (broadcastInDim S400000x128 ![0, 1] bcast_S1x128_S400000x128_0_1),
    StableHlo.binary main_v184 main_v188 main_v189 addf,
    StableHlo.TRef.nullary main_call7.cst (constant S_ .f32 0x00000000#32),
    StableHlo.TRef.unary main_call7.cst main_call7.v0 (broadcastInDim S400000x128 ![] bcast_S_S400000x128),
    StableHlo.TRef.binary (.of main_v189) main_call7.v0 main_call7.v1 maximumf ]

noncomputable abbrev opsM2_W : List (Ref sig .tc) := [main_v172, main_v173, main_v174, main_v175, main_v176, main_v177, main_v178, main_v179, main_v180, main_call6_cst, main_call6_v0, main_v181, main_v182, main_v183, main_v184, main_v185, main_v186, main_v187, main_v188, main_v189, main_call7_cst, main_call7_v0, main_v190]
theorem opsM2_sub : (opsM2 : List (HloOp τ sig (Elt F))).Forall fun op => op.bufs ⊆ tcRefs τ sig := by bufs_listed

noncomputable abbrev opsS2 : List (HloOp τ sig (Elt F)) :=
  [ StableHlo.nullary main_cst_22 (constant S_ .f32 0x00000000#32),
    StableHlo.unary main_cst_22 main_v191 (broadcastInDim S50000x128 ![] bcast_S_S50000x128),
    StableHlo.unary main_v1 main_v192 (broadcastInDim S400000x1 ![0] bcast_S400000_S400000x1_0),
    StableHlo.ternary main_v191 main_v192 main_v190 main_v193 (fun x i u => Host.scatterAdd scatter_S50000x128_S400000x1_S400000x128_1_0_0_1 x i u) ]

noncomputable abbrev opsS2_W : List (Ref sig .tc) := [main_cst_22, main_v191, main_v192, main_v193]
theorem opsS2_sub : (opsS2 : List (HloOp τ sig (Elt F))).Forall fun op => op.bufs ⊆ tcRefs τ sig := by bufs_listed

noncomputable abbrev opsU2 : List (HloOp τ sig (Elt F)) :=
  [ StableHlo.binary main_v157 main_v193 main_v194 (fun a b => concatenate S50000x256 1 [⟨S50000x128, a⟩, ⟨S50000x128, b⟩] concatenates_S50000x128_S50000x128_S50000x256_d1),
    StableHlo.unary main_arg9 main_v195 (extractStridedSlice S1x256x128 ![2, 0, 0] · slices_S3x256x128_S1x256x128_2_0_0),
    StableHlo.reshape main_v195 main_v196 rfl shapeCasts_S1x256x128_S256x128,
    StableHlo.binary main_v194 main_v196 main_v197 (fun l r => Host.dotGeneral dot_S50000x256_S256x128_S50000x128_1_0_0_1_n_n none l r),
    StableHlo.unary main_arg10 main_v198 (extractStridedSlice S1x128 ![2, 0] · slices_S3x128_S1x128_2_0),
    StableHlo.reshape main_v198 main_v199 rfl shapeCasts_S1x128_S128,
    StableHlo.unary main_v199 main_v200 (broadcastInDim S1x128 ![1] bcast_S128_S1x128_1),
    StableHlo.unary main_v200 main_v201 (broadcastInDim S50000x128 ![0, 1] bcast_S1x128_S50000x128_0_1),
    StableHlo.binary main_v197 main_v201 main_v202 addf,
    StableHlo.TRef.nullary main_call8.cst (constant S_ .f32 0x00000000#32),
    StableHlo.TRef.unary main_call8.cst main_call8.v0 (broadcastInDim S50000x128 ![] bcast_S_S50000x128),
    StableHlo.TRef.binary (.of main_v202) main_call8.v0 main_call8.v1 maximumf,
    StableHlo.binary main_v203 main_v157 main_v204 addf,
    StableHlo.unary main_arg11 main_v205 (extractStridedSlice S1x128 ![2, 0] · slices_S3x128_S1x128_2_0),
    StableHlo.reshape main_v205 main_v206 rfl shapeCasts_S1x128_S128,
    StableHlo.unary main_arg12 main_v207 (extractStridedSlice S1x128 ![2, 0] · slices_S3x128_S1x128_2_0),
    StableHlo.reshape main_v207 main_v208 rfl shapeCasts_S1x128_S128,
    StableHlo.nullary main_cst_23 (constant S_ .f32 0x00000000#32),
    StableHlo.binary main_v204 main_cst_23 main_v209 (fun x v => Host.reduceAdd x v reducesTo_S50000x128_S50000_d1 h_S_),
    StableHlo.unary main_v209 main_v210 (broadcastInDim S50000x1 ![0] bcast_S50000_S50000x1_0),
    StableHlo.nullary main_cst_24 (constant S_ .f32 0x43000000#32),
    StableHlo.unary main_cst_24 main_v211 (broadcastInDim S50000x1 ![] bcast_S_S50000x1),
    StableHlo.binary main_v210 main_v211 main_v212 Host.divf,
    StableHlo.unary main_v212 main_v213 (broadcastInDim S50000x128 ![0, 1] bcast_S50000x1_S50000x128_0_1),
    StableHlo.binary main_v204 main_v213 main_v214 subf,
    StableHlo.binary main_v214 main_v214 main_v215 mulf,
    StableHlo.nullary main_cst_25 (constant S_ .f32 0x00000000#32),
    StableHlo.binary main_v215 main_cst_25 main_v216 (fun x v => Host.reduceAdd x v reducesTo_S50000x128_S50000_d1 h_S_),
    StableHlo.unary main_v216 main_v217 (broadcastInDim S50000x1 ![0] bcast_S50000_S50000x1_0),
    StableHlo.nullary main_cst_26 (constant S_ .f32 0x43000000#32),
    StableHlo.unary main_cst_26 main_v218 (broadcastInDim S50000x1 ![] bcast_S_S50000x1),
    StableHlo.binary main_v217 main_v218 main_v219 Host.divf,
    StableHlo.unary main_v212 main_v220 (broadcastInDim S50000x128 ![0, 1] bcast_S50000x1_S50000x128_0_1),
    StableHlo.binary main_v204 main_v220 main_v221 subf,
    StableHlo.nullary main_cst_27 (constant S_ .f32 0x3727C5AC#32),
    StableHlo.unary main_cst_27 main_v222 (broadcastInDim S50000x1 ![] bcast_S_S50000x1),
    StableHlo.binary main_v219 main_v222 main_v223 addf,
    StableHlo.unary main_v223 main_v224 Host.rsqrt,
    StableHlo.unary main_v224 main_v225 (broadcastInDim S50000x128 ![0, 1] bcast_S50000x1_S50000x128_0_1),
    StableHlo.binary main_v221 main_v225 main_v226 mulf,
    StableHlo.unary main_v206 main_v227 (broadcastInDim S1x128 ![1] bcast_S128_S1x128_1),
    StableHlo.unary main_v227 main_v228 (broadcastInDim S50000x128 ![0, 1] bcast_S1x128_S50000x128_0_1),
    StableHlo.binary main_v226 main_v228 main_v229 mulf,
    StableHlo.unary main_v208 main_v230 (broadcastInDim S1x128 ![1] bcast_S128_S1x128_1),
    StableHlo.unary main_v230 main_v231 (broadcastInDim S50000x128 ![0, 1] bcast_S1x128_S50000x128_0_1),
    StableHlo.binary main_v229 main_v231 main_v232 addf ]

noncomputable abbrev opsU2_W : List (Ref sig .tc) := [main_v194, main_v195, main_v196, main_v197, main_v198, main_v199, main_v200, main_v201, main_v202, main_call8_cst, main_call8_v0, main_v203, main_v204, main_v205, main_v206, main_v207, main_v208, main_cst_23, main_v209, main_v210, main_cst_24, main_v211, main_v212, main_v213, main_v214, main_v215, main_cst_25, main_v216, main_v217, main_cst_26, main_v218, main_v219, main_v220, main_v221, main_cst_27, main_v222, main_v223, main_v224, main_v225, main_v226, main_v227, main_v228, main_v229, main_v230, main_v231, main_v232]
theorem opsU2_sub : (opsU2 : List (HloOp τ sig (Elt F))).Forall fun op => op.bufs ⊆ tcRefs τ sig := by bufs_listed

noncomputable abbrev opsF : List (HloOp τ sig (Elt F)) :=
  [ StableHlo.nullary main_cst_28 (constant S_ .f32 0x00000000#32),
    StableHlo.binary main_v232 main_cst_28 main_v233 (fun x v => Host.reduceAdd x v reducesTo_S50000x128_S50000_d1 h_S_),
    StableHlo.unary main_v233 main_v234 (broadcastInDim S50000x1 ![0] bcast_S50000_S50000x1_0),
    StableHlo.nullary main_cst_29 (constant S_ .f32 0x43000000#32),
    StableHlo.unary main_cst_29 main_v235 (broadcastInDim S50000x1 ![] bcast_S_S50000x1),
    StableHlo.binary main_v234 main_v235 main_v236 Host.divf,
    StableHlo.unary main_v236 main_v237 (broadcastInDim S50000x128 ![0, 1] bcast_S50000x1_S50000x128_0_1),
    StableHlo.binary main_v232 main_v237 main_v238 subf,
    StableHlo.binary main_v238 main_v238 main_v239 mulf,
    StableHlo.nullary main_cst_30 (constant S_ .f32 0x00000000#32),
    StableHlo.binary main_v239 main_cst_30 main_v240 (fun x v => Host.reduceAdd x v reducesTo_S50000x128_S50000_d1 h_S_),
    StableHlo.unary main_v240 main_v241 (broadcastInDim S50000x1 ![0] bcast_S50000_S50000x1_0),
    StableHlo.nullary main_cst_31 (constant S_ .f32 0x43000000#32),
    StableHlo.unary main_cst_31 main_v242 (broadcastInDim S50000x1 ![] bcast_S_S50000x1),
    StableHlo.binary main_v241 main_v242 main_v243 Host.divf,
    StableHlo.unary main_v236 main_v244 (broadcastInDim S50000x128 ![0, 1] bcast_S50000x1_S50000x128_0_1),
    StableHlo.binary main_v232 main_v244 main_v245 subf,
    StableHlo.nullary main_cst_32 (constant S_ .f32 0x3727C5AC#32),
    StableHlo.unary main_cst_32 main_v246 (broadcastInDim S50000x1 ![] bcast_S_S50000x1),
    StableHlo.binary main_v243 main_v246 main_v247 addf,
    StableHlo.unary main_v247 main_v248 Host.rsqrt,
    StableHlo.unary main_v248 main_v249 (broadcastInDim S50000x128 ![0, 1] bcast_S50000x1_S50000x128_0_1),
    StableHlo.binary main_v245 main_v249 main_v250 mulf,
    StableHlo.unary main_arg13 main_v251 (broadcastInDim S1x128 ![1] bcast_S128_S1x128_1),
    StableHlo.unary main_v251 main_v252 (broadcastInDim S50000x128 ![0, 1] bcast_S1x128_S50000x128_0_1),
    StableHlo.binary main_v250 main_v252 main_v253 mulf,
    StableHlo.unary main_arg14 main_v254 (broadcastInDim S1x128 ![1] bcast_S128_S1x128_1),
    StableHlo.unary main_v254 main_v255 (broadcastInDim S50000x128 ![0, 1] bcast_S1x128_S50000x128_0_1),
    StableHlo.binary main_v253 main_v255 main_v256 addf,
    StableHlo.nullary main_cst_33 (constant S_ .f32 0x00000000#32),
    StableHlo.binary main_v256 main_cst_33 main_v257 (fun x v => Host.reduceAdd x v reducesTo_S50000x128_S128_d0 h_S_),
    StableHlo.nullary main_cst_34 (constant S_ .f32 0x47435000#32),
    StableHlo.unary main_cst_34 main_v258 (broadcastInDim S128 ![] bcast_S_S128),
    StableHlo.binary main_v257 main_v258 main_v259 Host.divf,
    StableHlo.unary main_v259 main_v260 (broadcastInDim S1x128 ![1] bcast_S128_S1x128_1) ]

noncomputable abbrev opsF_W : List (Ref sig .tc) := [main_cst_28, main_v233, main_v234, main_cst_29, main_v235, main_v236, main_v237, main_v238, main_v239, main_cst_30, main_v240, main_v241, main_cst_31, main_v242, main_v243, main_v244, main_v245, main_cst_32, main_v246, main_v247, main_v248, main_v249, main_v250, main_v251, main_v252, main_v253, main_v254, main_v255, main_v256, main_cst_33, main_v257, main_cst_34, main_v258, main_v259, main_v260]
theorem opsF_sub : (opsF : List (HloOp τ sig (Elt F))).Forall fun op => op.bufs ⊆ tcRefs τ sig := by bufs_listed

noncomputable abbrev ops : List (HloOp τ sig (Elt F)) :=
  opsP ++ opsG0 ++ opsM0 ++ opsS0 ++ opsU0 ++ opsG1 ++ opsM1 ++ opsS1 ++ opsU1 ++ opsG2 ++ opsM2 ++ opsS2 ++ opsU2 ++ opsF

end Cert.ReferenceIdeal.RefRun

end
-- ==== Proof.RefRun.lean ====
import proofs.«404470_j89532888252999_1_alg».proof.Proof.RefOps
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem main_part0_eq (c : Dev nD) : main_part0 (F := F) c = seq (ops.take 66) := rfl
set_option maxRecDepth 8192 in
set_option maxHeartbeats 4000000 in
theorem main_part1_eq (c : Dev nD) : main_part1 (F := F) c = seq ((ops.drop 66).take 60) := rfl
set_option maxRecDepth 8192 in
set_option maxHeartbeats 4000000 in
theorem main_part2_eq (c : Dev nD) : main_part2 (F := F) c = seq (((ops.drop 66).drop 60).take 66) := rfl
set_option maxRecDepth 8192 in
set_option maxHeartbeats 4000000 in
theorem main_part3_eq (c : Dev nD) : main_part3 (F := F) c = seq ((((ops.drop 66).drop 60).drop 66).take 66) := rfl
set_option maxRecDepth 8192 in
set_option maxHeartbeats 4000000 in
theorem main_part4_eq (c : Dev nD) : main_part4 (F := F) c = seq ((((ops.drop 66).drop 60).drop 66).drop 66) := rfl

/-- The printed program is its five windows in order, and the windows are consecutive slices of the one list. -/
theorem main_eq (c : Dev nD) : main (F := F) c = seq ops := by
  have e : (ops : List (HloOp τ sig (Elt F))) = ops.take 66 ++ ((ops.drop 66).take 60 ++ (((ops.drop 66).drop 60).take 66
      ++ ((((ops.drop 66).drop 60).drop 66).take 66 ++ (((ops.drop 66).drop 60).drop 66).drop 66))) := by
    simp only [List.take_append_drop]
  rw [e]
  simp only [seq_append, ← main_part0_eq c, ← main_part1_eq c, ← main_part2_eq c, ← main_part3_eq c, ← main_part4_eq c]
  rfl

theorem forall_mem_ops {p : HloOp τ sig (Elt F) → Prop}
    (hP : (opsP : List (HloOp τ sig (Elt F))).Forall p)
    (hG0 : (opsG0 : List (HloOp τ sig (Elt F))).Forall p)
    (hM0 : (opsM0 : List (HloOp τ sig (Elt F))).Forall p)
    (hS0 : (opsS0 : List (HloOp τ sig (Elt F))).Forall p)
    (hU0 : (opsU0 : List (HloOp τ sig (Elt F))).Forall p)
    (hG1 : (opsG1 : List (HloOp τ sig (Elt F))).Forall p)
    (hM1 : (opsM1 : List (HloOp τ sig (Elt F))).Forall p)
    (hS1 : (opsS1 : List (HloOp τ sig (Elt F))).Forall p)
    (hU1 : (opsU1 : List (HloOp τ sig (Elt F))).Forall p)
    (hG2 : (opsG2 : List (HloOp τ sig (Elt F))).Forall p)
    (hM2 : (opsM2 : List (HloOp τ sig (Elt F))).Forall p)
    (hS2 : (opsS2 : List (HloOp τ sig (Elt F))).Forall p)
    (hU2 : (opsU2 : List (HloOp τ sig (Elt F))).Forall p)
    (hF : (opsF : List (HloOp τ sig (Elt F))).Forall p) :
    ∀ op ∈ (ops : List (HloOp τ sig (Elt F))), p op := by
  intro op h
  simp only [ops, List.mem_append, or_assoc] at h
  rcases h with h | h | h | h | h | h | h | h | h | h | h | h | h | h
  exacts [List.forall_iff_forall_mem.mp hP op h,
    List.forall_iff_forall_mem.mp hG0 op h,
    List.forall_iff_forall_mem.mp hM0 op h,
    List.forall_iff_forall_mem.mp hS0 op h,
    List.forall_iff_forall_mem.mp hU0 op h,
    List.forall_iff_forall_mem.mp hG1 op h,
    List.forall_iff_forall_mem.mp hM1 op h,
    List.forall_iff_forall_mem.mp hS1 op h,
    List.forall_iff_forall_mem.mp hU1 op h,
    List.forall_iff_forall_mem.mp hG2 op h,
    List.forall_iff_forall_mem.mp hM2 op h,
    List.forall_iff_forall_mem.mp hS2 op h,
    List.forall_iff_forall_mem.mp hU2 op h,
    List.forall_iff_forall_mem.mp hF op h]

theorem ops_sub : (ops : List (HloOp τ sig (Elt F))).Forall fun op => op.bufs ⊆ tcRefs τ sig :=
  List.forall_iff_forall_mem.mpr
    (forall_mem_ops opsP_sub opsG0_sub opsM0_sub opsS0_sub opsU0_sub opsG1_sub opsM1_sub opsS1_sub opsU1_sub opsG2_sub opsM2_sub opsS2_sub opsU2_sub opsF_sub)

local macro "forall_rfl" : tactic =>
  `(tactic| (simp only [List.Forall]; (repeat' apply And.intro); all_goals rfl))

theorem ops_fresh : ∀ op ∈ (ops : List (HloOp τ sig (Elt F))), op.fresh = ∅ :=
  forall_mem_ops (by forall_rfl) (by forall_rfl) (by forall_rfl) (by forall_rfl) (by forall_rfl) (by forall_rfl) (by forall_rfl)
    (by forall_rfl) (by forall_rfl) (by forall_rfl) (by forall_rfl) (by forall_rfl) (by forall_rfl) (by forall_rfl)

local macro "writes_listed" : tactic =>
  `(tactic| (simp only [List.Forall, nullary_writes, unary_writes, binary_writes, ternary_writes, reshape_writes, nary_writes,
               Finset.singleton_subset_iff, List.mem_toFinset]
             repeat' apply And.intro
             all_goals exact List.mem_map_of_mem (by decide)))

theorem opsP_writes : (opsP : List (HloOp τ sig (Elt F))).Forall fun op =>
    op.writes ⊆ (opsP_W.map (Proc.devRef (τ := τ) .tc)).toFinset := by writes_listed
theorem opsG0_writes : (opsG0 : List (HloOp τ sig (Elt F))).Forall fun op =>
    op.writes ⊆ (opsG0_W.map (Proc.devRef (τ := τ) .tc)).toFinset := by writes_listed
theorem opsM0_writes : (opsM0 : List (HloOp τ sig (Elt F))).Forall fun op =>
    op.writes ⊆ (opsM0_W.map (Proc.devRef (τ := τ) .tc)).toFinset := by writes_listed
theorem opsS0_writes : (opsS0 : List (HloOp τ sig (Elt F))).Forall fun op =>
    op.writes ⊆ (opsS0_W.map (Proc.devRef (τ := τ) .tc)).toFinset := by writes_listed
theorem opsU0_writes : (opsU0 : List (HloOp τ sig (Elt F))).Forall fun op =>
    op.writes ⊆ (opsU0_W.map (Proc.devRef (τ := τ) .tc)).toFinset := by writes_listed
theorem opsG1_writes : (opsG1 : List (HloOp τ sig (Elt F))).Forall fun op =>
    op.writes ⊆ (opsG1_W.map (Proc.devRef (τ := τ) .tc)).toFinset := by writes_listed
theorem opsM1_writes : (opsM1 : List (HloOp τ sig (Elt F))).Forall fun op =>
    op.writes ⊆ (opsM1_W.map (Proc.devRef (τ := τ) .tc)).toFinset := by writes_listed
theorem opsS1_writes : (opsS1 : List (HloOp τ sig (Elt F))).Forall fun op =>
    op.writes ⊆ (opsS1_W.map (Proc.devRef (τ := τ) .tc)).toFinset := by writes_listed
theorem opsU1_writes : (opsU1 : List (HloOp τ sig (Elt F))).Forall fun op =>
    op.writes ⊆ (opsU1_W.map (Proc.devRef (τ := τ) .tc)).toFinset := by writes_listed
theorem opsG2_writes : (opsG2 : List (HloOp τ sig (Elt F))).Forall fun op =>
    op.writes ⊆ (opsG2_W.map (Proc.devRef (τ := τ) .tc)).toFinset := by writes_listed
theorem opsM2_writes : (opsM2 : List (HloOp τ sig (Elt F))).Forall fun op =>
    op.writes ⊆ (opsM2_W.map (Proc.devRef (τ := τ) .tc)).toFinset := by writes_listed
theorem opsS2_writes : (opsS2 : List (HloOp τ sig (Elt F))).Forall fun op =>
    op.writes ⊆ (opsS2_W.map (Proc.devRef (τ := τ) .tc)).toFinset := by writes_listed
theorem opsU2_writes : (opsU2 : List (HloOp τ sig (Elt F))).Forall fun op =>
    op.writes ⊆ (opsU2_W.map (Proc.devRef (τ := τ) .tc)).toFinset := by writes_listed
theorem opsF_writes : (opsF : List (HloOp τ sig (Elt F))).Forall fun op =>
    op.writes ⊆ (opsF_W.map (Proc.devRef (τ := τ) .tc)).toFinset := by writes_listed

/-- A reference that no stage writes keeps its contents through all fourteen. -/
theorem kept {r : Ref sig .tc}
    (h : r ∉ opsP_W ∧ r ∉ opsG0_W ∧ r ∉ opsM0_W ∧ r ∉ opsS0_W ∧ r ∉ opsU0_W ∧ r ∉ opsG1_W ∧ r ∉ opsM1_W ∧ r ∉ opsS1_W
      ∧ r ∉ opsU1_W ∧ r ∉ opsG2_W ∧ r ∉ opsM2_W ∧ r ∉ opsS2_W ∧ r ∉ opsU2_W ∧ r ∉ opsF_W)
    (V : Valuation τ sig (Elt F)) :
    after ops V (Proc.devRef .tc r) = V (Proc.devRef .tc r) := by
  obtain ⟨hP, hG0, hM0, hS0, hU0, hG1, hM1, hS1, hU1, hG2, hM2, hS2, hU2, hF⟩ := h
  simp only [ops, StableHlo.after_append]
  rw [after_of_writes_sub opsF _ opsF_writes hF,
    after_of_writes_sub opsU2 _ opsU2_writes hU2,
    after_of_writes_sub opsS2 _ opsS2_writes hS2,
    after_of_writes_sub opsM2 _ opsM2_writes hM2,
    after_of_writes_sub opsG2 _ opsG2_writes hG2,
    after_of_writes_sub opsU1 _ opsU1_writes hU1,
    after_of_writes_sub opsS1 _ opsS1_writes hS1,
    after_of_writes_sub opsM1 _ opsM1_writes hM1,
    after_of_writes_sub opsG1 _ opsG1_writes hG1,
    after_of_writes_sub opsU0 _ opsU0_writes hU0,
    after_of_writes_sub opsS0 _ opsS0_writes hS0,
    after_of_writes_sub opsM0 _ opsM0_writes hM0,
    after_of_writes_sub opsG0 _ opsG0_writes hG0,
    after_of_writes_sub opsP _ opsP_writes hP]

theorem scopedRefs_eq : (Finset.univ.filter fun b : Ref sig .tc => b.isScoped) = ∅ := by decide
theorem scopedSems_eq : (Finset.univ.filter fun sm : SemLoc sig => sm.isScoped .tc) = ∅ := by decide

theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after ops (StableHlo.launchContents m c) (Proc.devRef .tc b) :=
  run_seq scopedRefs_eq scopedSems_eq defs main (fun _ => ops) main_eq (fun _ => ops_sub) m ρ (fun _ => ops_fresh)

end Cert.ReferenceIdeal.RefRun

end
-- ==== Proof.RefStageA.lean ====
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import proofs.«404470_j89532888252999_1_alg».proof.ReferenceIdeal
import proofs.«404470_j89532888252999_1_alg».proof.Proof.Spec

noncomputable section

namespace Cert.ReferenceIdeal

open Idealize.ShloMosaic Idealize.SL.Sem Idealize.ShloMosaic.ValueIdx
open scoped BigOperators

variable [Facts]
open Facts₀ Facts

namespace RefStage

section
variable {F : FTy → Type} [FloatOps F]

noncomputable def projR (x : FVec F S50000x128 .f32) (W : FVec F S128x128 .f32) (b : FVec F S128 .f32) :
    FVec F S50000x128 .f32 :=
  addf (Host.dotGeneral (F := F) dot_S50000x128_S128x128_S50000x128_1_0_0_1_n_n none x W)
    (broadcastInDim S50000x128 ![0, 1] bcast_S1x128_S50000x128_0_1 (broadcastInDim S1x128 ![1] bcast_S128_S1x128_1 b))

noncomputable def reluE (v : FVec F S400000x128 .f32) : FVec F S400000x128 .f32 :=
  maximumf v (broadcastInDim S400000x128 ![] bcast_S_S400000x128 (constant (F := F) S_ .f32 0x00000000#32))

noncomputable def msgR (hi hj : FVec F S400000x128 .f32) (ea : FVec F S400000x16 .f32) (W1 : FVec F S272x128 .f32)
    (b1 : FVec F S128 .f32) (W2 : FVec F S128x128 .f32) (b2 : FVec F S128 .f32) : FVec F S400000x128 .f32 :=
  reluE (addf
    (Host.dotGeneral (F := F) dot_S400000x128_S128x128_S400000x128_1_0_0_1_n_n none
      (reluE (addf
        (Host.dotGeneral (F := F) dot_S400000x272_S272x128_S400000x128_1_0_0_1_n_n none
          (concatenate S400000x272 1 [⟨S400000x128, hi⟩, ⟨S400000x128, hj⟩, ⟨S400000x16, ea⟩]
            concatenates_S400000x128_S400000x128_S400000x16_S400000x272_d1) W1)
        (broadcastInDim S400000x128 ![0, 1] bcast_S1x128_S400000x128_0_1 (broadcastInDim S1x128 ![1] bcast_S128_S1x128_1 b1))))
      W2)
    (broadcastInDim S400000x128 ![0, 1] bcast_S1x128_S400000x128_0_1 (broadcastInDim S1x128 ![1] bcast_S128_S1x128_1 b2)))

end

theorem dot_apply {m k n : Nat} (w : DotDims.WF ⟨2, ![m, k]⟩ ⟨2, ![k, n]⟩ ⟨2, ![m, n]⟩ [1] [0] [0] [1] [] [])
    (A : FVec Ideal ⟨2, ![m, k]⟩ .f32) (B : FVec Ideal ⟨2, ![k, n]⟩ .f32) (a : Fin m) (b : Fin n) :
    Host.dotGeneral (F := Ideal) (⟨[1], [0], [0], [1], [], [], w⟩ : DotDims _ _ _) none A B (ix2 a b)
      = ∑ c : Fin k, A (ix2 a c) * B (ix2 c b) :=
  StackMember.dotGeneral_plain_apply none A B a b

theorem bias_apply {n : Nat} (h1 : S128.BroadcastsInDim S1x128 (![1] : Fin 1 → Fin S1x128.rank))
    (h2 : S1x128.BroadcastsInDim ⟨2, ![n, 128]⟩ (![0, 1] : Fin 2 → Fin (⟨2, ![n, 128]⟩ : Shape).rank))
    (b : FVec Ideal S128 .f32) (r : Fin n) (j : Fin 128) :
    broadcastInDim ⟨2, ![n, 128]⟩ ![0, 1] h2 (broadcastInDim S1x128 ![1] h1 b) (ix2 r j) = b (ix1 j) := by
  rw [broadcastInDim_apply ![0, 1] h2 _ (ix2 r j) (ix2 (0 : Fin 1) j) (fun a => by
    match a with
    | ⟨0, _⟩ => rfl
    | ⟨1, _⟩ => rfl)]
  rw [broadcastInDim_apply ![1] h1 b (ix2 (0 : Fin 1) j) (ix1 j) (fun a => by
    match a with
    | ⟨0, _⟩ => rfl)]

theorem projR_eq (x : FVec Ideal S50000x128 .f32) (W : FVec Ideal S128x128 .f32) (b : FVec Ideal S128 .f32) :
    projR x W b = Cert.Spec.mk2 (Cert.Spec.projS x W b) := by
  refine Cert.Spec.ext2 fun r j => ?_
  rw [Cert.Spec.mk2_ix2]
  unfold projR Cert.Spec.projS
  rw [addf_apply]
  rw [show Host.dotGeneral (F := Ideal) dot_S50000x128_S128x128_S50000x128_1_0_0_1_n_n none x W (ix2 r j)
      = ∑ k : Fin 128, x (ix2 r k) * W (ix2 k j) from dot_apply _ x W r j]
  rw [show broadcastInDim S50000x128 ![0, 1] bcast_S1x128_S50000x128_0_1 (broadcastInDim S1x128 ![1] bcast_S128_S1x128_1 b) (ix2 r j)
      = b (ix1 j) from bias_apply _ _ b r j]

theorem reluE_apply (v : FVec Ideal S400000x128 .f32) (e : Fin 400000) (k : Fin 128) :
    reluE v (ix2 e k) = max (v (ix2 e k)) Cert.Spec.c0 := by
  unfold reluE
  rw [maximumf_apply, broadcastInDim_apply ![] bcast_S_S400000x128 _ (ix2 e k) ix0 (fun a => a.elim0), constant_apply]
  rfl

theorem sum272 {A : Type} [AddCommMonoid A] (f : Fin 272 → A) :
    ∑ c : Fin 272, f c
      = ((∑ a : Fin 128, f (⟨a.val, by omega⟩ : Fin 272)) + (∑ a : Fin 128, f (⟨128 + a.val, by omega⟩ : Fin 272)))
        + (∑ a : Fin 16, f (⟨256 + a.val, by omega⟩ : Fin 272)) := by
  have h1 := Fin.sum_univ_add (M := A) (a := 128 + 128) (b := 16) f
  have h2 := Fin.sum_univ_add (M := A) (a := 128) (b := 128) (fun i : Fin (128 + 128) => f (Fin.castAdd 16 i))
  rw [h2] at h1
  exact h1

section Concat
variable (hi hj : FVec Ideal S400000x128 .f32) (ea : FVec Ideal S400000x16 .f32)

theorem concat_band0 (e : Fin 400000) (a : Fin 128) :
    concatenate S400000x272 1 [⟨S400000x128, hi⟩, ⟨S400000x128, hj⟩, ⟨S400000x16, ea⟩]
        concatenates_S400000x128_S400000x128_S400000x16_S400000x272_d1 (ix2 e (⟨a.val, by omega⟩ : Fin 272))
      = hi (ix2 e a) :=
  concatenate_apply_piece (1 : Fin S400000x272.rank) _ _ _ 0 (by show (0 : Nat) < 3; omega) S400000x128 hi rfl rfl 0 rfl (ix2 e a)
    (fun b hb => by
      match b with
      | ⟨0, _⟩ => rfl
      | ⟨1, _⟩ => exact absurd rfl hb)
    (by show 0 + a.val = a.val; omega)

theorem concat_band1 (e : Fin 400000) (a : Fin 128) :
    concatenate S400000x272 1 [⟨S400000x128, hi⟩, ⟨S400000x128, hj⟩, ⟨S400000x16, ea⟩]
        concatenates_S400000x128_S400000x128_S400000x16_S400000x272_d1 (ix2 e (⟨128 + a.val, by omega⟩ : Fin 272))
      = hj (ix2 e a) :=
  concatenate_apply_piece (1 : Fin S400000x272.rank) _ _ _ 1 (by show (1 : Nat) < 3; omega) S400000x128 hj rfl rfl 128 rfl (ix2 e a)
    (fun b hb => by
      match b with
      | ⟨0, _⟩ => rfl
      | ⟨1, _⟩ => exact absurd rfl hb)
    rfl

theorem concat_band2 (e : Fin 400000) (a : Fin 16) :
    concatenate S400000x272 1 [⟨S400000x128, hi⟩, ⟨S400000x128, hj⟩, ⟨S400000x16, ea⟩]
        concatenates_S400000x128_S400000x128_S400000x16_S400000x272_d1 (ix2 e (⟨256 + a.val, by omega⟩ : Fin 272))
      = ea (ix2 e a) :=
  concatenate_apply_piece (1 : Fin S400000x272.rank) _ _ _ 2 (by show (2 : Nat) < 3; omega) S400000x16 ea rfl rfl 256 rfl (ix2 e a)
    (fun b hb => by
      match b with
      | ⟨0, _⟩ => rfl
      | ⟨1, _⟩ => exact absurd rfl hb)
    rfl

end Concat

theorem msgPreR_apply (hi hj : FVec Ideal S400000x128 .f32) (ea : FVec Ideal S400000x16 .f32) (W1 : FVec Ideal S272x128 .f32)
    (b1 : FVec Ideal S128 .f32) (e : Fin 400000) (k : Fin 128) :
    addf
        (Host.dotGeneral (F := Ideal) dot_S400000x272_S272x128_S400000x128_1_0_0_1_n_n none
          (concatenate S400000x272 1 [⟨S400000x128, hi⟩, ⟨S400000x128, hj⟩, ⟨S400000x16, ea⟩]
            concatenates_S400000x128_S400000x128_S400000x16_S400000x272_d1) W1)
        (broadcastInDim S400000x128 ![0, 1] bcast_S1x128_S400000x128_0_1 (broadcastInDim S1x128 ![1] bcast_S128_S1x128_1 b1))
        (ix2 e k)
      = Cert.Spec.msgPre hi hj ea W1 b1 e k := by
  unfold Cert.Spec.msgPre
  rw [addf_apply]
  rw [show Host.dotGeneral (F := Ideal) dot_S400000x272_S272x128_S400000x128_1_0_0_1_n_n none
        (concatenate S400000x272 1 [⟨S400000x128, hi⟩, ⟨S400000x128, hj⟩, ⟨S400000x16, ea⟩]
          concatenates_S400000x128_S400000x128_S400000x16_S400000x272_d1) W1 (ix2 e k)
      = ∑ c : Fin 272, concatenate S400000x272 1 [⟨S400000x128, hi⟩, ⟨S400000x128, hj⟩, ⟨S400000x16, ea⟩]
          concatenates_S400000x128_S400000x128_S400000x16_S400000x272_d1 (ix2 e c) * W1 (ix2 c k) from dot_apply _ _ W1 e k]
  rw [show broadcastInDim S400000x128 ![0, 1] bcast_S1x128_S400000x128_0_1 (broadcastInDim S1x128 ![1] bcast_S128_S1x128_1 b1) (ix2 e k)
      = b1 (ix1 k) from bias_apply _ _ b1 e k]
  rw [sum272]
  simp only [concat_band0, concat_band1, concat_band2]

theorem msgR_eq (hi hj : FVec Ideal S400000x128 .f32) (ea : FVec Ideal S400000x16 .f32) (W1 : FVec Ideal S272x128 .f32)
    (b1 : FVec Ideal S128 .f32) (W2 : FVec Ideal S128x128 .f32) (b2 : FVec Ideal S128 .f32) :
    msgR hi hj ea W1 b1 W2 b2 = Cert.Spec.mk2 (Cert.Spec.msgS hi hj ea W1 b1 W2 b2) := by
  refine Cert.Spec.ext2 fun e j => ?_
  rw [Cert.Spec.mk2_ix2]
  unfold msgR Cert.Spec.msgS
  rw [reluE_apply, addf_apply]
  rw [show broadcastInDim S400000x128 ![0, 1] bcast_S1x128_S400000x128_0_1 (broadcastInDim S1x128 ![1] bcast_S128_S1x128_1 b2) (ix2 e j)
      = b2 (ix1 j) from bias_apply _ _ b2 e j]
  refine congrArg (fun s => max (s + b2 (ix1 j)) Cert.Spec.c0) ?_
  refine (dot_apply _ _ W2 e j).trans (Finset.sum_congr rfl fun k _ => ?_)
  rw [reluE_apply, msgPreR_apply]

end RefStage
end Cert.ReferenceIdeal
-- ==== Proof.RefStageB.lean ====
import proofs.«404470_j89532888252999_1_alg».proof.ReferenceIdeal
import proofs.«404470_j89532888252999_1_alg».proof.Proof.Spec
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import Idealize.ShloMosaic.Lib.StackMember
import Mathlib.Algebra.BigOperators.Fin

noncomputable section

namespace Cert.ReferenceIdeal.RefStage2

open Idealize.ShloMosaic Idealize.ShloMosaic.ValueIdx
open Cert.ReferenceIdeal
open scoped BigOperators

variable [Facts]
open Facts₀ Facts

section
variable {F : FTy → Type} [FloatOps F]

noncomputable def lnR (v : FVec F S50000x128 .f32) (g b : FVec F S128 .f32) : FVec F S50000x128 .f32 :=
  let v59 : FVec F S50000 .f32 := Host.reduceAdd v (constant (F := F) S_ .f32 0x00000000#32) reducesTo_S50000x128_S50000_d1 h_S_
  let v60 : FVec F S50000x1 .f32 := broadcastInDim S50000x1 ![0] bcast_S50000_S50000x1_0 v59
  let v61 : FVec F S50000x1 .f32 := broadcastInDim S50000x1 ![] bcast_S_S50000x1 (constant (F := F) S_ .f32 0x43000000#32)
  let v62 : FVec F S50000x1 .f32 := Host.divf v60 v61
  let v63 : FVec F S50000x128 .f32 := broadcastInDim S50000x128 ![0, 1] bcast_S50000x1_S50000x128_0_1 v62
  let v64 : FVec F S50000x128 .f32 := subf v v63
  let v65 : FVec F S50000x128 .f32 := mulf v64 v64
  let v66 : FVec F S50000 .f32 := Host.reduceAdd v65 (constant (F := F) S_ .f32 0x00000000#32) reducesTo_S50000x128_S50000_d1 h_S_
  let v67 : FVec F S50000x1 .f32 := broadcastInDim S50000x1 ![0] bcast_S50000_S50000x1_0 v66
  let v68 : FVec F S50000x1 .f32 := broadcastInDim S50000x1 ![] bcast_S_S50000x1 (constant (F := F) S_ .f32 0x43000000#32)
  let v69 : FVec F S50000x1 .f32 := Host.divf v67 v68
  let v70 : FVec F S50000x128 .f32 := broadcastInDim S50000x128 ![0, 1] bcast_S50000x1_S50000x128_0_1 v62
  let v71 : FVec F S50000x128 .f32 := subf v v70
  let v72 : FVec F S50000x1 .f32 := broadcastInDim S50000x1 ![] bcast_S_S50000x1 (constant (F := F) S_ .f32 0x3727C5AC#32)
  let v73 : FVec F S50000x1 .f32 := addf v69 v72
  let v74 : FVec F S50000x1 .f32 := Host.rsqrt v73
  let v75 : FVec F S50000x128 .f32 := broadcastInDim S50000x128 ![0, 1] bcast_S50000x1_S50000x128_0_1 v74
  let v76 : FVec F S50000x128 .f32 := mulf v71 v75
  let v77 : FVec F S1x128 .f32 := broadcastInDim S1x128 ![1] bcast_S128_S1x128_1 g
  let v78 : FVec F S50000x128 .f32 := broadcastInDim S50000x128 ![0, 1] bcast_S1x128_S50000x128_0_1 v77
  let v79 : FVec F S50000x128 .f32 := mulf v76 v78
  let v80 : FVec F S1x128 .f32 := broadcastInDim S1x128 ![1] bcast_S128_S1x128_1 b
  let v81 : FVec F S50000x128 .f32 := broadcastInDim S50000x128 ![0, 1] bcast_S1x128_S50000x128_0_1 v80
  addf v79 v81

noncomputable def updR (h agg : FVec F S50000x128 .f32) (U : FVec F S256x128 .f32) (ub g beta : FVec F S128 .f32) :
    FVec F S50000x128 .f32 :=
  let v44 : FVec F S50000x256 .f32 :=
    concatenate S50000x256 1 [⟨S50000x128, h⟩, ⟨S50000x128, agg⟩] concatenates_S50000x128_S50000x128_S50000x256_d1
  let v47 : FVec F S50000x128 .f32 := Host.dotGeneral dot_S50000x256_S256x128_S50000x128_1_0_0_1_n_n none v44 U
  let v50 : FVec F S1x128 .f32 := broadcastInDim S1x128 ![1] bcast_S128_S1x128_1 ub
  let v51 : FVec F S50000x128 .f32 := broadcastInDim S50000x128 ![0, 1] bcast_S1x128_S50000x128_0_1 v50
  let v52 : FVec F S50000x128 .f32 := addf v47 v51
  let r0 : FVec F S50000x128 .f32 := broadcastInDim S50000x128 ![] bcast_S_S50000x128 (constant (F := F) S_ .f32 0x00000000#32)
  let v53 : FVec F S50000x128 .f32 := maximumf v52 r0
  let v54 : FVec F S50000x128 .f32 := addf v53 h
  lnR v54 g beta

noncomputable def finR (h : FVec F S50000x128 .f32) (g b : FVec F S128 .f32) : FVec F S1x128 .f32 :=
  let v256 : FVec F S50000x128 .f32 := lnR h g b
  let v257 : FVec F S128 .f32 := Host.reduceAdd v256 (constant (F := F) S_ .f32 0x00000000#32) reducesTo_S50000x128_S128_d0 h_S_
  let v258 : FVec F S128 .f32 := broadcastInDim S128 ![] bcast_S_S128 (constant (F := F) S_ .f32 0x47435000#32)
  let v259 : FVec F S128 .f32 := Host.divf v257 v258
  broadcastInDim S1x128 ![1] bcast_S128_S1x128_1 v259

end

theorem bcastConst_col (w : BitVec 32) (i : S50000x1.Idx) :
    broadcastInDim S50000x1 (no_index ![]) bcast_S_S50000x1 (constant (F := Ideal) S_ .f32 w) i = Ideal.ofBits .f32 w := by
  rw [broadcastInDim_scalar_apply]; rfl

theorem bcastConst_full (w : BitVec 32) (i : S50000x128.Idx) :
    broadcastInDim S50000x128 (no_index ![]) bcast_S_S50000x128 (constant (F := Ideal) S_ .f32 w) i = Ideal.ofBits .f32 w := by
  rw [broadcastInDim_scalar_apply]; rfl

theorem bcastConst_vec (w : BitVec 32) (i : S128.Idx) :
    broadcastInDim S128 (no_index ![]) bcast_S_S128 (constant (F := Ideal) S_ .f32 w) i = Ideal.ofBits .f32 w := by
  rw [broadcastInDim_scalar_apply]; rfl

theorem bcastCol_apply (x : FVec Ideal S50000x1 .f32) (r : Fin 50000) (j : Fin 128) :
    broadcastInDim S50000x128 (no_index ![0, 1]) bcast_S50000x1_S50000x128_0_1 x (ix2 r j) = x (ix2 r (0 : Fin 1)) :=
  broadcastInDim_apply _ _ x (ix2 r j) (ix2 r (0 : Fin 1)) (fun a => match a with | ⟨0, _⟩ => rfl | ⟨1, _⟩ => rfl)

theorem bcastToCol_apply (x : FVec Ideal S50000 .f32) (r : Fin 50000) (c : Fin 1) :
    broadcastInDim S50000x1 (no_index ![0]) bcast_S50000_S50000x1_0 x (ix2 r c) = x (ix1 r) :=
  broadcastInDim_apply _ _ x (ix2 r c) (ix1 r) (fun a => match a with | ⟨0, _⟩ => rfl)

theorem bcastVec_apply (g : FVec Ideal S128 .f32) (r : Fin 50000) (j : Fin 128) :
    broadcastInDim S50000x128 (no_index ![0, 1]) bcast_S1x128_S50000x128_0_1 (broadcastInDim S1x128 (no_index ![1]) bcast_S128_S1x128_1 g) (ix2 r j)
      = g (ix1 j) := by
  rw [broadcastInDim_apply _ bcast_S1x128_S50000x128_0_1 _ (ix2 r j) (ix2 (0 : Fin 1) j)
    (fun a => match a with | ⟨0, _⟩ => rfl | ⟨1, _⟩ => rfl)]
  exact broadcastInDim_apply _ _ g (ix2 (0 : Fin 1) j) (ix1 j) (fun a => match a with | ⟨0, _⟩ => rfl)

theorem bcastRow_apply (x : FVec Ideal S128 .f32) (c : Fin 1) (j : Fin 128) :
    broadcastInDim S1x128 (no_index ![1]) bcast_S128_S1x128_1 x (ix2 c j) = x (ix1 j) :=
  broadcastInDim_apply _ _ x (ix2 c j) (ix1 j) (fun a => match a with | ⟨0, _⟩ => rfl)

theorem reduces_lanes : S50000x128.Reduces [1] S50000 := by decide

theorem reduces_nodes : S50000x128.Reduces [0] S128 := by decide

theorem rowSum_apply (x : FVec Ideal S50000x128 .f32) (r : Fin 50000) :
    Host.reduceAdd x (constant (F := Ideal) S_ .f32 0x00000000#32) reducesTo_S50000x128_S50000_d1 h_S_ (ix1 r)
      = ∑ k : Fin 128, x (ix2 r k) := by
  rw [hostReduceAdd_apply, Ideal.hostReduceAdd_single reducesTo_S50000x128_S50000_d1 reduces_lanes, constant_apply,
    Ideal.ofBits_zero_f32, zero_add]
  refine Finset.sum_congr rfl fun k _ => congrArg x ?_
  funext c; apply Fin.ext
  match c with
  | ⟨0, _⟩ => rfl
  | ⟨1, _⟩ => rfl

theorem colSum_apply (x : FVec Ideal S50000x128 .f32) (j : Fin 128) :
    Host.reduceAdd x (constant (F := Ideal) S_ .f32 0x00000000#32) reducesTo_S50000x128_S128_d0 h_S_ (ix1 j)
      = ∑ r : Fin 50000, x (ix2 r j) := by
  rw [hostReduceAdd_apply, Ideal.hostReduceAdd_single reducesTo_S50000x128_S128_d0 reduces_nodes, constant_apply,
    Ideal.ofBits_zero_f32, zero_add]
  refine Finset.sum_congr rfl fun k _ => congrArg x ?_
  funext c; apply Fin.ext
  match c with
  | ⟨0, _⟩ => rfl
  | ⟨1, _⟩ => rfl

theorem hostRsqrt_apply {s : Shape} (x : FVec Ideal s .f32) (i : s.Idx) : Host.rsqrt x i = Ideal.rsqrt (x i) := rfl

theorem lnR_apply (v : FVec Ideal S50000x128 .f32) (g b : FVec Ideal S128 .f32) (r : Fin 50000) (j : Fin 128) :
    lnR v g b (ix2 r j) = Cert.Spec.lnRow (fun k => v (ix2 r k)) g b j := by
  unfold lnR Cert.Spec.lnRow Cert.Spec.mean128 Cert.Spec.c128 Cert.Spec.ceps
  simp only [addf_apply, mulf_apply, subf_apply, hostDivf_apply, hostRsqrt_apply, bcastVec_apply, bcastCol_apply,
    bcastToCol_apply, bcastConst_col, rowSum_apply]

theorem dotU_apply (x : FVec Ideal S50000x256 .f32) (U : FVec Ideal S256x128 .f32) (r : Fin 50000) (j : Fin 128) :
    Host.dotGeneral dot_S50000x256_S256x128_S50000x128_1_0_0_1_n_n none x U (ix2 r j)
      = ∑ c : Fin 256, x (ix2 r c) * U (ix2 c j) :=
  StackMember.dotGeneral_plain_apply none x U r j

theorem cat_left (h agg : FVec Ideal S50000x128 .f32) (r : Fin 50000) (a : Fin 128) :
    concatenate S50000x256 1 [⟨S50000x128, h⟩, ⟨S50000x128, agg⟩] concatenates_S50000x128_S50000x128_S50000x256_d1
      (ix2 r (⟨a.val, by omega⟩ : Fin 256)) = h (ix2 r a) :=
  concatenate_pair_apply_left 1 h agg concatenates_S50000x128_S50000x128_S50000x256_d1 (ix2 r (⟨a.val, by omega⟩ : Fin 256)) rfl
    (ix2 r a) (fun b => match b with | ⟨0, _⟩ => rfl | ⟨1, _⟩ => rfl)

theorem cat_right (h agg : FVec Ideal S50000x128 .f32) (r : Fin 50000) (a : Fin 128) :
    concatenate S50000x256 1 [⟨S50000x128, h⟩, ⟨S50000x128, agg⟩] concatenates_S50000x128_S50000x128_S50000x256_d1
      (ix2 r (⟨128 + a.val, by omega⟩ : Fin 256)) = agg (ix2 r a) :=
  concatenate_pair_apply_right 1 h agg concatenates_S50000x128_S50000x128_S50000x256_d1 (ix2 r (⟨128 + a.val, by omega⟩ : Fin 256)) rfl rfl
    (ix2 r a) (fun b => match b with | ⟨0, _⟩ => fun _ => rfl | ⟨1, _⟩ => fun hne => absurd rfl hne)
    (by show a.val + 128 = 128 + a.val; omega)

theorem catDot_split (h agg : FVec Ideal S50000x128 .f32) (U : FVec Ideal S256x128 .f32) (r : Fin 50000) (j : Fin 128) :
    (∑ c : Fin 256, concatenate S50000x256 1 [⟨S50000x128, h⟩, ⟨S50000x128, agg⟩]
        concatenates_S50000x128_S50000x128_S50000x256_d1 (ix2 r c) * U (ix2 c j))
      = (∑ a : Fin 128, h (ix2 r a) * U (ix2 (⟨a.val, by omega⟩ : Fin 256) j))
        + (∑ a : Fin 128, agg (ix2 r a) * U (ix2 (⟨128 + a.val, by omega⟩ : Fin 256) j)) := by
  refine (Fin.sum_univ_add (a := 128) (b := 128) (fun c : Fin (128 + 128) =>
    concatenate S50000x256 1 [⟨S50000x128, h⟩, ⟨S50000x128, agg⟩]
      concatenates_S50000x128_S50000x128_S50000x256_d1 (ix2 r c) * U (ix2 c j))).trans ?_
  refine congrArg₂ (· + ·) (Finset.sum_congr rfl fun a _ => ?_) (Finset.sum_congr rfl fun a _ => ?_)
  · show concatenate S50000x256 1 [⟨S50000x128, h⟩, ⟨S50000x128, agg⟩]
        concatenates_S50000x128_S50000x128_S50000x256_d1 (ix2 r (⟨a.val, by omega⟩ : Fin 256)) * U (ix2 (⟨a.val, by omega⟩ : Fin 256) j) = _
    rw [cat_left]
  · show concatenate S50000x256 1 [⟨S50000x128, h⟩, ⟨S50000x128, agg⟩]
        concatenates_S50000x128_S50000x128_S50000x256_d1 (ix2 r (⟨128 + a.val, by omega⟩ : Fin 256)) * U (ix2 (⟨128 + a.val, by omega⟩ : Fin 256) j) = _
    rw [cat_right]

theorem updPre_apply (h agg : FVec Ideal S50000x128 .f32) (U : FVec Ideal S256x128 .f32) (ub : FVec Ideal S128 .f32)
    (r : Fin 50000) (j : Fin 128) :
    addf (maximumf (addf (Host.dotGeneral dot_S50000x256_S256x128_S50000x128_1_0_0_1_n_n none
        (concatenate S50000x256 1 [⟨S50000x128, h⟩, ⟨S50000x128, agg⟩] concatenates_S50000x128_S50000x128_S50000x256_d1) U)
        (broadcastInDim S50000x128 ![0, 1] bcast_S1x128_S50000x128_0_1 (broadcastInDim S1x128 ![1] bcast_S128_S1x128_1 ub)))
        (broadcastInDim S50000x128 ![] bcast_S_S50000x128 (constant (F := Ideal) S_ .f32 0x00000000#32))) h (ix2 r j)
      = Cert.Spec.updPre h agg U ub r j := by
  unfold Cert.Spec.updPre Cert.Spec.c0
  rw [addf_apply, maximumf_apply, addf_apply, dotU_apply, bcastVec_apply, bcastConst_full, catDot_split]

theorem updR_eq (h agg : FVec Ideal S50000x128 .f32) (U : FVec Ideal S256x128 .f32) (ub g beta : FVec Ideal S128 .f32) :
    updR h agg U ub g beta = Cert.Spec.mk2 (Cert.Spec.updS h agg U ub g beta) := by
  refine Cert.Spec.ext2 fun r j => ?_
  rw [Cert.Spec.mk2_ix2]
  unfold updR Cert.Spec.updS
  show lnR _ g beta (ix2 r j) = _
  rw [lnR_apply]
  exact congrArg (fun f => Cert.Spec.lnRow f g beta j) (funext fun k => updPre_apply h agg U ub r k)

theorem finR_eq (h : FVec Ideal S50000x128 .f32) (g b : FVec Ideal S128 .f32) :
    finR h g b = Cert.Spec.mk2 (fun _ j => Cert.Spec.finS h g b j) := by
  refine Cert.Spec.ext2 fun c j => ?_
  rw [Cert.Spec.mk2_ix2]
  unfold finR Cert.Spec.finS Cert.Spec.cN
  show broadcastInDim S1x128 ![1] bcast_S128_S1x128_1 (Host.divf (Host.reduceAdd (lnR h g b)
      (constant (F := Ideal) S_ .f32 0x00000000#32) reducesTo_S50000x128_S128_d0 h_S_)
      (broadcastInDim S128 ![] bcast_S_S128 (constant (F := Ideal) S_ .f32 0x47435000#32))) (ix2 c j) = _
  rw [bcastRow_apply, hostDivf_apply, colSum_apply, bcastConst_vec]
  exact congrArg (fun s => Ideal.div s (Ideal.ofBits .f32 0x47435000#32)) (Finset.sum_congr rfl fun r _ => lnR_apply h g b r j)

end Cert.ReferenceIdeal.RefStage2
-- ==== Proof.ChainRBase.lean ====
import proofs.«404470_j89532888252999_1_alg».proof.Proof.RefRun
import proofs.«404470_j89532888252999_1_alg».proof.Proof.Net
import proofs.«404470_j89532888252999_1_alg».proof.Proof.RefStageA
import proofs.«404470_j89532888252999_1_alg».proof.Proof.RefStageB
import Idealize.ShloMosaic.Lib.StableHlo.Run
import Idealize.ShloMosaic.Lib.ValueIdx

noncomputable section

namespace Cert.ReferenceIdeal.ChainR

open Cert.ReferenceIdeal Cert.ReferenceIdeal.Gen Cert.ReferenceIdeal.RefRun Idealize.ShloMosaic Idealize.ShloMosaic.TcCoe
  Idealize.SL.Sem Idealize.ShloMosaic.StableHlo

variable {F : FTy → Type} [FloatOps F]

noncomputable def rowI (a : S2x400000.Idx → BitVec 32) : S400000.Idx → BitVec 32 :=
  shapeCast S400000 (extractStridedSlice S1x400000 ![0, 0] a slices_S2x400000_S1x400000_0_0) shapeCasts_S1x400000_S400000

noncomputable def rowJ (a : S2x400000.Idx → BitVec 32) : S400000.Idx → BitVec 32 :=
  shapeCast S400000 (extractStridedSlice S1x400000 ![1, 0] a slices_S2x400000_S1x400000_1_0) shapeCasts_S1x400000_S400000

noncomputable def gathG (h : FVec F S50000x128 .f32) (idx : S400000.Idx → BitVec 32) : FVec F S400000x128 .f32 :=
  Host.gather gather_S50000x128_S400000x1_S400000x128_1_0_n_n_0_1_1128 h
    (broadcastInDim S400000x1 ![0] bcast_S400000_S400000x1_0
      (select (cmpi .slt idx (broadcastInDim S400000 ![] bcast_S_S400000 (constantI S_ 32 0#32)))
        (addi idx (broadcastInDim S400000 ![] bcast_S_S400000 (constantI S_ 32 50000#32))) idx))

noncomputable def scatG (idx : S400000.Idx → BitVec 32) (u : FVec F S400000x128 .f32) : FVec F S50000x128 .f32 :=
  Host.scatterAdd scatter_S50000x128_S400000x1_S400000x128_1_0_0_1
    (broadcastInDim S50000x128 ![] bcast_S_S50000x128 (constant S_ .f32 0x00000000#32))
    (broadcastInDim S400000x1 ![0] bcast_S400000_S400000x1_0 idx) u

noncomputable abbrev gathR : Cert.Spec.M 50000 128 → Cert.Spec.IdxV → Cert.Spec.M 400000 128 := fun h idx => gathG (F := Ideal) h idx

noncomputable abbrev scatR : Cert.Spec.IdxV → Cert.Spec.M 400000 128 → Cert.Spec.M 50000 128 := fun idx u => scatG (F := Ideal) idx u

theorem readP_h (X : Valuation τ sig (Elt F)) :
    after opsP X ↑main_v7 = RefStage.projR (X ↑main_arg0) (X ↑main_arg3) (X ↑main_arg4) := by
  simp only [opsP]
  after_results
  rfl

theorem readP_i (X : Valuation τ sig (Elt F)) : after opsP X ↑main_v1 = rowI (X ↑main_arg2) := by
  simp only [opsP]
  after_results
  rfl

theorem readP_j (X : Valuation τ sig (Elt F)) : after opsP X ↑main_v3 = rowJ (X ↑main_arg2) := by
  simp only [opsP]
  after_results
  rfl

theorem valueP (V : Valuation τ sig (Elt Ideal)) :
    after opsP V ↑main_v7 = Cert.Spec.mk2 (Cert.Spec.projS (V ↑main_arg0) (V ↑main_arg3) (V ↑main_arg4)) := by
  rw [readP_h, RefStage.projR_eq]

theorem readF (X : Valuation τ sig (Elt F)) :
    after opsF X ↑main_v260 = RefStage2.finR (X ↑main_v232) (X ↑main_arg13) (X ↑main_arg14) := by
  simp only [opsF]
  after_results_simp
  rfl

theorem valueF (X : Valuation τ sig (Elt Ideal)) :
    after opsF X ↑main_v260 = Cert.Spec.finA (X ↑main_v232) (X ↑main_arg13) (X ↑main_arg14) := by
  rw [readF, RefStage2.finR_eq]
  rfl

noncomputable abbrev argRefs : List (Ref sig .tc) :=
  [main_arg0, main_arg1, main_arg2, main_arg3, main_arg4, main_arg5, main_arg6, main_arg7, main_arg8, main_arg9,
    main_arg10, main_arg11, main_arg12, main_arg13, main_arg14]

structure Inv (V X : Valuation τ sig (Elt F)) : Prop where
  args : ∀ r ∈ argRefs, X (Proc.devRef .tc r) = V (Proc.devRef .tc r)
  i : X ↑main_v1 = rowI (V ↑main_arg2)
  j : X ↑main_v3 = rowJ (V ↑main_arg2)

theorem argRefs_notin_P : ∀ r ∈ argRefs, r ∉ opsP_W := by decide

theorem inv_P (V : Valuation τ sig (Elt F)) : Inv V (after opsP V) where
  args r hr := after_of_writes_sub opsP V opsP_writes (argRefs_notin_P r hr)
  i := readP_i V
  j := readP_j V

end Cert.ReferenceIdeal.ChainR

end
-- ==== Proof.ChainRL0.lean ====
import proofs.«404470_j89532888252999_1_alg».proof.Proof.ChainRBase

noncomputable section

namespace Cert.ReferenceIdeal.ChainR

open Cert.ReferenceIdeal Cert.ReferenceIdeal.Gen Cert.ReferenceIdeal.RefRun Idealize.ShloMosaic Idealize.ShloMosaic.TcCoe
  Idealize.SL.Sem Idealize.ShloMosaic.StableHlo

variable {F : FTy → Type} [FloatOps F]

noncomputable def wR0 (V : Valuation τ sig (Elt Ideal)) : Cert.Spec.LayerW where
  W1 := shapeCast S272x128 (extractStridedSlice S1x272x128 ![0, 0, 0] (V ↑main_arg5) slices_S3x272x128_S1x272x128_0_0_0) shapeCasts_S1x272x128_S272x128
  b1 := shapeCast S128 (extractStridedSlice S1x128 ![0, 0] (V ↑main_arg6) slices_S3x128_S1x128_0_0) shapeCasts_S1x128_S128
  W2 := shapeCast S128x128 (extractStridedSlice S1x128x128 ![0, 0, 0] (V ↑main_arg7) slices_S3x128x128_S1x128x128_0_0_0) shapeCasts_S1x128x128_S128x128
  b2 := shapeCast S128 (extractStridedSlice S1x128 ![0, 0] (V ↑main_arg8) slices_S3x128_S1x128_0_0) shapeCasts_S1x128_S128
  U := shapeCast S256x128 (extractStridedSlice S1x256x128 ![0, 0, 0] (V ↑main_arg9) slices_S3x256x128_S1x256x128_0_0_0) shapeCasts_S1x256x128_S256x128
  ub := shapeCast S128 (extractStridedSlice S1x128 ![0, 0] (V ↑main_arg10) slices_S3x128_S1x128_0_0) shapeCasts_S1x128_S128
  g := shapeCast S128 (extractStridedSlice S1x128 ![0, 0] (V ↑main_arg11) slices_S3x128_S1x128_0_0) shapeCasts_S1x128_S128
  beta := shapeCast S128 (extractStridedSlice S1x128 ![0, 0] (V ↑main_arg12) slices_S3x128_S1x128_0_0) shapeCasts_S1x128_S128

theorem wR0_congr {X V : Valuation τ sig (Elt Ideal)}
    (h : ∀ r ∈ argRefs, X (Proc.devRef .tc r) = V (Proc.devRef .tc r)) : wR0 X = wR0 V := by
  unfold wR0
  rw [h main_arg5 (by decide), h main_arg6 (by decide), h main_arg7 (by decide), h main_arg8 (by decide),
    h main_arg9 (by decide), h main_arg10 (by decide), h main_arg11 (by decide), h main_arg12 (by decide)]

theorem readG0_i (X : Valuation τ sig (Elt F)) :
    after opsG0 X ↑main_v14 = gathG (X ↑main_v7) (X ↑main_v1) := by
  simp only [opsG0]
  after_results_simp
  rfl

theorem readG0_j (X : Valuation τ sig (Elt F)) :
    after opsG0 X ↑main_v21 = gathG (X ↑main_v7) (X ↑main_v3) := by
  simp only [opsG0]
  after_results_simp
  rfl

theorem readM0 (X : Valuation τ sig (Elt F)) :
    after opsM0 X ↑main_v40 = RefStage.msgR (X ↑main_v14) (X ↑main_v21) (X ↑main_arg1)
      (shapeCast S272x128 (extractStridedSlice S1x272x128 ![0, 0, 0] (X ↑main_arg5) slices_S3x272x128_S1x272x128_0_0_0) shapeCasts_S1x272x128_S272x128)
      (shapeCast S128 (extractStridedSlice S1x128 ![0, 0] (X ↑main_arg6) slices_S3x128_S1x128_0_0) shapeCasts_S1x128_S128)
      (shapeCast S128x128 (extractStridedSlice S1x128x128 ![0, 0, 0] (X ↑main_arg7) slices_S3x128x128_S1x128x128_0_0_0) shapeCasts_S1x128x128_S128x128)
      (shapeCast S128 (extractStridedSlice S1x128 ![0, 0] (X ↑main_arg8) slices_S3x128_S1x128_0_0) shapeCasts_S1x128_S128) := by
  simp only [opsM0]
  after_results_simp
  rfl

theorem readS0 (X : Valuation τ sig (Elt F)) :
    after opsS0 X ↑main_v43 = scatG (X ↑main_v1) (X ↑main_v40) := by
  simp only [opsS0]
  after_results_simp
  rfl

theorem readU0 (X : Valuation τ sig (Elt F)) :
    after opsU0 X ↑main_v82 = RefStage2.updR (X ↑main_v7) (X ↑main_v43)
      (shapeCast S256x128 (extractStridedSlice S1x256x128 ![0, 0, 0] (X ↑main_arg9) slices_S3x256x128_S1x256x128_0_0_0) shapeCasts_S1x256x128_S256x128)
      (shapeCast S128 (extractStridedSlice S1x128 ![0, 0] (X ↑main_arg10) slices_S3x128_S1x128_0_0) shapeCasts_S1x128_S128)
      (shapeCast S128 (extractStridedSlice S1x128 ![0, 0] (X ↑main_arg11) slices_S3x128_S1x128_0_0) shapeCasts_S1x128_S128)
      (shapeCast S128 (extractStridedSlice S1x128 ![0, 0] (X ↑main_arg12) slices_S3x128_S1x128_0_0) shapeCasts_S1x128_S128) := by
  simp only [opsU0]
  after_results_simp
  rfl

noncomputable def runL0 (X : Valuation τ sig (Elt F)) : Valuation τ sig (Elt F) :=
  after opsU0 (after opsS0 (after opsM0 (after opsG0 X)))

theorem keepL0 {r : Ref sig .tc} (hG : r ∉ opsG0_W) (hM : r ∉ opsM0_W) (hS : r ∉ opsS0_W) (hU : r ∉ opsU0_W)
    (X : Valuation τ sig (Elt F)) : runL0 X (Proc.devRef .tc r) = X (Proc.devRef .tc r) := by
  unfold runL0
  rw [after_of_writes_sub opsU0 _ opsU0_writes hU, after_of_writes_sub opsS0 _ opsS0_writes hS,
    after_of_writes_sub opsM0 _ opsM0_writes hM, after_of_writes_sub opsG0 _ opsG0_writes hG]

theorem readL0 (X : Valuation τ sig (Elt F)) :
    runL0 X ↑main_v82 = RefStage2.updR (X ↑main_v7)
      (scatG (X ↑main_v1) (RefStage.msgR (gathG (X ↑main_v7) (X ↑main_v1)) (gathG (X ↑main_v7) (X ↑main_v3)) (X ↑main_arg1)
        (shapeCast S272x128 (extractStridedSlice S1x272x128 ![0, 0, 0] (X ↑main_arg5) slices_S3x272x128_S1x272x128_0_0_0) shapeCasts_S1x272x128_S272x128)
        (shapeCast S128 (extractStridedSlice S1x128 ![0, 0] (X ↑main_arg6) slices_S3x128_S1x128_0_0) shapeCasts_S1x128_S128)
        (shapeCast S128x128 (extractStridedSlice S1x128x128 ![0, 0, 0] (X ↑main_arg7) slices_S3x128x128_S1x128x128_0_0_0) shapeCasts_S1x128x128_S128x128)
        (shapeCast S128 (extractStridedSlice S1x128 ![0, 0] (X ↑main_arg8) slices_S3x128_S1x128_0_0) shapeCasts_S1x128_S128)))
      (shapeCast S256x128 (extractStridedSlice S1x256x128 ![0, 0, 0] (X ↑main_arg9) slices_S3x256x128_S1x256x128_0_0_0) shapeCasts_S1x256x128_S256x128)
      (shapeCast S128 (extractStridedSlice S1x128 ![0, 0] (X ↑main_arg10) slices_S3x128_S1x128_0_0) shapeCasts_S1x128_S128)
      (shapeCast S128 (extractStridedSlice S1x128 ![0, 0] (X ↑main_arg11) slices_S3x128_S1x128_0_0) shapeCasts_S1x128_S128)
      (shapeCast S128 (extractStridedSlice S1x128 ![0, 0] (X ↑main_arg12) slices_S3x128_S1x128_0_0) shapeCasts_S1x128_S128) := by
  unfold runL0
  rw [readU0]

  rw [after_of_writes_sub opsS0 _ opsS0_writes (r := main_v7) (by decide),
    after_of_writes_sub opsS0 _ opsS0_writes (r := main_arg9) (by decide),
    after_of_writes_sub opsS0 _ opsS0_writes (r := main_arg10) (by decide),
    after_of_writes_sub opsS0 _ opsS0_writes (r := main_arg11) (by decide),
    after_of_writes_sub opsS0 _ opsS0_writes (r := main_arg12) (by decide)]
  rw [readS0]

  rw [after_of_writes_sub opsM0 _ opsM0_writes (r := main_v7) (by decide),
    after_of_writes_sub opsM0 _ opsM0_writes (r := main_arg9) (by decide),
    after_of_writes_sub opsM0 _ opsM0_writes (r := main_arg10) (by decide),
    after_of_writes_sub opsM0 _ opsM0_writes (r := main_arg11) (by decide),
    after_of_writes_sub opsM0 _ opsM0_writes (r := main_arg12) (by decide),
    after_of_writes_sub opsM0 _ opsM0_writes (r := main_v1) (by decide)]
  rw [readM0]

  rw [after_of_writes_sub opsG0 _ opsG0_writes (r := main_v7) (by decide),
    after_of_writes_sub opsG0 _ opsG0_writes (r := main_arg9) (by decide),
    after_of_writes_sub opsG0 _ opsG0_writes (r := main_arg10) (by decide),
    after_of_writes_sub opsG0 _ opsG0_writes (r := main_arg11) (by decide),
    after_of_writes_sub opsG0 _ opsG0_writes (r := main_arg12) (by decide),
    after_of_writes_sub opsG0 _ opsG0_writes (r := main_v1) (by decide),
    after_of_writes_sub opsG0 _ opsG0_writes (r := main_arg1) (by decide),
    after_of_writes_sub opsG0 _ opsG0_writes (r := main_arg5) (by decide),
    after_of_writes_sub opsG0 _ opsG0_writes (r := main_arg6) (by decide),
    after_of_writes_sub opsG0 _ opsG0_writes (r := main_arg7) (by decide),
    after_of_writes_sub opsG0 _ opsG0_writes (r := main_arg8) (by decide)]
  rw [readG0_i, readG0_j]

theorem layer0_value (X : Valuation τ sig (Elt Ideal)) :
    runL0 X ↑main_v82
      = Cert.Spec.layer gathR scatR (X ↑main_v1) (X ↑main_v3) (X ↑main_arg1) (wR0 X) (X ↑main_v7) := by
  rw [readL0, RefStage.msgR_eq, RefStage2.updR_eq]
  rfl

theorem argRefs_notin_G0 : ∀ r ∈ argRefs, r ∉ opsG0_W := by decide
theorem argRefs_notin_M0 : ∀ r ∈ argRefs, r ∉ opsM0_W := by decide
theorem argRefs_notin_S0 : ∀ r ∈ argRefs, r ∉ opsS0_W := by decide
theorem argRefs_notin_U0 : ∀ r ∈ argRefs, r ∉ opsU0_W := by decide

theorem Inv.throughL0 {V X : Valuation τ sig (Elt F)} (h : Inv V X) : Inv V (runL0 X) where
  args r hr := (keepL0 (argRefs_notin_G0 r hr) (argRefs_notin_M0 r hr) (argRefs_notin_S0 r hr) (argRefs_notin_U0 r hr) X).trans
    (h.args r hr)
  i := (keepL0 (r := main_v1) (by decide) (by decide) (by decide) (by decide) X).trans h.i
  j := (keepL0 (r := main_v3) (by decide) (by decide) (by decide) (by decide) X).trans h.j

end Cert.ReferenceIdeal.ChainR

end
-- ==== Proof.ChainRL1.lean ====
import proofs.«404470_j89532888252999_1_alg».proof.Proof.ChainRBase

noncomputable section

namespace Cert.ReferenceIdeal.ChainR

open Cert.ReferenceIdeal Cert.ReferenceIdeal.Gen Cert.ReferenceIdeal.RefRun Idealize.ShloMosaic Idealize.ShloMosaic.TcCoe
  Idealize.SL.Sem Idealize.ShloMosaic.StableHlo

variable {F : FTy → Type} [FloatOps F]

noncomputable def wR1 (V : Valuation τ sig (Elt Ideal)) : Cert.Spec.LayerW where
  W1 := shapeCast S272x128 (extractStridedSlice S1x272x128 ![1, 0, 0] (V ↑main_arg5) slices_S3x272x128_S1x272x128_1_0_0) shapeCasts_S1x272x128_S272x128
  b1 := shapeCast S128 (extractStridedSlice S1x128 ![1, 0] (V ↑main_arg6) slices_S3x128_S1x128_1_0) shapeCasts_S1x128_S128
  W2 := shapeCast S128x128 (extractStridedSlice S1x128x128 ![1, 0, 0] (V ↑main_arg7) slices_S3x128x128_S1x128x128_1_0_0) shapeCasts_S1x128x128_S128x128
  b2 := shapeCast S128 (extractStridedSlice S1x128 ![1, 0] (V ↑main_arg8) slices_S3x128_S1x128_1_0) shapeCasts_S1x128_S128
  U := shapeCast S256x128 (extractStridedSlice S1x256x128 ![1, 0, 0] (V ↑main_arg9) slices_S3x256x128_S1x256x128_1_0_0) shapeCasts_S1x256x128_S256x128
  ub := shapeCast S128 (extractStridedSlice S1x128 ![1, 0] (V ↑main_arg10) slices_S3x128_S1x128_1_0) shapeCasts_S1x128_S128
  g := shapeCast S128 (extractStridedSlice S1x128 ![1, 0] (V ↑main_arg11) slices_S3x128_S1x128_1_0) shapeCasts_S1x128_S128
  beta := shapeCast S128 (extractStridedSlice S1x128 ![1, 0] (V ↑main_arg12) slices_S3x128_S1x128_1_0) shapeCasts_S1x128_S128

theorem wR1_congr {X V : Valuation τ sig (Elt Ideal)}
    (h : ∀ r ∈ argRefs, X (Proc.devRef .tc r) = V (Proc.devRef .tc r)) : wR1 X = wR1 V := by
  unfold wR1
  rw [h main_arg5 (by decide), h main_arg6 (by decide), h main_arg7 (by decide), h main_arg8 (by decide),
    h main_arg9 (by decide), h main_arg10 (by decide), h main_arg11 (by decide), h main_arg12 (by decide)]

theorem readG1_i (X : Valuation τ sig (Elt F)) :
    after opsG1 X ↑main_v89 = gathG (X ↑main_v82) (X ↑main_v1) := by
  simp only [opsG1]
  after_results_simp
  rfl

theorem readG1_j (X : Valuation τ sig (Elt F)) :
    after opsG1 X ↑main_v96 = gathG (X ↑main_v82) (X ↑main_v3) := by
  simp only [opsG1]
  after_results_simp
  rfl

theorem readM1 (X : Valuation τ sig (Elt F)) :
    after opsM1 X ↑main_v115 = RefStage.msgR (X ↑main_v89) (X ↑main_v96) (X ↑main_arg1)
      (shapeCast S272x128 (extractStridedSlice S1x272x128 ![1, 0, 0] (X ↑main_arg5) slices_S3x272x128_S1x272x128_1_0_0) shapeCasts_S1x272x128_S272x128)
      (shapeCast S128 (extractStridedSlice S1x128 ![1, 0] (X ↑main_arg6) slices_S3x128_S1x128_1_0) shapeCasts_S1x128_S128)
      (shapeCast S128x128 (extractStridedSlice S1x128x128 ![1, 0, 0] (X ↑main_arg7) slices_S3x128x128_S1x128x128_1_0_0) shapeCasts_S1x128x128_S128x128)
      (shapeCast S128 (extractStridedSlice S1x128 ![1, 0] (X ↑main_arg8) slices_S3x128_S1x128_1_0) shapeCasts_S1x128_S128) := by
  simp only [opsM1]
  after_results_simp
  rfl

theorem readS1 (X : Valuation τ sig (Elt F)) :
    after opsS1 X ↑main_v118 = scatG (X ↑main_v1) (X ↑main_v115) := by
  simp only [opsS1]
  after_results_simp
  rfl

theorem readU1 (X : Valuation τ sig (Elt F)) :
    after opsU1 X ↑main_v157 = RefStage2.updR (X ↑main_v82) (X ↑main_v118)
      (shapeCast S256x128 (extractStridedSlice S1x256x128 ![1, 0, 0] (X ↑main_arg9) slices_S3x256x128_S1x256x128_1_0_0) shapeCasts_S1x256x128_S256x128)
      (shapeCast S128 (extractStridedSlice S1x128 ![1, 0] (X ↑main_arg10) slices_S3x128_S1x128_1_0) shapeCasts_S1x128_S128)
      (shapeCast S128 (extractStridedSlice S1x128 ![1, 0] (X ↑main_arg11) slices_S3x128_S1x128_1_0) shapeCasts_S1x128_S128)
      (shapeCast S128 (extractStridedSlice S1x128 ![1, 0] (X ↑main_arg12) slices_S3x128_S1x128_1_0) shapeCasts_S1x128_S128) := by
  simp only [opsU1]
  after_results_simp
  rfl

noncomputable def runL1 (X : Valuation τ sig (Elt F)) : Valuation τ sig (Elt F) :=
  after opsU1 (after opsS1 (after opsM1 (after opsG1 X)))

theorem keepL1 {r : Ref sig .tc} (hG : r ∉ opsG1_W) (hM : r ∉ opsM1_W) (hS : r ∉ opsS1_W) (hU : r ∉ opsU1_W)
    (X : Valuation τ sig (Elt F)) : runL1 X (Proc.devRef .tc r) = X (Proc.devRef .tc r) := by
  unfold runL1
  rw [after_of_writes_sub opsU1 _ opsU1_writes hU, after_of_writes_sub opsS1 _ opsS1_writes hS,
    after_of_writes_sub opsM1 _ opsM1_writes hM, after_of_writes_sub opsG1 _ opsG1_writes hG]

theorem readL1 (X : Valuation τ sig (Elt F)) :
    runL1 X ↑main_v157 = RefStage2.updR (X ↑main_v82)
      (scatG (X ↑main_v1) (RefStage.msgR (gathG (X ↑main_v82) (X ↑main_v1)) (gathG (X ↑main_v82) (X ↑main_v3)) (X ↑main_arg1)
        (shapeCast S272x128 (extractStridedSlice S1x272x128 ![1, 0, 0] (X ↑main_arg5) slices_S3x272x128_S1x272x128_1_0_0) shapeCasts_S1x272x128_S272x128)
        (shapeCast S128 (extractStridedSlice S1x128 ![1, 0] (X ↑main_arg6) slices_S3x128_S1x128_1_0) shapeCasts_S1x128_S128)
        (shapeCast S128x128 (extractStridedSlice S1x128x128 ![1, 0, 0] (X ↑main_arg7) slices_S3x128x128_S1x128x128_1_0_0) shapeCasts_S1x128x128_S128x128)
        (shapeCast S128 (extractStridedSlice S1x128 ![1, 0] (X ↑main_arg8) slices_S3x128_S1x128_1_0) shapeCasts_S1x128_S128)))
      (shapeCast S256x128 (extractStridedSlice S1x256x128 ![1, 0, 0] (X ↑main_arg9) slices_S3x256x128_S1x256x128_1_0_0) shapeCasts_S1x256x128_S256x128)
      (shapeCast S128 (extractStridedSlice S1x128 ![1, 0] (X ↑main_arg10) slices_S3x128_S1x128_1_0) shapeCasts_S1x128_S128)
      (shapeCast S128 (extractStridedSlice S1x128 ![1, 0] (X ↑main_arg11) slices_S3x128_S1x128_1_0) shapeCasts_S1x128_S128)
      (shapeCast S128 (extractStridedSlice S1x128 ![1, 0] (X ↑main_arg12) slices_S3x128_S1x128_1_0) shapeCasts_S1x128_S128) := by
  unfold runL1
  rw [readU1]

  rw [after_of_writes_sub opsS1 _ opsS1_writes (r := main_v82) (by decide),
    after_of_writes_sub opsS1 _ opsS1_writes (r := main_arg9) (by decide),
    after_of_writes_sub opsS1 _ opsS1_writes (r := main_arg10) (by decide),
    after_of_writes_sub opsS1 _ opsS1_writes (r := main_arg11) (by decide),
    after_of_writes_sub opsS1 _ opsS1_writes (r := main_arg12) (by decide)]
  rw [readS1]

  rw [after_of_writes_sub opsM1 _ opsM1_writes (r := main_v82) (by decide),
    after_of_writes_sub opsM1 _ opsM1_writes (r := main_arg9) (by decide),
    after_of_writes_sub opsM1 _ opsM1_writes (r := main_arg10) (by decide),
    after_of_writes_sub opsM1 _ opsM1_writes (r := main_arg11) (by decide),
    after_of_writes_sub opsM1 _ opsM1_writes (r := main_arg12) (by decide),
    after_of_writes_sub opsM1 _ opsM1_writes (r := main_v1) (by decide)]
  rw [readM1]

  rw [after_of_writes_sub opsG1 _ opsG1_writes (r := main_v82) (by decide),
    after_of_writes_sub opsG1 _ opsG1_writes (r := main_arg9) (by decide),
    after_of_writes_sub opsG1 _ opsG1_writes (r := main_arg10) (by decide),
    after_of_writes_sub opsG1 _ opsG1_writes (r := main_arg11) (by decide),
    after_of_writes_sub opsG1 _ opsG1_writes (r := main_arg12) (by decide),
    after_of_writes_sub opsG1 _ opsG1_writes (r := main_v1) (by decide),
    after_of_writes_sub opsG1 _ opsG1_writes (r := main_arg1) (by decide),
    after_of_writes_sub opsG1 _ opsG1_writes (r := main_arg5) (by decide),
    after_of_writes_sub opsG1 _ opsG1_writes (r := main_arg6) (by decide),
    after_of_writes_sub opsG1 _ opsG1_writes (r := main_arg7) (by decide),
    after_of_writes_sub opsG1 _ opsG1_writes (r := main_arg8) (by decide)]
  rw [readG1_i, readG1_j]

theorem layer1_value (X : Valuation τ sig (Elt Ideal)) :
    runL1 X ↑main_v157
      = Cert.Spec.layer gathR scatR (X ↑main_v1) (X ↑main_v3) (X ↑main_arg1) (wR1 X) (X ↑main_v82) := by
  rw [readL1, RefStage.msgR_eq, RefStage2.updR_eq]
  rfl

theorem argRefs_notin_G1 : ∀ r ∈ argRefs, r ∉ opsG1_W := by decide
theorem argRefs_notin_M1 : ∀ r ∈ argRefs, r ∉ opsM1_W := by decide
theorem argRefs_notin_S1 : ∀ r ∈ argRefs, r ∉ opsS1_W := by decide
theorem argRefs_notin_U1 : ∀ r ∈ argRefs, r ∉ opsU1_W := by decide

theorem Inv.throughL1 {V X : Valuation τ sig (Elt F)} (h : Inv V X) : Inv V (runL1 X) where
  args r hr := (keepL1 (argRefs_notin_G1 r hr) (argRefs_notin_M1 r hr) (argRefs_notin_S1 r hr) (argRefs_notin_U1 r hr) X).trans
    (h.args r hr)
  i := (keepL1 (r := main_v1) (by decide) (by decide) (by decide) (by decide) X).trans h.i
  j := (keepL1 (r := main_v3) (by decide) (by decide) (by decide) (by decide) X).trans h.j

end Cert.ReferenceIdeal.ChainR

end
-- ==== Proof.ChainRL2.lean ====
import proofs.«404470_j89532888252999_1_alg».proof.Proof.ChainRBase

noncomputable section

namespace Cert.ReferenceIdeal.ChainR

open Cert.ReferenceIdeal Cert.ReferenceIdeal.Gen Cert.ReferenceIdeal.RefRun Idealize.ShloMosaic Idealize.ShloMosaic.TcCoe
  Idealize.SL.Sem Idealize.ShloMosaic.StableHlo

variable {F : FTy → Type} [FloatOps F]

noncomputable def wR2 (V : Valuation τ sig (Elt Ideal)) : Cert.Spec.LayerW where
  W1 := shapeCast S272x128 (extractStridedSlice S1x272x128 ![2, 0, 0] (V ↑main_arg5) slices_S3x272x128_S1x272x128_2_0_0) shapeCasts_S1x272x128_S272x128
  b1 := shapeCast S128 (extractStridedSlice S1x128 ![2, 0] (V ↑main_arg6) slices_S3x128_S1x128_2_0) shapeCasts_S1x128_S128
  W2 := shapeCast S128x128 (extractStridedSlice S1x128x128 ![2, 0, 0] (V ↑main_arg7) slices_S3x128x128_S1x128x128_2_0_0) shapeCasts_S1x128x128_S128x128
  b2 := shapeCast S128 (extractStridedSlice S1x128 ![2, 0] (V ↑main_arg8) slices_S3x128_S1x128_2_0) shapeCasts_S1x128_S128
  U := shapeCast S256x128 (extractStridedSlice S1x256x128 ![2, 0, 0] (V ↑main_arg9) slices_S3x256x128_S1x256x128_2_0_0) shapeCasts_S1x256x128_S256x128
  ub := shapeCast S128 (extractStridedSlice S1x128 ![2, 0] (V ↑main_arg10) slices_S3x128_S1x128_2_0) shapeCasts_S1x128_S128
  g := shapeCast S128 (extractStridedSlice S1x128 ![2, 0] (V ↑main_arg11) slices_S3x128_S1x128_2_0) shapeCasts_S1x128_S128
  beta := shapeCast S128 (extractStridedSlice S1x128 ![2, 0] (V ↑main_arg12) slices_S3x128_S1x128_2_0) shapeCasts_S1x128_S128

theorem wR2_congr {X V : Valuation τ sig (Elt Ideal)}
    (h : ∀ r ∈ argRefs, X (Proc.devRef .tc r) = V (Proc.devRef .tc r)) : wR2 X = wR2 V := by
  unfold wR2
  rw [h main_arg5 (by decide), h main_arg6 (by decide), h main_arg7 (by decide), h main_arg8 (by decide),
    h main_arg9 (by decide), h main_arg10 (by decide), h main_arg11 (by decide), h main_arg12 (by decide)]

theorem readG2_i (X : Valuation τ sig (Elt F)) :
    after opsG2 X ↑main_v164 = gathG (X ↑main_v157) (X ↑main_v1) := by
  simp only [opsG2]
  after_results_simp
  rfl

theorem readG2_j (X : Valuation τ sig (Elt F)) :
    after opsG2 X ↑main_v171 = gathG (X ↑main_v157) (X ↑main_v3) := by
  simp only [opsG2]
  after_results_simp
  rfl

theorem readM2 (X : Valuation τ sig (Elt F)) :
    after opsM2 X ↑main_v190 = RefStage.msgR (X ↑main_v164) (X ↑main_v171) (X ↑main_arg1)
      (shapeCast S272x128 (extractStridedSlice S1x272x128 ![2, 0, 0] (X ↑main_arg5) slices_S3x272x128_S1x272x128_2_0_0) shapeCasts_S1x272x128_S272x128)
      (shapeCast S128 (extractStridedSlice S1x128 ![2, 0] (X ↑main_arg6) slices_S3x128_S1x128_2_0) shapeCasts_S1x128_S128)
      (shapeCast S128x128 (extractStridedSlice S1x128x128 ![2, 0, 0] (X ↑main_arg7) slices_S3x128x128_S1x128x128_2_0_0) shapeCasts_S1x128x128_S128x128)
      (shapeCast S128 (extractStridedSlice S1x128 ![2, 0] (X ↑main_arg8) slices_S3x128_S1x128_2_0) shapeCasts_S1x128_S128) := by
  simp only [opsM2]
  after_results_simp
  rfl

theorem readS2 (X : Valuation τ sig (Elt F)) :
    after opsS2 X ↑main_v193 = scatG (X ↑main_v1) (X ↑main_v190) := by
  simp only [opsS2]
  after_results_simp
  rfl

theorem readU2 (X : Valuation τ sig (Elt F)) :
    after opsU2 X ↑main_v232 = RefStage2.updR (X ↑main_v157) (X ↑main_v193)
      (shapeCast S256x128 (extractStridedSlice S1x256x128 ![2, 0, 0] (X ↑main_arg9) slices_S3x256x128_S1x256x128_2_0_0) shapeCasts_S1x256x128_S256x128)
      (shapeCast S128 (extractStridedSlice S1x128 ![2, 0] (X ↑main_arg10) slices_S3x128_S1x128_2_0) shapeCasts_S1x128_S128)
      (shapeCast S128 (extractStridedSlice S1x128 ![2, 0] (X ↑main_arg11) slices_S3x128_S1x128_2_0) shapeCasts_S1x128_S128)
      (shapeCast S128 (extractStridedSlice S1x128 ![2, 0] (X ↑main_arg12) slices_S3x128_S1x128_2_0) shapeCasts_S1x128_S128) := by
  simp only [opsU2]
  after_results_simp
  rfl

noncomputable def runL2 (X : Valuation τ sig (Elt F)) : Valuation τ sig (Elt F) :=
  after opsU2 (after opsS2 (after opsM2 (after opsG2 X)))

theorem keepL2 {r : Ref sig .tc} (hG : r ∉ opsG2_W) (hM : r ∉ opsM2_W) (hS : r ∉ opsS2_W) (hU : r ∉ opsU2_W)
    (X : Valuation τ sig (Elt F)) : runL2 X (Proc.devRef .tc r) = X (Proc.devRef .tc r) := by
  unfold runL2
  rw [after_of_writes_sub opsU2 _ opsU2_writes hU, after_of_writes_sub opsS2 _ opsS2_writes hS,
    after_of_writes_sub opsM2 _ opsM2_writes hM, after_of_writes_sub opsG2 _ opsG2_writes hG]

theorem readL2 (X : Valuation τ sig (Elt F)) :
    runL2 X ↑main_v232 = RefStage2.updR (X ↑main_v157)
      (scatG (X ↑main_v1) (RefStage.msgR (gathG (X ↑main_v157) (X ↑main_v1)) (gathG (X ↑main_v157) (X ↑main_v3)) (X ↑main_arg1)
        (shapeCast S272x128 (extractStridedSlice S1x272x128 ![2, 0, 0] (X ↑main_arg5) slices_S3x272x128_S1x272x128_2_0_0) shapeCasts_S1x272x128_S272x128)
        (shapeCast S128 (extractStridedSlice S1x128 ![2, 0] (X ↑main_arg6) slices_S3x128_S1x128_2_0) shapeCasts_S1x128_S128)
        (shapeCast S128x128 (extractStridedSlice S1x128x128 ![2, 0, 0] (X ↑main_arg7) slices_S3x128x128_S1x128x128_2_0_0) shapeCasts_S1x128x128_S128x128)
        (shapeCast S128 (extractStridedSlice S1x128 ![2, 0] (X ↑main_arg8) slices_S3x128_S1x128_2_0) shapeCasts_S1x128_S128)))
      (shapeCast S256x128 (extractStridedSlice S1x256x128 ![2, 0, 0] (X ↑main_arg9) slices_S3x256x128_S1x256x128_2_0_0) shapeCasts_S1x256x128_S256x128)
      (shapeCast S128 (extractStridedSlice S1x128 ![2, 0] (X ↑main_arg10) slices_S3x128_S1x128_2_0) shapeCasts_S1x128_S128)
      (shapeCast S128 (extractStridedSlice S1x128 ![2, 0] (X ↑main_arg11) slices_S3x128_S1x128_2_0) shapeCasts_S1x128_S128)
      (shapeCast S128 (extractStridedSlice S1x128 ![2, 0] (X ↑main_arg12) slices_S3x128_S1x128_2_0) shapeCasts_S1x128_S128) := by
  unfold runL2
  rw [readU2]

  rw [after_of_writes_sub opsS2 _ opsS2_writes (r := main_v157) (by decide),
    after_of_writes_sub opsS2 _ opsS2_writes (r := main_arg9) (by decide),
    after_of_writes_sub opsS2 _ opsS2_writes (r := main_arg10) (by decide),
    after_of_writes_sub opsS2 _ opsS2_writes (r := main_arg11) (by decide),
    after_of_writes_sub opsS2 _ opsS2_writes (r := main_arg12) (by decide)]
  rw [readS2]

  rw [after_of_writes_sub opsM2 _ opsM2_writes (r := main_v157) (by decide),
    after_of_writes_sub opsM2 _ opsM2_writes (r := main_arg9) (by decide),
    after_of_writes_sub opsM2 _ opsM2_writes (r := main_arg10) (by decide),
    after_of_writes_sub opsM2 _ opsM2_writes (r := main_arg11) (by decide),
    after_of_writes_sub opsM2 _ opsM2_writes (r := main_arg12) (by decide),
    after_of_writes_sub opsM2 _ opsM2_writes (r := main_v1) (by decide)]
  rw [readM2]

  rw [after_of_writes_sub opsG2 _ opsG2_writes (r := main_v157) (by decide),
    after_of_writes_sub opsG2 _ opsG2_writes (r := main_arg9) (by decide),
    after_of_writes_sub opsG2 _ opsG2_writes (r := main_arg10) (by decide),
    after_of_writes_sub opsG2 _ opsG2_writes (r := main_arg11) (by decide),
    after_of_writes_sub opsG2 _ opsG2_writes (r := main_arg12) (by decide),
    after_of_writes_sub opsG2 _ opsG2_writes (r := main_v1) (by decide),
    after_of_writes_sub opsG2 _ opsG2_writes (r := main_arg1) (by decide),
    after_of_writes_sub opsG2 _ opsG2_writes (r := main_arg5) (by decide),
    after_of_writes_sub opsG2 _ opsG2_writes (r := main_arg6) (by decide),
    after_of_writes_sub opsG2 _ opsG2_writes (r := main_arg7) (by decide),
    after_of_writes_sub opsG2 _ opsG2_writes (r := main_arg8) (by decide)]
  rw [readG2_i, readG2_j]

theorem layer2_value (X : Valuation τ sig (Elt Ideal)) :
    runL2 X ↑main_v232
      = Cert.Spec.layer gathR scatR (X ↑main_v1) (X ↑main_v3) (X ↑main_arg1) (wR2 X) (X ↑main_v157) := by
  rw [readL2, RefStage.msgR_eq, RefStage2.updR_eq]
  rfl

theorem argRefs_notin_G2 : ∀ r ∈ argRefs, r ∉ opsG2_W := by decide
theorem argRefs_notin_M2 : ∀ r ∈ argRefs, r ∉ opsM2_W := by decide
theorem argRefs_notin_S2 : ∀ r ∈ argRefs, r ∉ opsS2_W := by decide
theorem argRefs_notin_U2 : ∀ r ∈ argRefs, r ∉ opsU2_W := by decide

theorem Inv.throughL2 {V X : Valuation τ sig (Elt F)} (h : Inv V X) : Inv V (runL2 X) where
  args r hr := (keepL2 (argRefs_notin_G2 r hr) (argRefs_notin_M2 r hr) (argRefs_notin_S2 r hr) (argRefs_notin_U2 r hr) X).trans
    (h.args r hr)
  i := (keepL2 (r := main_v1) (by decide) (by decide) (by decide) (by decide) X).trans h.i
  j := (keepL2 (r := main_v3) (by decide) (by decide) (by decide) (by decide) X).trans h.j

end Cert.ReferenceIdeal.ChainR

end
-- ==== Proof.ChainR.lean ====
import proofs.«404470_j89532888252999_1_alg».proof.Proof.ChainRL0
import proofs.«404470_j89532888252999_1_alg».proof.Proof.ChainRL1
import proofs.«404470_j89532888252999_1_alg».proof.Proof.ChainRL2

noncomputable section

namespace Cert.ReferenceIdeal.ChainR

open Cert.ReferenceIdeal Cert.ReferenceIdeal.Gen Cert.ReferenceIdeal.RefRun Idealize.ShloMosaic Idealize.ShloMosaic.TcCoe
  Idealize.SL.Sem Idealize.ShloMosaic.StableHlo

variable {F : FTy → Type} [FloatOps F]

theorem after_ops (V : Valuation τ sig (Elt F)) :
    after ops V = after opsF (runL2 (runL1 (runL0 (after opsP V)))) := by
  simp only [ops, StableHlo.after_append]
  rfl

theorem ref_value_named (V : Valuation τ sig (Elt Ideal)) :
    after (ops (F := Ideal)) V ↑main_v260
      = Cert.Spec.net gathR scatR (rowI (V ↑main_arg2)) (rowJ (V ↑main_arg2)) (V ↑main_arg0) (V ↑main_arg1)
          (V ↑main_arg3) (V ↑main_arg4) (wR0 V) (wR1 V) (wR2 V) (V ↑main_arg13) (V ↑main_arg14) := by
  have I1 := inv_P V
  have I2 := I1.throughL0
  have I3 := I2.throughL1
  have I4 := I3.throughL2
  rw [after_ops, valueF, layer2_value, layer1_value, layer0_value, valueP,
    I4.args main_arg13 (by decide), I4.args main_arg14 (by decide),
    I3.i, I3.j, I3.args main_arg1 (by decide), wR2_congr I3.args,
    I2.i, I2.j, I2.args main_arg1 (by decide), wR1_congr I2.args,
    I1.i, I1.j, I1.args main_arg1 (by decide), wR0_congr I1.args]
  rfl

theorem ref_value (V : Valuation τ sig (Elt Ideal)) :
    StableHlo.after (RefRun.ops (F := Ideal)) V (Proc.devRef .tc main_v260)
      = Cert.Spec.net
          (fun h idx => Host.gather gather_S50000x128_S400000x1_S400000x128_1_0_n_n_0_1_1128 h
            (broadcastInDim S400000x1 ![0] bcast_S400000_S400000x1_0
              (select (cmpi .slt idx (broadcastInDim S400000 ![] bcast_S_S400000 (constantI S_ 32 0#32)))
                (addi idx (broadcastInDim S400000 ![] bcast_S_S400000 (constantI S_ 32 50000#32))) idx)))
          (fun idx u => Host.scatterAdd scatter_S50000x128_S400000x1_S400000x128_1_0_0_1
            (broadcastInDim S50000x128 ![] bcast_S_S50000x128 (constant (F := Ideal) S_ .f32 0x00000000#32))
            (broadcastInDim S400000x1 ![0] bcast_S400000_S400000x1_0 idx) u)
          (rowI (V ↑main_arg2)) (rowJ (V ↑main_arg2)) (V ↑main_arg0) (V ↑main_arg1) (V ↑main_arg3) (V ↑main_arg4)
          (wR0 V) (wR1 V) (wR2 V) (V ↑main_arg13) (V ↑main_arg14) :=
  ref_value_named V

end Cert.ReferenceIdeal.ChainR

end
-- ==== Proof.Bridge.lean ====
import proofs.«404470_j89532888252999_1_alg».proof.Proof.TakeK
import proofs.«404470_j89532888252999_1_alg».proof.Proof.Gen.KernelIdeal
import proofs.«404470_j89532888252999_1_alg».proof.Proof.Gen.ReferenceIdeal
import proofs.«404470_j89532888252999_1_alg».proof.Proof.ChainR

noncomputable section

namespace Cert.KernelIdeal.Bridge

open Cert.KernelIdeal Idealize.ShloMosaic Idealize.ShloMosaic.TcCoe
open Facts₀ Facts

def layerK0 := TakeK.layerAt 0 slices_S3x272x128_S1x272x128_0_0_0 slices_S3x128_S1x128_0_0 slices_S3x128x128_S1x128x128_0_0_0 slices_S3x256x128_S1x256x128_0_0_0
def layerK1 := TakeK.layerAt 1 slices_S3x272x128_S1x272x128_1_0_0 slices_S3x128_S1x128_1_0 slices_S3x128x128_S1x128x128_1_0_0 slices_S3x256x128_S1x256x128_1_0_0
def layerK2 := TakeK.layerAt 2 slices_S3x272x128_S1x272x128_2_0_0 slices_S3x128_S1x128_2_0 slices_S3x128x128_S1x128x128_2_0_0 slices_S3x256x128_S1x256x128_2_0_0

abbrev scatK : Cert.Spec.IdxV → Cert.Spec.M 400000 128 → Cert.Spec.M 50000 128 := fun idx u =>
  Host.scatterAdd scatter_S50000x128_S400000x1_S400000x128_1_0_0_1
    (broadcastInDim S50000x128 ![] bcast_S_S50000x128 (constant (F := Ideal) S_ .f32 0x00000000#32))
    (broadcastInDim S400000x1 ![0] bcast_S400000_S400000x1_0 idx) u

abbrev gathK : Cert.Spec.M 50000 128 → Cert.Spec.IdxV → Cert.Spec.M 400000 128 := fun h idx => TakeK.gathK (F := Ideal) h idx

def netK (a0 : FVec Ideal S50000x128 .f32) (a1 : FVec Ideal S400000x16 .f32) (a2 : IVec S2x400000 32) (a3 : FVec Ideal S128x128 .f32)
    (a4 : FVec Ideal S128 .f32) (a5 : FVec Ideal S3x272x128 .f32) (a6 : FVec Ideal S3x128 .f32) (a7 : FVec Ideal S3x128x128 .f32)
    (a8 : FVec Ideal S3x128 .f32) (a9 : FVec Ideal S3x256x128 .f32) (a10 a11 a12 : FVec Ideal S3x128 .f32) (a13 a14 : FVec Ideal S128 .f32) :
    Cert.Spec.M 1 128 :=
  Cert.Spec.net gathK scatK (TakeK.rowI a2) (TakeK.rowJ a2) a0 a1 (truncf .bf16 a3 bitsLt_bf16_f32) a4
    (layerK0 a5 a6 a7 a8 a9 a10 a11 a12) (layerK1 a5 a6 a7 a8 a9 a10 a11 a12) (layerK2 a5 a6 a7 a8 a9 a10 a11 a12) a13 a14

theorem ref_eq_netK (V : Valuation Cert.ReferenceIdeal.τ Cert.ReferenceIdeal.sig (Elt Ideal))
    (a0 : FVec Ideal S50000x128 .f32) (a1 : FVec Ideal S400000x16 .f32) (a2 : IVec S2x400000 32) (a3 : FVec Ideal S128x128 .f32) (a4 : FVec Ideal S128 .f32)
    (a5 : FVec Ideal S3x272x128 .f32) (a6 : FVec Ideal S3x128 .f32) (a7 : FVec Ideal S3x128x128 .f32) (a8 : FVec Ideal S3x128 .f32) (a9 : FVec Ideal S3x256x128 .f32)
    (a10 a11 a12 : FVec Ideal S3x128 .f32) (a13 a14 : FVec Ideal S128 .f32)
    (e0 : V (Proc.devRef .tc Cert.ReferenceIdeal.main_arg0) = a0)
    (e1 : V (Proc.devRef .tc Cert.ReferenceIdeal.main_arg1) = a1)
    (e2 : V (Proc.devRef .tc Cert.ReferenceIdeal.main_arg2) = a2)
    (e3 : V (Proc.devRef .tc Cert.ReferenceIdeal.main_arg3) = a3)
    (e4 : V (Proc.devRef .tc Cert.ReferenceIdeal.main_arg4) = a4)
    (e5 : V (Proc.devRef .tc Cert.ReferenceIdeal.main_arg5) = a5)
    (e6 : V (Proc.devRef .tc Cert.ReferenceIdeal.main_arg6) = a6)
    (e7 : V (Proc.devRef .tc Cert.ReferenceIdeal.main_arg7) = a7)
    (e8 : V (Proc.devRef .tc Cert.ReferenceIdeal.main_arg8) = a8)
    (e9 : V (Proc.devRef .tc Cert.ReferenceIdeal.main_arg9) = a9)
    (e10 : V (Proc.devRef .tc Cert.ReferenceIdeal.main_arg10) = a10)
    (e11 : V (Proc.devRef .tc Cert.ReferenceIdeal.main_arg11) = a11)
    (e12 : V (Proc.devRef .tc Cert.ReferenceIdeal.main_arg12) = a12)
    (e13 : V (Proc.devRef .tc Cert.ReferenceIdeal.main_arg13) = a13)
    (e14 : V (Proc.devRef .tc Cert.ReferenceIdeal.main_arg14) = a14) :
    Cert.Spec.net Cert.ReferenceIdeal.ChainR.gathR Cert.ReferenceIdeal.ChainR.scatR
        (Cert.ReferenceIdeal.ChainR.rowI (V (Proc.devRef .tc Cert.ReferenceIdeal.main_arg2))) (Cert.ReferenceIdeal.ChainR.rowJ (V (Proc.devRef .tc Cert.ReferenceIdeal.main_arg2)))
        (V (Proc.devRef .tc Cert.ReferenceIdeal.main_arg0)) (V (Proc.devRef .tc Cert.ReferenceIdeal.main_arg1)) (V (Proc.devRef .tc Cert.ReferenceIdeal.main_arg3)) (V (Proc.devRef .tc Cert.ReferenceIdeal.main_arg4))
        (Cert.ReferenceIdeal.ChainR.wR0 V) (Cert.ReferenceIdeal.ChainR.wR1 V) (Cert.ReferenceIdeal.ChainR.wR2 V)
        (V (Proc.devRef .tc Cert.ReferenceIdeal.main_arg13)) (V (Proc.devRef .tc Cert.ReferenceIdeal.main_arg14))
    = netK a0 a1 a2 a3 a4 a5 a6 a7 a8 a9 a10 a11 a12 a13 a14 := by
  unfold Cert.ReferenceIdeal.ChainR.wR0 Cert.ReferenceIdeal.ChainR.wR1 Cert.ReferenceIdeal.ChainR.wR2
  rw [e0, e1, e2, e3, e4, e5, e6, e7, e8, e9, e10, e11, e12, e13, e14]
  rfl

end Cert.KernelIdeal.Bridge

end
-- ==== Proof.lean ====
import proofs.«404470_j89532888252999_1_alg».proof.Defs
import proofs.«404470_j89532888252999_1_alg».proof.Proof.Gen.Kernel
import proofs.«404470_j89532888252999_1_alg».proof.Proof.Gen.Kernel.Frame
import proofs.«404470_j89532888252999_1_alg».proof.Proof.Gen.KernelIdeal
import proofs.«404470_j89532888252999_1_alg».proof.Proof.Gen.KernelIdeal.Frame
import proofs.«404470_j89532888252999_1_alg».proof.Proof.Gen.ReferenceIdeal
import proofs.«404470_j89532888252999_1_alg».proof.Proof.Gen.Pre_finite_inputs
import proofs.«404470_j89532888252999_1_alg».proof.Proof.RunK
import proofs.«404470_j89532888252999_1_alg».proof.Proof.ChainK
import proofs.«404470_j89532888252999_1_alg».proof.Proof.ChainR
import proofs.«404470_j89532888252999_1_alg».proof.Proof.RefRun
import proofs.«404470_j89532888252999_1_alg».proof.Proof.TakeK
import proofs.«404470_j89532888252999_1_alg».proof.Proof.Bridge
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Gen.frame m ρ

theorem frame_pi : Cert.frame_KernelIdeal := fun m ρ _ => Cert.KernelIdeal.Gen.frame m ρ

/-- Each of the fifteen conjuncts "argument K ends unchanged": the run's fold is the identity on a buffer no operation writes. -/
local macro "kept_args" h:ident c:ident : tactic =>
  `(tactic| (repeat' apply And.intro
             all_goals exact (($h $c _).trans (Cert.ReferenceIdeal.RefRun.kept (by decide) _))))

theorem frame_ri : Cert.frame_ReferenceIdeal := fun m ρ _ =>
  (θ_run Cert.ReferenceIdeal.defs _ _).mono (fun _ h c => by kept_args h c)
    (Cert.ReferenceIdeal.RefRun.run (F := Ideal) m ρ)

theorem preserves : Cert.preserves_Kernel_KernelIdeal := trivial

theorem pre_rows (m : (ℓ : Loc Cert.KernelIdeal.nD Cert.KernelIdeal.τ Cert.KernelIdeal.sig) → Buf (Elt Ideal) ℓ) (hpre : Cert.Pre_KernelIdeal m)
    (c : Dev Cert.KernelIdeal.nD) :
    Cert.KernelIdeal.TakeK.InRange (Cert.KernelIdeal.TakeK.rowI (m ((c.tc : Thread Cert.KernelIdeal.nD Cert.KernelIdeal.τ).loc Cert.KernelIdeal.main_arg2)))
    ∧ Cert.KernelIdeal.TakeK.InRange (Cert.KernelIdeal.TakeK.rowJ (m ((c.tc : Thread Cert.KernelIdeal.nD Cert.KernelIdeal.τ).loc Cert.KernelIdeal.main_arg2))) :=
  Cert.KernelIdeal.TakeK.rows_in_range _ _ _ _ _ _ _ _ _ _ _ _ _ _ _ (hpre c)

theorem algebraic : Cert.algebraic_KernelIdeal_ReferenceIdeal := by
  intro m ρ m' ρ' hpre hagree
  refine ⟨fun c => Cert.KernelIdeal.Gen.W22 m ρ c (Proc.devRef .tc Cert.KernelIdeal.main_v80), Cert.KernelIdeal.RunK.run m ρ, ?_⟩
  refine (θ_run Cert.ReferenceIdeal.defs _ _).mono (fun _ h c =>
    ⟨(h c Cert.ReferenceIdeal.main_v260).trans ?_, by kept_args h c⟩)
    (Cert.ReferenceIdeal.RefRun.run (F := Ideal) m' ρ')
  obtain ⟨e0, e1, e2, e3, e4, e5, e6, e7, e8, e9, e10, e11, e12, e13, e14⟩ := hagree c
  rw [Cert.ReferenceIdeal.ChainR.ref_value_named]
  refine (Cert.KernelIdeal.Bridge.ref_eq_netK _ _ _ _ _ _ _ _ _ _ _ _ _ _ _ _ e0 e1 e2 e3 e4 e5 e6 e7 e8 e9 e10 e11 e12 e13 e14).trans ?_
  exact (Cert.KernelIdeal.ChainK.kernel_value m ρ c (pre_rows m hpre c)).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
